-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S800000 : Shape := ⟨1, ![800000]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x1 .f32) (main_arg10 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x1 .f32) (main_arg1 : IVec S800000 32) (main_arg2 : IVec S800000 32) (main_arg3 : FVec F S1x64 .f32) (main_arg4 : FVec F S64 .f32) (main_arg5 : FVec F S64x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_v13 main_v16
-- ==== Kernel.lean ====
abbrev S50000x1 : Shape := ⟨2, ![50000, 1]⟩
abbrev S800000 : Shape := ⟨1, ![800000]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S1x1 : Shape := ⟨2, ![1, 1]⟩
abbrev S1x6400 : Shape := ⟨2, ![1, 6400]⟩
abbrev S6400x1 : Shape := ⟨2, ![6400, 1]⟩
abbrev S1000x1 : Shape := ⟨2, ![1000, 1]⟩
abbrev S1000x6400 : Shape := ⟨2, ![1000, 6400]⟩
abbrev S50000x64 : Shape := ⟨2, ![50000, 64]⟩
abbrev S1000x64 : Shape := ⟨2, ![1000, 64]⟩
abbrev S1x128 : Shape := ⟨2, ![1, 128]⟩
abbrev S800000x64 : Shape := ⟨2, ![800000, 64]⟩
abbrev S6400x64 : Shape := ⟨2, ![6400, 64]⟩
abbrev S50000x128 : Shape := ⟨2, ![50000, 128]⟩
abbrev S1000x128 : Shape := ⟨2, ![1000, 128]⟩

abbrev nBuf : Space → Nat
  | .hbm => 85
  | .vmem => 56
  | .smem => 0
  | _ => 0

abbrev bufTy : (tb : Table) → Fin (tcTables nBuf tb) → BufTy
  | .hbm, ⟨0, _⟩ => ⟨S50000x1, .f32⟩
  | .hbm, ⟨1, _⟩ => ⟨S800000, .i32⟩
  | .hbm, ⟨2, _⟩ => ⟨S800000, .i32⟩
  | .hbm, ⟨3, _⟩ => ⟨S1x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1x64, .f32⟩
  | .hbm, ⟨12, _⟩ => ⟨S1x800000, .i32⟩
  | .hbm, ⟨13, _⟩ => ⟨S50000x1, .bf16⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x1, .bf16⟩
  | .hbm, ⟨23, _⟩ => ⟨S_, .f32⟩
  | .hbm, ⟨24, _⟩ => ⟨S1x1, .f32⟩
  | .hbm, ⟨25, _⟩ => ⟨S50000x1, .f32⟩
  | .hbm, ⟨26, _⟩ => ⟨S50000x1, .bf16⟩
  | .hbm, ⟨27, _⟩ => ⟨S1x64, .bf16⟩
  | .hbm, ⟨28, _⟩ => ⟨S50000x64, .f32⟩
  | .hbm, ⟨29, _⟩ => ⟨S1x128, .f32⟩
  | .hbm, ⟨30, _⟩ => ⟨S1x800000, .i32⟩
  | .hbm, ⟨31, _⟩ => ⟨S50000x64, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .bf16⟩
  | .hbm, ⟨41, _⟩ => ⟨S_, .f32⟩
  | .hbm, ⟨42, _⟩ => ⟨S1x64, .f32⟩
  | .hbm, ⟨43, _⟩ => ⟨S50000x64, .f32⟩
  | .hbm, ⟨44, _⟩ => ⟨S50000x64, .bf16⟩
  | .hbm, ⟨45, _⟩ => ⟨S64x128, .bf16⟩
  | .hbm, ⟨46, _⟩ => ⟨S50000x128, .f32⟩
  | .hbm, ⟨47, _⟩ => ⟨S1x64, .f32⟩
  | .hbm, ⟨48, _⟩ => ⟨S1x800000, .i32⟩
  | .hbm, ⟨49, _⟩ => ⟨S50000x128, .bf16⟩
  | .hbm, ⟨50, _⟩ => ⟨S128x64, .bf16⟩
  | .hbm, ⟨51, _⟩ => ⟨S_, .f32⟩
  | .hbm, ⟨52, _⟩ => ⟨S1x64, .f32⟩
  | .hbm, ⟨53, _⟩ => ⟨S50000x64, .f32⟩
  | .hbm, ⟨54, _⟩ => ⟨S50000x64, .bf16⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .bf16⟩
  | .hbm, ⟨64, _⟩ => ⟨S50000x64, .f32⟩
  | .hbm, ⟨65, _⟩ => ⟨S1x1, .f32⟩
  | .hbm, ⟨66, _⟩ => ⟨S1x800000, .i32⟩
  | .hbm, ⟨67, _⟩ => ⟨S50000x64, .bf16⟩
  | .hbm, ⟨68, _⟩ => ⟨S64x1, .bf16⟩
  | .hbm, ⟨69, _⟩ => ⟨S_, .f32⟩
  | .hbm, ⟨70, _⟩ => ⟨S1x1, .f32⟩
  | .hbm, ⟨71, _⟩ => ⟨S50000x1, .f32⟩
  | .hbm, ⟨72, _⟩ => ⟨S50000x1, .bf16⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x1, .bf16⟩
  | .hbm, ⟨82, _⟩ => ⟨S50000x1, .f32⟩
  | .hbm, ⟨83, _⟩ => ⟨S1x1, .f32⟩
  | .hbm, ⟨84, _⟩ => ⟨S1, .f32⟩
  | .local _ .vmem, ⟨0, _⟩ => ⟨S1x6400, .i32⟩
  | .local _ .vmem, ⟨1, _⟩ => ⟨S1x6400, .i32⟩
  | .local _ .vmem, ⟨2, _⟩ => ⟨S6400x1, .bf16⟩
  | .local _ .vmem, ⟨3, _⟩ => ⟨S6400x1, .bf16⟩
  | .local _ .vmem, ⟨4, _⟩ => ⟨S1x1, .f32⟩
  | .local _ .vmem, ⟨5, _⟩ => ⟨S1000x1, .f32⟩
  | .local _ .vmem, ⟨6, _⟩ => ⟨S1000x1, .f32⟩
  | .local _ .vmem, ⟨7, _⟩ => ⟨S1000x1, .f32⟩
  | .local _ .vmem, ⟨8, _⟩ => ⟨S1000x1, .bf16⟩
  | .local _ .vmem, ⟨9, _⟩ => ⟨S1000x1, .bf16⟩
  | .local _ .vmem, ⟨10, _⟩ => ⟨S1x64, .bf16⟩
  | .local _ .vmem, ⟨11, _⟩ => ⟨S1x64, .f32⟩
  | .local _ .vmem, ⟨12, _⟩ => ⟨S1000x64, .f32⟩
  | .local _ .vmem, ⟨13, _⟩ => ⟨S1000x64, .f32⟩
  | .local _ .vmem, ⟨14, _⟩ => ⟨S1x6400, .i32⟩
  | .local _ .vmem, ⟨15, _⟩ => ⟨S1x6400, .i32⟩
  | .local _ .vmem, ⟨16, _⟩ => ⟨S6400x64, .bf16⟩
  | .local _ .vmem, ⟨17, _⟩ => ⟨S6400x64, .bf16⟩
  | .local _ .vmem, ⟨18, _⟩ => ⟨S1x64, .f32⟩
  | .local _ .vmem, ⟨19, _⟩ => ⟨S1000x64, .f32⟩
  | .local _ .vmem, ⟨20, _⟩ => ⟨S1000x64, .f32⟩
  | .local _ .vmem, ⟨21, _⟩ => ⟨S1000x64, .f32⟩
  | .local _ .vmem, ⟨22, _⟩ => ⟨S1000x64, .bf16⟩
  | .local _ .vmem, ⟨23, _⟩ => ⟨S1000x64, .bf16⟩
  | .local _ .vmem, ⟨24, _⟩ => ⟨S64x128, .bf16⟩
  | .local _ .vmem, ⟨25, _⟩ => ⟨S1x128, .f32⟩
  | .local _ .vmem, ⟨26, _⟩ => ⟨S1000x128, .f32⟩
  | .local _ .vmem, ⟨27, _⟩ => ⟨S1000x128, .f32⟩
  | .local _ .vmem, ⟨28, _⟩ => ⟨S1000x128, .bf16⟩
  | .local _ .vmem, ⟨29, _⟩ => ⟨S1000x128, .bf16⟩
  | .local _ .vmem, ⟨30, _⟩ => ⟨S128x64, .bf16⟩
  | .local _ .vmem, ⟨31, _⟩ => ⟨S1x64, .f32⟩
  | .local _ .vmem, ⟨32, _⟩ => ⟨S1000x64, .f32⟩
  | .local _ .vmem, ⟨33, _⟩ => ⟨S1000x64, .f32⟩
  | .local _ .vmem, ⟨34, _⟩ => ⟨S1x6400, .i32⟩
  | .local _ .vmem, ⟨35, _⟩ => ⟨S1x6400, .i32⟩
  | .local _ .vmem, ⟨36, _⟩ => ⟨S6400x64, .bf16⟩
  | .local _ .vmem, ⟨37, _⟩ => ⟨S6400x64, .bf16⟩
  | .local _ .vmem, ⟨38, _⟩ => ⟨S1x64, .f32⟩
  | .local _ .vmem, ⟨39, _⟩ => ⟨S1000x64, .f32⟩
  | .local _ .vmem, ⟨40, _⟩ => ⟨S1000x64, .f32⟩
  | .local _ .vmem, ⟨41, _⟩ => ⟨S1000x64, .f32⟩
  | .local _ .vmem, ⟨42, _⟩ => ⟨S1000x64, .bf16⟩
  | .local _ .vmem, ⟨43, _⟩ => ⟨S1000x64, .bf16⟩
  | .local _ .vmem, ⟨44, _⟩ => ⟨S64x1, .bf16⟩
  | .local _ .vmem, ⟨45, _⟩ => ⟨S1x1, .f32⟩
  | .local _ .vmem, ⟨46, _⟩ => ⟨S1000x1, .f32⟩
  | .local _ .vmem, ⟨47, _⟩ => ⟨S1000x1, .f32⟩
  | .local _ .vmem, ⟨48, _⟩ => ⟨S1x6400, .i32⟩
  | .local _ .vmem, ⟨49, _⟩ => ⟨S1x6400, .i32⟩
  | .local _ .vmem, ⟨50, _⟩ => ⟨S6400x1, .bf16⟩
  | .local _ .vmem, ⟨51, _⟩ => ⟨S6400x1, .bf16⟩
  | .local _ .vmem, ⟨52, _⟩ => ⟨S1x1, .f32⟩
  | .local _ .vmem, ⟨53, _⟩ => ⟨S1000x1, .f32⟩
  | .local _ .vmem, ⟨54, _⟩ => ⟨S1000x1, .f32⟩
  | .local _ .vmem, ⟨55, _⟩ => ⟨S1000x1, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc7_scratch0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem3_0 : DmaSem sig := 50
abbrev cc7_sem3_1 : DmaSem sig := 51

abbrev nD : Nat := 1
abbrev τ : Topo := Topo.v7x

variable {F : FTy → Type} [FloatOps F]

abbrev grid0 : Pipeline.Grid := ⟨2, ![50, 125], ![false, false]⟩

def k0_cond2 (i : grid0.Coords) : BitVec 1 :=
  let arg1 : BitVec 32 := BitVec.ofNat 32 (i 1).val
  let c124_i32 : BitVec 32 := 124#32
  let v23 : BitVec 1 := Scalar.cmpi .eq arg1 c124_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x6400 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6400x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![50, 125], ![false, false]⟩

def k2_cond2 (i : grid2.Coords) : BitVec 1 :=
  let arg1 : BitVec 32 := BitVec.ofNat 32 (i 1).val
  let c124_i32 : BitVec 32 := 124#32
  let v23 : BitVec 1 := Scalar.cmpi .eq arg1 c124_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x6400 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S6400x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![50, 125], ![false, false]⟩

def k5_cond2 (i : grid5.Coords) : BitVec 1 :=
  let arg1 : BitVec 32 := BitVec.ofNat 32 (i 1).val
  let c124_i32 : BitVec 32 := 124#32
  let v23 : BitVec 1 := Scalar.cmpi .eq arg1 c124_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x6400 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S6400x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![50, 125], ![false, false]⟩

def k7_cond2 (i : grid7.Coords) : BitVec 1 :=
  let arg1 : BitVec 32 := BitVec.ofNat 32 (i 1).val
  let c124_i32 : BitVec 32 := 124#32
  let v23 : BitVec 1 := Scalar.cmpi .eq arg1 c124_i32
  let v24 : BitVec 32 := Scalar.extui v23
  let c0_i32_8 : BitVec 32 := 0#32
  let v25 : BitVec 1 := Scalar.cmpi .ne v24 c0_i32_8
  v25

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1x6400 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S6400x1 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

class Facts₀ : Prop where
  shapeCasts_S64_S1x64 : S64.ShapeCasts S1x64
  shapeCasts_S800000_S1x800000 : S800000.ShapeCasts S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S1x1 : S_.BroadcastsInDim S1x1 (![] : Fin 0 → Fin S1x1.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x6400_d0_w32 : S1000x6400.Iotas .tc 32 [0]
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  broadcasts_S1x6400_S1000x6400 : S1x6400.Broadcasts S1000x6400
  natLt_1_32 : 1 < 32
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  shapeCasts_S128_S1x128 : S128.ShapeCasts S1x128
  bcast_S_S1x64 : S_.BroadcastsInDim S1x64 (![] : Fin 0 → Fin S1x64.rank)
  shapeCasts_S1000x64_S1000x64 : S1000x64.ShapeCasts S1000x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  slices_S50000x1_S1x1_1_0 : S50000x1.Slices ![1, 0] S1x1
  shapeCasts_S1x1_S1 : S1x1.ShapeCasts S1
  gather_S50000x1_S800000x1_S800000x1_1_0_n_n_0_1_11_wf : GatherDims.WF S50000x1 S800000x1 S800000x1 [1] [0] [] [0] [] 1 ![1, 1]
  dot_S1000x6400_S6400x1_S1000x1_1_0_0_1_n_n_wf : DotDims.WF S1000x6400 S6400x1 S1000x1 [1] [0] [0] [1] [] []
  dot_S1000x1_S1x64_S1000x64_1_0_0_1_n_n_wf : DotDims.WF S1000x1 S1x64 S1000x64 [1] [0] [0] [1] [] []
  gather_S50000x64_S800000x1_S800000x64_1_0_n_n_0_1_164_wf : GatherDims.WF S50000x64 S800000x1 S800000x64 [1] [0] [] [0] [] 1 ![1, 64]
  dot_S1000x6400_S6400x64_S1000x64_1_0_0_1_n_n_wf : DotDims.WF S1000x6400 S6400x64 S1000x64 [1] [0] [0] [1] [] []
  dot_S1000x64_S64x128_S1000x128_1_0_0_1_n_n_wf : DotDims.WF S1000x64 S64x128 S1000x128 [1] [0] [0] [1] [] []
  dot_S1000x128_S128x64_S1000x64_1_0_0_1_n_n_wf : DotDims.WF S1000x128 S128x64 S1000x64 [1] [0] [0] [1] [] []
  dot_S1000x64_S64x1_S1000x1_1_0_0_1_n_n_wf : DotDims.WF S1000x64 S64x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6400.size a ≤ S1x800000.size a
  hwx0_0 : ∀ i : grid0.Coords, EltTy.bits .i32 = 32 ∨ (Rect.block (s := S1x800000) S1x6400.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S800000x1.size a
  hwx0_1 : ∀ i : grid0.Coords, EltTy.bits .bf16 = 32 ∨ (Rect.block (s := S800000x1) S6400x1.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S50000x1.size a
  hwx0_3 : ∀ i : grid0.Coords, EltTy.bits .f32 = 32 ∨ (Rect.block (s := S50000x1) S1000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1.size a ≤ S50000x1.size a
  hwx1_0 : ∀ i : grid1.Coords, EltTy.bits .bf16 = 32 ∨ (Rect.block (s := S50000x1) S1000x1.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .bf16 = 32 ∨ (Rect.block (s := S1x64) S1x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S50000x64.size a
  hwx1_3 : ∀ i : grid1.Coords, EltTy.bits .f32 = 32 ∨ (Rect.block (s := S50000x64) S1000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x6400.size a ≤ S1x800000.size a
  hwx2_0 : ∀ i : grid2.Coords, EltTy.bits .i32 = 32 ∨ (Rect.block (s := S1x800000) S1x6400.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x64.size a ≤ S800000x64.size a
  hwx2_1 : ∀ i : grid2.Coords, EltTy.bits .bf16 = 32 ∨ (Rect.block (s := S800000x64) S6400x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S50000x64.size a
  hwx2_3 : ∀ i : grid2.Coords, EltTy.bits .f32 = 32 ∨ (Rect.block (s := S50000x64) S1000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S50000x64.size a
  hwx3_0 : ∀ i : grid3.Coords, EltTy.bits .bf16 = 32 ∨ (Rect.block (s := S50000x64) S1000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .bf16 = 32 ∨ (Rect.block (s := S64x128) S64x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S50000x128.size a
  hwx3_3 : ∀ i : grid3.Coords, EltTy.bits .f32 = 32 ∨ (Rect.block (s := S50000x128) S1000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .bf16 = 32 ∨ (Rect.block (s := S50000x128) S1000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .bf16 = 32 ∨ (Rect.block (s := S128x64) S128x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x64.size a ≤ S50000x64.size a
  hwx4_3 : ∀ i : grid4.Coords, EltTy.bits .f32 = 32 ∨ (Rect.block (s := S50000x64) S1000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x6400.size a ≤ S1x800000.size a
  hwx5_0 : ∀ i : grid5.Coords, EltTy.bits .i32 = 32 ∨ (Rect.block (s := S1x800000) S1x6400.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6400x64.size a ≤ S800000x64.size a
  hwx5_1 : ∀ i : grid5.Coords, EltTy.bits .bf16 = 32 ∨ (Rect.block (s := S800000x64) S6400x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x64.size a ≤ S50000x64.size a
  hwx5_3 : ∀ i : grid5.Coords, EltTy.bits .f32 = 32 ∨ (Rect.block (s := S50000x64) S1000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S50000x64.size a
  hwx6_0 : ∀ i : grid6.Coords, EltTy.bits .bf16 = 32 ∨ (Rect.block (s := S50000x64) S1000x64.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .bf16 = 32 ∨ (Rect.block (s := S64x1) S64x1.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x1.size a ≤ S50000x1.size a
  hwx6_3 : ∀ i : grid6.Coords, EltTy.bits .f32 = 32 ∨ (Rect.block (s := S50000x1) S1000x1.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x6400.size a ≤ S1x800000.size a
  hwx7_0 : ∀ i : grid7.Coords, EltTy.bits .i32 = 32 ∨ (Rect.block (s := S1x800000) S1x6400.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6400x1.size a ≤ S800000x1.size a
  hwx7_1 : ∀ i : grid7.Coords, EltTy.bits .bf16 = 32 ∨ (Rect.block (s := S800000x1) S6400x1.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x1.size a ≤ S50000x1.size a
  hwx7_3 : ∀ i : grid7.Coords, EltTy.bits .f32 = 32 ∨ (Rect.block (s := S50000x1) S1000x1.size (cc7_transform_3 i) (hinb7_3 i)).WholeWords (EltTy.packing .f32)

variable [Facts₀]

def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def dot_S1000x6400_S6400x1_S1000x1_1_0_0_1_n_n : DotDims S1000x6400 S6400x1 S1000x1 where
  lhsContracting := [1]
  rhsContracting := [0]
  lhsNonContracting := [0]
  rhsNonContracting := [1]
  lhsBatch := []
  rhsBatch := []
  wf := dot_S1000x6400_S6400x1_S1000x1_1_0_0_1_n_n_wf
def dot_S1000x1_S1x64_S1000x64_1_0_0_1_n_n : DotDims S1000x1 S1x64 S1000x64 where
  lhsContracting := [1]
  rhsContracting := [0]
  lhsNonContracting := [0]
  rhsNonContracting := [1]
  lhsBatch := []
  rhsBatch := []
  wf := dot_S1000x1_S1x64_S1000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S1000x6400_S6400x64_S1000x64_1_0_0_1_n_n : DotDims S1000x6400 S6400x64 S1000x64 where
  lhsContracting := [1]
  rhsContracting := [0]
  lhsNonContracting := [0]
  rhsNonContracting := [1]
  lhsBatch := []
  rhsBatch := []
  wf := dot_S1000x6400_S6400x64_S1000x64_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

abbrev win0_0 : Pipeline.Window sig grid0 :=
  Pipeline.Window.ofSpec (Memref.whole main_v1) S1x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v12) S1000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S1x6400.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S6400x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v27) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v32) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v34) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S1000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v31) S1x6400.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S6400x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S1000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v47) S1000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v48) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v49) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v50) S1000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v46) S1x6400.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v58) S6400x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v45) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v59) S1000x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

class Facts : Prop extends Facts₀ where

variable [Facts]
-- ==== ReferenceIdeal.lean ====
abbrev S50000x1 : Shape := ⟨2, ![50000, 1]⟩
abbrev S800000 : Shape := ⟨1, ![800000]⟩
abbrev S1x64 : Shape := ⟨2, ![1, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S50000x64 : Shape := ⟨2, ![50000, 64]⟩
abbrev S800000x64 : Shape := ⟨2, ![800000, 64]⟩
abbrev S50000x128 : Shape := ⟨2, ![50000, 128]⟩
abbrev S1x128 : Shape := ⟨2, ![1, 128]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S50000x1, .f32⟩
  | .hbm, ⟨1, _⟩ => ⟨S800000, .i32⟩
  | .hbm, ⟨2, _⟩ => ⟨S800000, .i32⟩
  | .hbm, ⟨3, _⟩ => ⟨S1x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x1, .f32⟩
  | .hbm, ⟨20, _⟩ => ⟨S_, .f32⟩
  | .hbm, ⟨21, _⟩ => ⟨S50000x1, .f32⟩
  | .hbm, ⟨22, _⟩ => ⟨S800000x1, .i32⟩
  | .hbm, ⟨23, _⟩ => ⟨S50000x1, .f32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | .hbm, ⟨28, _⟩ => ⟨S_, .f32⟩
  | .hbm, ⟨29, _⟩ => ⟨S50000x64, .f32⟩
  | .hbm, ⟨30, _⟩ => ⟨S50000x64, .i1⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .i1⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S_, .f32⟩
  | .hbm, ⟨70, _⟩ => ⟨S50000x64, .f32⟩
  | .hbm, ⟨71, _⟩ => ⟨S800000x1, .i32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S50000x64, .f32⟩
  | .hbm, ⟨78, _⟩ => ⟨S50000x64, .i1⟩
  | .hbm, ⟨79, _⟩ => ⟨S_, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S50000x1, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x1, .f32⟩
  | .hbm, ⟨93, _⟩ => ⟨S_, .f32⟩
  | .hbm, ⟨94, _⟩ => ⟨S50000x1, .f32⟩
  | .hbm, ⟨95, _⟩ => ⟨S800000x1, .i32⟩
  | .hbm, ⟨96, _⟩ => ⟨S50000x1, .f32⟩
  | .hbm, ⟨97, _⟩ => ⟨S1x1, .f32⟩
  | .hbm, ⟨98, _⟩ => ⟨S50000x1, .f32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .i1⟩
  | .hbm, ⟨103, _⟩ => ⟨S_, .f32⟩
  | .hbm, ⟨104, _⟩ => ⟨S50000x1, .f32⟩
  | .hbm, ⟨105, _⟩ => ⟨S50000x1, .f32⟩
  | .hbm, ⟨106, _⟩ => ⟨S50000x1, .f32⟩
  | .hbm, ⟨107, _⟩ => ⟨S1x1, .f32⟩
  | .hbm, ⟨108, _⟩ => ⟨S1, .f32⟩
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_c_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x1 : S_.BroadcastsInDim S50000x1 (![] : Fin 0 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  slices_S50000x1_S1x1_1_0 : S50000x1.Slices ![1, 0] S1x1
  shapeCasts_S1x1_S1 : S1x1.ShapeCasts S1
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S50000x1_S1x64_S50000x64_1_0_0_1_n_n_wf : DotDims.WF S50000x1 S1x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KI.RunCond.lean ====
/- The run of @main given the eight regions' segment records: every weakly fair execution terminates, the result array ends at the chain's last valuation, each argument as launched. -/
import proofs.«406692_j3745211482886_1_alg».proof.Proof.Gen.KernelIdeal.Regions

set_option maxRecDepth 1076

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- What the run ends at on core `c`: the result array at the chain's last valuation, each argument as launched. -/
abbrev Final (m : (ℓ : Loc nD τ sig) → Buf (Elt F) ℓ) (outs : Outs (F := F)) (c : Dev nD) (s : MemSt nD τ sig (Elt F)) : Prop :=
  s.mem ((c.tc : Thread nD τ).loc main_v61) = V17 m outs c main_v61
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

set_option backward.isDefEq.respectTransparency.types false in
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c)) :
    θ_run defs (onTc (τ := τ) (main (F := F))) ⟨m, fun _ => 0, ρ⟩ (fun r => ∀ c : Dev nD, Final m outs c r.2) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, sep_mono .rfl (hE8 c)⟩)
    (hinit := ?_) (QY := Final m outs)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      have rdb := fun (b : Ref sig .tc) (hb : ¬ (Proc.devRef (τ := τ) .tc b).isScoped) =>
        h (Proc.devRef .tc b) (Finset.mem_filter.mpr ⟨StableHlo.devRef_mem_tcRefs b, hb⟩)
      exact ⟨rdb main_v61 (by decide), (rdb main_arg0 (by decide)).trans (V17_main_arg0 m outs c),
        (rdb main_arg1 (by decide)).trans (V17_main_arg1 m outs c),
        (rdb main_arg2 (by decide)).trans (V17_main_arg2 m outs c),
        (rdb main_arg3 (by decide)).trans (V17_main_arg3 m outs c),
        (rdb main_arg4 (by decide)).trans (V17_main_arg4 m outs c),
        (rdb main_arg5 (by decide)).trans (V17_main_arg5 m outs c),
        (rdb main_arg6 (by decide)).trans (V17_main_arg6 m outs c),
        (rdb main_arg7 (by decide)).trans (V17_main_arg7 m outs c),
        (rdb main_arg8 (by decide)).trans (V17_main_arg8 m outs c),
        (rdb main_arg9 (by decide)).trans (V17_main_arg9 m outs c),
        (rdb main_arg10 (by decide)).trans (V17_main_arg10 m outs c)⟩
    · iexact HSI

end Cert.KernelIdeal.Hand

end
-- ==== Proof.KI.R0Runs.lean ====
/- Region 0 of @main (`cc0__spmm_kernel`): what the three control cases of the body share. -/
import proofs.«406692_j3745211482886_1_alg».proof.Proof.Gen.KernelIdeal.Launch
import proofs.«406692_j3745211482886_1_alg».proof.Proof.Gen.KernelIdeal.Skeleton
import proofs.«406692_j3745211482886_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

-- Window `w`'s block at point `t`, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

-- The body's two conditions (first edge tile, last edge tile), in closed form over the grid.
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)

abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
-- The output window is idle exactly where the second condition fails.
theorem idle0_3_of_not (i : grid0.Coords) (h : ¬cond0_1 i) : cfg0.idle 3 i = true := by
  show (!(k0_cond2 i == 1#1)) = true
  rw [Bool.not_eq_true', beq_eq_false_iff_ne]; exact h
theorem idle0_3_of (i : grid0.Coords) (h : cond0_1 i) : cfg0.idle 3 i = false := by
  show (!(k0_cond2 i == 1#1)) = false
  rw [Bool.not_eq_false', beq_iff_eq]; exact h

-- The memrefs the body is called with at point `t`, and the accumulator.
abbrev ms0_0 (t : Fin cfg0.N) : Memref sig .tc .vmem S1x6400 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6400x1 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x1 .f32 := win0_3.stage (cfg0.slots t 3)
abbrev hs0_3 (t : Fin cfg0.N) : (ms0_3 t).IsWhole := hstage0_3 ((cfg0.slots t 3).cast nbuf0_3)
abbrev scM0_0 : Memref sig .tc .vmem S1000x1 .f32 := Memref.whole cc0_scratch0

abbrev restBut0 (c : Dev nD) : sProp 𝕄 :=
  Pipeline.scopedRestBut (Ix := Unit) (Name := ℕ) (U := Pipeline.UD sig nD τ) (Lvl := ℕ) (Val := Elt F) spec0 c [cc0_scratch0]

-- A whole memref held at the raw contents that read `X` is owned at `X`.
theorem held_unread0 {c : Dev nD} {sp : Space} {sh : Shape} {e : EltTy} {m : Memref sig .tc sp sh e} (h : m.IsWhole) (X : sh.Idx → Elt F e) :
    (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
  iintro H; iexists _; isplitr; · ipureintro; exact h.read_unread _
  iexact H

-- The class invariant with the accumulator split off the other scoped buffers.
theorem PhiA0_eq (c : Dev nD) :
    (Pipeline.ΦA spec0 c : sProp 𝕄)
      = iprop(iprop(iprop((∃ d, owns (c : Thread nD τ) scM0_0 fullShare d)) ∗ restBut0 c) ∗ (∃ r, prngReg c r)) := by
  unfold Pipeline.ΦA; rw [scopedRest0_split]; simp only [scM0_0, owns_whole]; try rfl

end Cert.KernelIdeal.Hand

end
-- ==== Proof.KI.R0RunA.lean ====
/- Region 0 of @main (`cc0__spmm_kernel`): the whole-body run of the kernel in case A (first edge tile of a node tile). -/
import proofs.«406692_j3745211482886_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun0_A (c : Dev nD) (i : grid0.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : cond0_0 i) (hc1 : ¬cond0_1 i)
    (x0 : Vec F S1x6400 .i32) (x1 : Vec F S6400x1 .bf16) (x2 : Vec F S1x1 .f32) :
    Σ' (L3 : List (View.Piece (Elt F) S1000x1 .f32)), { LS0 : List (View.Piece (Elt F) S1000x1 .f32) //
      ∀ (xi3 : Vec F S1000x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_kernel i arg2 harg2 arg3 harg3 arg4 harg4 arg5 harg5 arg6 harg6) K } := by
  refine ⟨[], ?_, fun xi3 E K => ?run⟩
  case run =>
    simp only [cc0__spmm_kernel_eq_skeleton]; unfold cc0__spmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]; · iapply (held_unread0 harg2 _); iexact H0
    isplitl [H1]; · iapply (held_unread0 harg3 _); iexact H1
    isplitl [H2]; · iapply (held_unread0 harg4 _); iexact H2
    isplitl [H3]; · iapply (held_unread0 harg5 _); iexact H3
    iexists _; iexact HS0

end Cert.KernelIdeal.Hand

end
-- ==== Proof.KI.R0RunB.lean ====
/- Region 0 of @main (`cc0__spmm_kernel`): the whole-body run of the kernel in case B (an inner edge tile of a node tile). -/
import proofs.«406692_j3745211482886_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun0_B (c : Dev nD) (i : grid0.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : ¬cond0_0 i) (hc1 : ¬cond0_1 i)
    (x0 : Vec F S1x6400 .i32) (x1 : Vec F S6400x1 .bf16) (x2 : Vec F S1x1 .f32) (xs0 : Vec F S1000x1 .f32) :
    Σ' (L3 : List (View.Piece (Elt F) S1000x1 .f32)), { LS0 : List (View.Piece (Elt F) S1000x1 .f32) //
      ∀ (xi3 : Vec F S1000x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_kernel i arg2 harg2 arg3 harg3 arg4 harg4 arg5 harg5 arg6 harg6) K } := by
  refine ⟨[], ?_, fun xi3 E K => ?run⟩
  case run =>
    simp only [cc0__spmm_kernel_eq_skeleton]; unfold cc0__spmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]; · iapply (held_unread0 harg2 _); iexact H0
    isplitl [H1]; · iapply (held_unread0 harg3 _); iexact H1
    isplitl [H2]; · iapply (held_unread0 harg4 _); iexact H2
    isplitl [H3]; · iapply (held_unread0 harg5 _); iexact H3
    iexists _; iexact HS0

end Cert.KernelIdeal.Hand

end
-- ==== Proof.KI.R0RunC.lean ====
/- Region 0 of @main (`cc0__spmm_kernel`): the whole-body run of the kernel in case C (last edge tile of a node tile). -/
import proofs.«406692_j3745211482886_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun0_C (c : Dev nD) (i : grid0.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : ¬cond0_0 i) (hc1 : cond0_1 i)
    (x0 : Vec F S1x6400 .i32) (x1 : Vec F S6400x1 .bf16) (x2 : Vec F S1x1 .f32) (xs0 : Vec F S1000x1 .f32) :
    Σ' (L3 : List (View.Piece (Elt F) S1000x1 .f32)), { LS0 : List (View.Piece (Elt F) S1000x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_kernel i arg2 harg2 arg3 harg3 arg4 harg4 arg5 harg5 arg6 harg6) K } := by
  refine ⟨?_, ?_, fun E K => ?run⟩
  case run =>
    simp only [cc0__spmm_kernel_eq_skeleton]; unfold cc0__spmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]; · iapply (held_unread0 harg2 _); iexact H0
    isplitl [H1]; · iapply (held_unread0 harg3 _); iexact H1
    isplitl [H2]; · iapply (held_unread0 harg4 _); iexact H2
    isplitl [H3]; · iexists _; iexact H3
    iexists _; iexact HS0

end Cert.KernelIdeal.Hand

end
-- ==== Proof.KI.R0.lean ====
/- Region 0 of @main: the pipeline's proof data at the region-entry contents `V`, the body obligation, and the invariant's two ends. -/
import proofs.«406692_j3745211482886_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- A run that takes the inputs, the output's buffer as `P3 d` and the accumulator as `P6` and hands the inputs back with `Q3 d` and `Q6` carries the rest of the invariant and what is owed across.
theorem body_of_run0 {c : Dev nD} {D0 D1 D2 D3 : Type} {e : Prog (TpuEff nD τ sig (Elt F) Λ₀ .tc) PUnit}
    {Φ S' I0 I1 I2 P6 Q6 R G O L3 : sProp 𝕄} {B3 P3 Q3 : D3 → sProp 𝕄}
    (hrun : ∀ (d : D3) (K : PUnit → sProp 𝕄), iprop(I0 ∗ I1 ∗ I2 ∗ P3 d ∗ P6 ∗ (iprop(I0 ∗ I1 ∗ I2 ∗ Q3 d ∗ Q6) -∗ K ⟨⟩))
      ⊢ wp frame (wpE (defs₀ (F := F)) Variants.none c none) Set.univ e K)
    (hΦ : Φ ⊢ iprop(iprop(P6 ∗ R) ∗ G)) (h6 : Q6 ⊢ S') (h3 : ∀ d, B3 d ⊢ P3 d) (h3' : ∀ d, Q3 d ⊢ L3) :
    iprop(Φ ∗ O ∗ (∃ _d : D0, I0) ∗ (∃ _d : D1, I1) ∗ (∃ _d : D2, I2) ∗ (∃ d, B3 d))
      ⊢ wp frame (wpE (defs₀ (F := F)) Variants.none c none) Set.univ e
          (fun _ => iprop(iprop(iprop(S' ∗ R) ∗ G) ∗ O ∗ I0 ∗ I1 ∗ I2 ∗ L3)) := by
  iintro ⟨HP, Ho, ⟨%d0, H0⟩, ⟨%d1, H1⟩, ⟨%d2, H2⟩, ⟨%d3, H3⟩⟩
  ihave HP' := (hΦ) $$ HP
  icases HP' with ⟨⟨HS, HR⟩, Hg⟩
  iapply (hrun d3 _)
  isplitl [H0]; · iexact H0
  isplitl [H1]; · iexact H1
  isplitl [H2]; · iexact H2
  isplitl [H3]; · iapply (h3 d3); iexact H3
  isplitl [HS]; · iexact HS
  iintro ⟨H0, H1, H2, H3, HS⟩
  isplitl [HS HR Hg]
  · isplitl [HS HR]
    · isplitl [HS]; · iapply h6; iexact HS
      iexact HR
    iexact Hg
  isplitl [Ho]; · iexact Ho
  isplitl [H0]; · iexact H0
  isplitl [H1]; · iexact H1
  isplitl [H2]; · iexact H2
  iapply (h3' d3); iexact H3

-- Stored pieces that tile a buffer leave it owned at their closed form, whatever it held before.
theorem owns_of_pieces0 (c : Dev nD) {m : Memref sig .tc .vmem S1000x1 .f32} {L : List (View.Piece (Elt F) S1000x1 .f32)}
    (hL : View.Piece.tiledL L S1000x1.size = true) :
    iprop(∃ f, m.view.loc (c : Thread nD τ) ↦[m.view.set]{fullShare} m.view.writes (Elt F) f L)
      ⊢ (owns (c : Thread nD τ) m fullShare (View.canon L) : sProp 𝕄) := by
  iintro ⟨%f, H⟩
  unfold owns; iexists _; isplitr
  swap; · iexact H
  ipureintro; exact View.read_writes_eq_canon _ _ _ (View.cover_of_tiledL L S1000x1.size hL)

variable (V : (c : Dev nD) → (b : Ref sig .tc) → Buf (Elt F) ((c : Thread nD τ).loc b)) (c : Dev nD)

section Point
variable (t : Fin cfg0.N)

-- The three cases' runs at point `t`: its memrefs, the accumulator, its input blocks.
def runA0 (h0 : t.val % 125 = 0) (h1 : ¬t.val % 125 = 124) :=
  kernelRun0_A c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (iblk0 V c 0 t) (iblk0 V c 1 t) (iblk0 V c 2 t)
def runB0 (h0 : ¬t.val % 125 = 0) (h1 : ¬t.val % 125 = 124) (xs0 : Vec F S1000x1 .f32) :=
  kernelRun0_B c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk0 V c 0 t) (iblk0 V c 1 t) (iblk0 V c 2 t) xs0
def runC0 (h0 : ¬t.val % 125 = 0) (h1 : t.val % 125 = 124) (xs0 : Vec F S1000x1 .f32) :=
  kernelRun0_C c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk0 V c 0 t) (iblk0 V c 1 t) (iblk0 V c 2 t) xs0

-- The pair (output block, accumulator) point `t` leaves when the accumulator held `xs0` before it: reset at the first edge tile of a node tile, added to at every edge tile, copied out at the last.
def pt0 (xs0 : Vec F S1000x1 .f32) : Vec F S1000x1 .f32 × Vec F S1000x1 .f32 :=
  if h0 : t.val % 125 = 0 then (View.canon (runA0 V c t h0 (by omega)).1, View.canon (runA0 V c t h0 (by omega)).2.1)
  else if h1 : t.val % 125 = 124 then (View.canon (runC0 V c t h0 h1 xs0).1, View.canon (runC0 V c t h0 h1 xs0).2.1)
  else (View.canon (runB0 V c t h0 h1 xs0).1, View.canon (runB0 V c t h0 h1 xs0).2.1)

theorem pt0_A (h0 : t.val % 125 = 0) (h1 : ¬t.val % 125 = 124) (xs0 : Vec F S1000x1 .f32) :
    pt0 V c t xs0 = (View.canon (runA0 V c t h0 h1).1, View.canon (runA0 V c t h0 h1).2.1) := dif_pos h0
theorem pt0_B (h0 : ¬t.val % 125 = 0) (h1 : ¬t.val % 125 = 124) (xs0 : Vec F S1000x1 .f32) :
    pt0 V c t xs0 = (View.canon (runB0 V c t h0 h1 xs0).1, View.canon (runB0 V c t h0 h1 xs0).2.1) := (dif_neg h0).trans (dif_neg h1)
theorem pt0_C (h0 : ¬t.val % 125 = 0) (h1 : t.val % 125 = 124) (xs0 : Vec F S1000x1 .f32) :
    pt0 V c t xs0 = (View.canon (runC0 V c t h0 h1 xs0).1, View.canon (runC0 V c t h0 h1 xs0).2.1) := (dif_neg h0).trans (dif_pos h1)

end Point

-- What the accumulator holds before position `n`: what the point before left there.
def accAt0 : ℕ → Vec F S1000x1 .f32
  | 0 => View.canon []
  | n + 1 => if h : n < cfg0.N then (pt0 V c ⟨n, h⟩ (accAt0 n)).2 else accAt0 n

theorem accAt0_succ (t : Fin cfg0.N) : accAt0 V c (t.val + 1) = (pt0 V c t (accAt0 V c t.val)).2 := dif_pos t.isLt

-- The region invariant before position `n`: the class's before the first point; afterwards the same with the accumulator at `accAt0`.
def PhiS0 : ℕ → sProp 𝕄
  | 0 => Pipeline.ΦA spec0 c
  | n + 1 => iprop(iprop(owns (c : Thread nD τ) scM0_0 fullShare (accAt0 V c (n + 1)) ∗ restBut0 c) ∗ (∃ r, prngReg c r))

theorem PhiS0_pos (n : ℕ) (hz : n ≠ 0) :
    PhiS0 V c n = iprop(iprop(owns (c : Thread nD τ) scM0_0 fullShare (accAt0 V c n) ∗ restBut0 c) ∗ (∃ r, prngReg c r)) := by
  cases n with
  | zero => exact absurd rfl hz
  | succ n => rfl

-- Before any point the invariant gives the class's, opened: the accumulator's named contents are forgotten.
theorem PhiS0_le (n : ℕ) :
    PhiS0 V c n ⊢ iprop(iprop(iprop((∃ d, owns (c : Thread nD τ) scM0_0 fullShare d)) ∗ restBut0 c) ∗ (∃ r, prngReg c r)) := by
  cases n with
  | zero => exact Entails.of_eq (PhiA0_eq c)
  | succ n =>
    rw [PhiS0_pos V c _ (Nat.succ_ne_zero n)]
    iintro ⟨⟨HS0, HR⟩, Hg⟩
    isplitl [HS0 HR]
    · isplitl [HS0]
      · iexists _; iexact HS0
      iexact HR
    iexact Hg

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (pt0 V c t (accAt0 V c t.val)).1
  Φ t := PhiS0 V c t.val
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = (pt0 V c t (accAt0 V c t.val)).1 := by dsimp only [dat0]

theorem before0_0 (t : Fin cfg0.N) (d) : (dat0 V c).before 0 t d = iblk0 V c 0 t :=
  before0_0_of V (dat0 V c) (A_eq0 V c 0) (after0_0 V c) t d
theorem before0_1 (t : Fin cfg0.N) (d) : (dat0 V c).before 1 t d = iblk0 V c 1 t :=
  before0_1_of V (dat0 V c) (A_eq0 V c 1) (after0_1 V c) t d
theorem before0_2 (t : Fin cfg0.N) (d) : (dat0 V c).before 2 t d = iblk0 V c 2 t :=
  before0_2_of V (dat0 V c) (A_eq0 V c 2) (after0_2 V c) t d

theorem leavesExact0_0 (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leavesExact0_1 (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leavesExact0_2 (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leavesExact0_3_live (t : Fin cfg0.N) (h1 : t.val % 125 = 124) :
    (dat0 V c).leavesExact 3 t = owns (c : Thread nD τ) (ms0_3 t) fullShare (pt0 V c t (accAt0 V c t.val)).1 := by
  rw [show (dat0 V c).leavesExact 3 t = owns (c : Thread nD τ) (ms0_3 t) fullShare ((dat0 V c).after 3 t) from by
    unfold Dat.leavesExact; rw [idle0_3_of _ ((hcond0_1 t).mpr h1)], after0_3]
theorem leavesExact0_3_idle (t : Fin cfg0.N) (h1 : ¬t.val % 125 = 124) :
    (dat0 V c).leavesExact 3 t = iprop(∃ d, owns (c : Thread nD τ) (ms0_3 t) fullShare ((dat0 V c).before 3 t d)) :=
  Dat.leavesExact_idle _ 3 t (idle0_3_of_not _ fun h => h1 ((hcond0_1 t).mp h)) (Bool.eq_false_iff.mpr fun h => h1 ((flush0_3 t).mp h))

def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
-- The body at any point: the closed forms of the two conditions say which case's run applies; the invariant lends it the accumulator and takes it back at this point's contents.
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, leavesExact0_0, leavesExact0_1, leavesExact0_2]
  rw [show (dat0 V c).owesAt () t.succ = (dat0 V c).owesAt () t.castSucc from rfl,
    show (dat0 V c).Φ t.succ = PhiS0 V c (t.val + 1) from rfl, PhiS0_pos V c (t.val + 1) (Nat.succ_ne_zero _), accAt0_succ V c t,
    show (dat0 V c).Φ t.castSucc = PhiS0 V c t.val from rfl]
  by_cases h0 : t.val % 125 = 0
  · have h1 : ¬t.val % 125 = 124 := by omega
    rw [leavesExact0_3_idle V c t h1, pt0_A V c t h0 h1]
    exact body_of_run0 (fun d K => (runA0 V c t h0 h1).2.2 ((dat0 V c).before 3 t d) Set.univ K) (PhiS0_le V c t.val)
      (owns_of_pieces0 c (by sl_kernel_rfl)) (fun _ => Entails.refl _) (fun d => by iintro H; iexists d; iexact H)
  · have hz : t.val ≠ 0 := fun e => h0 (by rw [e])
    by_cases h1 : t.val % 125 = 124
    · rw [leavesExact0_3_live V c t h1, pt0_C V c t h0 h1]
      exact body_of_run0 (fun _ K => (runC0 V c t h0 h1 (accAt0 V c t.val)).2.2 Set.univ K) (Entails.of_eq (PhiS0_pos V c _ hz))
        (owns_of_pieces0 c (by sl_kernel_rfl)) (fun d => by iintro H; iexists _; iexact H) (fun _ => owns_of_pieces0 c (by sl_kernel_rfl))
    · rw [leavesExact0_3_idle V c t h1, pt0_B V c t h0 h1]
      exact body_of_run0 (fun d K => (runB0 V c t h0 h1 (accAt0 V c t.val)).2.2 ((dat0 V c).before 3 t d) Set.univ K) (Entails.of_eq (PhiS0_pos V c _ hz))
        (owns_of_pieces0 c (by sl_kernel_rfl)) (fun _ => Entails.refl _) (fun d => by iintro H; iexists d; iexact H)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := Entails.of_eq rfl

theorem hout0 (c : Dev nD) : (dat0 V c).Φ (Fin.last cfg0.N) ⊢ (Pipeline.ΦA spec0 c : sProp 𝕄) := by
  rw [PhiA0_eq]; exact PhiS0_le V c (Fin.last cfg0.N).val

end Cert.KernelIdeal.Hand

end
-- ==== Proof.KI.R1.lean ====
/- Region 1 of @main (custom_call 1, `cc1__dense_kernel`: a dense layer with bias and leaky rectifier; output array `main_v14`): the proof data at the contents the region is entered from, the body obligation, and the invariant's two ends. -/
import proofs.«406692_j3745211482886_1_alg».proof.Proof.Gen.KernelIdeal.Launch
import proofs.«406692_j3745211482886_1_alg».proof.Proof.Gen.KernelIdeal.Skeleton
import proofs.«406692_j3745211482886_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1000x1 := Rect.unit (s := S1000x1) ![0, 0] S1000x1.size inb_S1000x1_S1000x1_0_0
abbrev r1_1 : Rect S1x64 := Rect.unit (s := S1x64) ![0, 0] S1x64.size inb_S1x64_S1x64_0_0
abbrev r1_2 : Rect S1x64 := Rect.unit (s := S1x64) ![0, 0] S1x64.size inb_S1x64_S1x64_0_0
abbrev r1_3 : Rect S1000x64 := Rect.unit (s := S1000x64) ![0, 0] S1000x64.size inb_S1000x64_S1000x64_0_0

def out1_3 (x0 : Vec F S1000x1 .bf16) (x1 : Vec F S1x64 .bf16) (x2 : Vec F S1x64 .f32) : Vec F S1000x64 .f32 :=
  View.canon [⟨r1_3, k1_pay1 (View.ld x0 r1_0) (View.ld x1 r1_1) (View.ld x2 r1_2)⟩]

-- The body on whole memrefs: it loads the operand blocks, stores the payload over the whole output block and changes nothing else.
theorem sound_kernel1 (c : Dev nD) (E : Set ℕ) (i : grid1.Coords) (arg1 : Memref sig .tc .vmem S1000x1 .bf16) (harg1 : arg1.IsWhole) (arg2 : Memref sig .tc .vmem S1x64 .bf16) (harg2 : arg2.IsWhole) (arg3 : Memref sig .tc .vmem S1x64 .f32) (harg3 : arg3.IsWhole) (arg4 : Memref sig .tc .vmem S1000x64 .f32) (harg4 : arg4.IsWhole)
    (x0 : Vec F S1000x1 .bf16) (x1 : Vec F S1x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x64.size (by rfl))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl
theorem q_eq1 (c : Dev nD) (w : Fin cfg1.W) : (dat1 V c).q w = fullShare := rfl
theorem owed_eq1 (c : Dev nD) (t : Fin (cfg1.N + 1)) : (dat1 V c).owed t = 0 := rfl

-- The body leaves each operand's block in place, so every point finds it as the region did.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

-- The body at any point, whatever else is held (`R`, `R'`): the operands' memrefs hold their blocks, so `sound_kernel1` applies.
theorem sound_body1 (c : Dev nD) (t : Fin cfg1.N) (R R' : sProp 𝕄) :
    iprop(R ∗ R'
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) fun _ => iprop(R ∗ R'
      ∗ owns (c : Thread nD τ) (st1_0 t) fullShare ((dat1 V c).after 0 t)
      ∗ owns (c : Thread nD τ) (st1_1 t) fullShare ((dat1 V c).after 1 t)
      ∗ owns (c : Thread nD τ) (st1_2 t) fullShare ((dat1 V c).after 2 t)
      ∗ owns (c : Thread nD τ) (st1_3 t) fullShare ((dat1 V c).after 3 t)) := by
  simp only [before1_0, before1_1, before1_2]
  dsimp only [dat1]
  iintro ⟨Ha, Hb, ⟨%d0, H0⟩, ⟨%d1, H1⟩, ⟨%d2, H2⟩, ⟨%d3, H3⟩⟩
  iapply (sound_kernel1 c Set.univ (grid1.coords t) (st1_0 t) _ (st1_1 t) _ (st1_2 t) _ (st1_3 t) _ (iblk1 V c 0 t) (iblk1 V c 1 t) (iblk1 V c 2 t) _)
  iframe H0 H1 H2
  isplitl [H3]; · iexists _; iexact H3
  iintro ⟨H0, H1, H2, H3⟩
  iframe Ha Hb H0 H1 H2 H3

theorem body_obligation1 (c : Dev nD) : BodyObligation (dat1 (F := F) V c) (defs₀ (F := F)) Variants.none () Set.univ := fun t => by
  rw [bigSep_W1, bigSep_W1]
  exact sound_body1 V c t _ _

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

end Cert.KernelIdeal.Hand

end
-- ==== Proof.KI.R2Runs.lean ====
/- Region 2 of @main (`cc2__spmm_kernel`): what the three control cases of the body share. -/
import proofs.«406692_j3745211482886_1_alg».proof.Proof.Gen.KernelIdeal.Launch
import proofs.«406692_j3745211482886_1_alg».proof.Proof.Gen.KernelIdeal.Skeleton
import proofs.«406692_j3745211482886_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

-- Window `w`'s block at point `t`, read off its array as the region finds it.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

-- The body's two conditions (first edge tile, last edge tile), in closed form over the grid.
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 125 = 0 :=
  (by decide +kernel : ∀ t : Fin grid2.N, cond2_0 (grid2.coords t) ↔ t.val % 125 = 0)

abbrev cond2_1 (i : grid2.Coords) : Prop := k2_cond2 i = 1#1
theorem hcond2_1 : ∀ t : Fin cfg2.N, cond2_1 (grid2.coords t) ↔ t.val % 125 = 124 :=
  (by decide +kernel : ∀ t : Fin grid2.N, cond2_1 (grid2.coords t) ↔ t.val % 125 = 124)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
-- The output window is idle exactly where the second condition fails.
theorem idle2_3_of_not (i : grid2.Coords) (h : ¬cond2_1 i) : cfg2.idle 3 i = true := by
  show (!(k2_cond2 i == 1#1)) = true
  rw [Bool.not_eq_true', beq_eq_false_iff_ne]; exact h
theorem idle2_3_of (i : grid2.Coords) (h : cond2_1 i) : cfg2.idle 3 i = false := by
  show (!(k2_cond2 i == 1#1)) = false
  rw [Bool.not_eq_false', beq_iff_eq]; exact h

-- The memrefs the body is called with at point `t`, and the accumulator.
abbrev ms2_0 (t : Fin cfg2.N) : Memref sig .tc .vmem S1x6400 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6400x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1000x64 .f32 := win2_3.stage (cfg2.slots t 3)
abbrev hs2_3 (t : Fin cfg2.N) : (ms2_3 t).IsWhole := hstage2_3 ((cfg2.slots t 3).cast nbuf2_3)
abbrev scM2_0 : Memref sig .tc .vmem S1000x64 .f32 := Memref.whole cc2_scratch0

abbrev restBut2 (c : Dev nD) : sProp 𝕄 :=
  Pipeline.scopedRestBut (Ix := Unit) (Name := ℕ) (U := Pipeline.UD sig nD τ) (Lvl := ℕ) (Val := Elt F) spec2 c [cc2_scratch0]

-- A whole memref held at the raw contents that read `X` is owned at `X`.
theorem held_unread2 {c : Dev nD} {sp : Space} {sh : Shape} {e : EltTy} {m : Memref sig .tc sp sh e} (h : m.IsWhole) (X : sh.Idx → Elt F e) :
    (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
  iintro H; iexists _; isplitr; · ipureintro; exact h.read_unread _
  iexact H

-- The class invariant with the accumulator split off the other scoped buffers.
theorem PhiA2_eq (c : Dev nD) :
    (Pipeline.ΦA spec2 c : sProp 𝕄)
      = iprop(iprop(iprop((∃ d, owns (c : Thread nD τ) scM2_0 fullShare d)) ∗ restBut2 c) ∗ (∃ r, prngReg c r)) := by
  unfold Pipeline.ΦA; rw [scopedRest2_split]; simp only [scM2_0, owns_whole]; try rfl

end Cert.KernelIdeal.Hand

end
-- ==== Proof.KI.R2RunA.lean ====
/- Region 2 of @main (`cc2__spmm_kernel`): the whole-body run of the kernel in case A (first edge tile of a node tile). -/
import proofs.«406692_j3745211482886_1_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun2_A (c : Dev nD) (i : grid2.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : cond2_0 i) (hc1 : ¬cond2_1 i)
    (x0 : Vec F S1x6400 .i32) (x1 : Vec F S6400x64 .bf16) (x2 : Vec F S1x64 .f32) :
    Σ' (L3 : List (View.Piece (Elt F) S1000x64 .f32)), { LS0 : List (View.Piece (Elt F) S1000x64 .f32) //
      ∀ (xi3 : Vec F S1000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__spmm_kernel i arg2 harg2 arg3 harg3 arg4 harg4 arg5 harg5 arg6 harg6) K } := by
  refine ⟨[], ?_, fun xi3 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]; · iapply (held_unread2 harg2 _); iexact H0
    isplitl [H1]; · iapply (held_unread2 harg3 _); iexact H1
    isplitl [H2]; · iapply (held_unread2 harg4 _); iexact H2
    isplitl [H3]; · iapply (held_unread2 harg5 _); iexact H3
    iexists _; iexact HS0

end Cert.KernelIdeal.Hand

end
-- ==== Proof.KI.R2RunB.lean ====
/- Region 2 of @main (`cc2__spmm_kernel`): the whole-body run of the kernel in case B (an inner edge tile of a node tile). -/
import proofs.«406692_j3745211482886_1_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun2_B (c : Dev nD) (i : grid2.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : ¬cond2_0 i) (hc1 : ¬cond2_1 i)
    (x0 : Vec F S1x6400 .i32) (x1 : Vec F S6400x64 .bf16) (x2 : Vec F S1x64 .f32) (xs0 : Vec F S1000x64 .f32) :
    Σ' (L3 : List (View.Piece (Elt F) S1000x64 .f32)), { LS0 : List (View.Piece (Elt F) S1000x64 .f32) //
      ∀ (xi3 : Vec F S1000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__spmm_kernel i arg2 harg2 arg3 harg3 arg4 harg4 arg5 harg5 arg6 harg6) K } := by
  refine ⟨[], ?_, fun xi3 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]; · iapply (held_unread2 harg2 _); iexact H0
    isplitl [H1]; · iapply (held_unread2 harg3 _); iexact H1
    isplitl [H2]; · iapply (held_unread2 harg4 _); iexact H2
    isplitl [H3]; · iapply (held_unread2 harg5 _); iexact H3
    iexists _; iexact HS0

end Cert.KernelIdeal.Hand

end
-- ==== Proof.KI.R2RunC.lean ====
/- Region 2 of @main (`cc2__spmm_kernel`): the whole-body run of the kernel in case C (last edge tile of a node tile). -/
import proofs.«406692_j3745211482886_1_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun2_C (c : Dev nD) (i : grid2.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : ¬cond2_0 i) (hc1 : cond2_1 i)
    (x0 : Vec F S1x6400 .i32) (x1 : Vec F S6400x64 .bf16) (x2 : Vec F S1x64 .f32) (xs0 : Vec F S1000x64 .f32) :
    Σ' (L3 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__spmm_kernel i arg2 harg2 arg3 harg3 arg4 harg4 arg5 harg5 arg6 harg6) K } := by
  refine ⟨?_, ?_, fun E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]; · iapply (held_unread2 harg2 _); iexact H0
    isplitl [H1]; · iapply (held_unread2 harg3 _); iexact H1
    isplitl [H2]; · iapply (held_unread2 harg4 _); iexact H2
    isplitl [H3]; · iexists _; iexact H3
    iexists _; iexact HS0

end Cert.KernelIdeal.Hand

end
-- ==== Proof.KI.R2.lean ====
/- Region 2 of @main: the pipeline's proof data at the region-entry contents `V`, the body obligation, and the invariant's two ends. -/
import proofs.«406692_j3745211482886_1_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- A run that takes the inputs, the output's buffer as `P3 d` and the accumulator as `P6` and hands the inputs back with `Q3 d` and `Q6` carries the rest of the invariant and what is owed across.
theorem body_of_run2 {c : Dev nD} {D0 D1 D2 D3 : Type} {e : Prog (TpuEff nD τ sig (Elt F) Λ₀ .tc) PUnit}
    {Φ S' I0 I1 I2 P6 Q6 R G O L3 : sProp 𝕄} {B3 P3 Q3 : D3 → sProp 𝕄}
    (hrun : ∀ (d : D3) (K : PUnit → sProp 𝕄), iprop(I0 ∗ I1 ∗ I2 ∗ P3 d ∗ P6 ∗ (iprop(I0 ∗ I1 ∗ I2 ∗ Q3 d ∗ Q6) -∗ K ⟨⟩))
      ⊢ wp frame (wpE (defs₀ (F := F)) Variants.none c none) Set.univ e K)
    (hΦ : Φ ⊢ iprop(iprop(P6 ∗ R) ∗ G)) (h6 : Q6 ⊢ S') (h3 : ∀ d, B3 d ⊢ P3 d) (h3' : ∀ d, Q3 d ⊢ L3) :
    iprop(Φ ∗ O ∗ (∃ _d : D0, I0) ∗ (∃ _d : D1, I1) ∗ (∃ _d : D2, I2) ∗ (∃ d, B3 d))
      ⊢ wp frame (wpE (defs₀ (F := F)) Variants.none c none) Set.univ e
          (fun _ => iprop(iprop(iprop(S' ∗ R) ∗ G) ∗ O ∗ I0 ∗ I1 ∗ I2 ∗ L3)) := by
  iintro ⟨HP, Ho, ⟨%d0, H0⟩, ⟨%d1, H1⟩, ⟨%d2, H2⟩, ⟨%d3, H3⟩⟩
  ihave HP' := (hΦ) $$ HP
  icases HP' with ⟨⟨HS, HR⟩, Hg⟩
  iapply (hrun d3 _)
  isplitl [H0]; · iexact H0
  isplitl [H1]; · iexact H1
  isplitl [H2]; · iexact H2
  isplitl [H3]; · iapply (h3 d3); iexact H3
  isplitl [HS]; · iexact HS
  iintro ⟨H0, H1, H2, H3, HS⟩
  isplitl [HS HR Hg]
  · isplitl [HS HR]
    · isplitl [HS]; · iapply h6; iexact HS
      iexact HR
    iexact Hg
  isplitl [Ho]; · iexact Ho
  isplitl [H0]; · iexact H0
  isplitl [H1]; · iexact H1
  isplitl [H2]; · iexact H2
  iapply (h3' d3); iexact H3

-- Stored pieces that tile a buffer leave it owned at their closed form, whatever it held before.
theorem owns_of_pieces2 (c : Dev nD) {m : Memref sig .tc .vmem S1000x64 .f32} {L : List (View.Piece (Elt F) S1000x64 .f32)}
    (hL : View.Piece.tiledL L S1000x64.size = true) :
    iprop(∃ f, m.view.loc (c : Thread nD τ) ↦[m.view.set]{fullShare} m.view.writes (Elt F) f L)
      ⊢ (owns (c : Thread nD τ) m fullShare (View.canon L) : sProp 𝕄) := by
  iintro ⟨%f, H⟩
  unfold owns; iexists _; isplitr
  swap; · iexact H
  ipureintro; exact View.read_writes_eq_canon _ _ _ (View.cover_of_tiledL L S1000x64.size hL)

variable (V : (c : Dev nD) → (b : Ref sig .tc) → Buf (Elt F) ((c : Thread nD τ).loc b)) (c : Dev nD)

section Point
variable (t : Fin cfg2.N)

-- The three cases' runs at point `t`: its memrefs, the accumulator, its input blocks.
def runA2 (h0 : t.val % 125 = 0) (h1 : ¬t.val % 125 = 124) :=
  kernelRun2_A c (grid2.coords t) (ms2_0 t) (hs2_0 t) (ms2_1 t) (hs2_1 t) (ms2_2 t) (hs2_2 t) (ms2_3 t) (hs2_3 t) scM2_0 (Memref.isWhole_whole _)
    ((hcond2_0 t).mpr h0) (fun h => h1 ((hcond2_1 t).mp h)) (iblk2 V c 0 t) (iblk2 V c 1 t) (iblk2 V c 2 t)
def runB2 (h0 : ¬t.val % 125 = 0) (h1 : ¬t.val % 125 = 124) (xs0 : Vec F S1000x64 .f32) :=
  kernelRun2_B c (grid2.coords t) (ms2_0 t) (hs2_0 t) (ms2_1 t) (hs2_1 t) (ms2_2 t) (hs2_2 t) (ms2_3 t) (hs2_3 t) scM2_0 (Memref.isWhole_whole _)
    (fun h => h0 ((hcond2_0 t).mp h)) (fun h => h1 ((hcond2_1 t).mp h)) (iblk2 V c 0 t) (iblk2 V c 1 t) (iblk2 V c 2 t) xs0
def runC2 (h0 : ¬t.val % 125 = 0) (h1 : t.val % 125 = 124) (xs0 : Vec F S1000x64 .f32) :=
  kernelRun2_C c (grid2.coords t) (ms2_0 t) (hs2_0 t) (ms2_1 t) (hs2_1 t) (ms2_2 t) (hs2_2 t) (ms2_3 t) (hs2_3 t) scM2_0 (Memref.isWhole_whole _)
    (fun h => h0 ((hcond2_0 t).mp h)) ((hcond2_1 t).mpr h1) (iblk2 V c 0 t) (iblk2 V c 1 t) (iblk2 V c 2 t) xs0

-- The pair (output block, accumulator) point `t` leaves when the accumulator held `xs0` before it: reset at the first edge tile of a node tile, added to at every edge tile, copied out at the last.
def pt2 (xs0 : Vec F S1000x64 .f32) : Vec F S1000x64 .f32 × Vec F S1000x64 .f32 :=
  if h0 : t.val % 125 = 0 then (View.canon (runA2 V c t h0 (by omega)).1, View.canon (runA2 V c t h0 (by omega)).2.1)
  else if h1 : t.val % 125 = 124 then (View.canon (runC2 V c t h0 h1 xs0).1, View.canon (runC2 V c t h0 h1 xs0).2.1)
  else (View.canon (runB2 V c t h0 h1 xs0).1, View.canon (runB2 V c t h0 h1 xs0).2.1)

theorem pt2_A (h0 : t.val % 125 = 0) (h1 : ¬t.val % 125 = 124) (xs0 : Vec F S1000x64 .f32) :
    pt2 V c t xs0 = (View.canon (runA2 V c t h0 h1).1, View.canon (runA2 V c t h0 h1).2.1) := dif_pos h0
theorem pt2_B (h0 : ¬t.val % 125 = 0) (h1 : ¬t.val % 125 = 124) (xs0 : Vec F S1000x64 .f32) :
    pt2 V c t xs0 = (View.canon (runB2 V c t h0 h1 xs0).1, View.canon (runB2 V c t h0 h1 xs0).2.1) := (dif_neg h0).trans (dif_neg h1)
theorem pt2_C (h0 : ¬t.val % 125 = 0) (h1 : t.val % 125 = 124) (xs0 : Vec F S1000x64 .f32) :
    pt2 V c t xs0 = (View.canon (runC2 V c t h0 h1 xs0).1, View.canon (runC2 V c t h0 h1 xs0).2.1) := (dif_neg h0).trans (dif_pos h1)

end Point

-- What the accumulator holds before position `n`: what the point before left there.
def accAt2 : ℕ → Vec F S1000x64 .f32
  | 0 => View.canon []
  | n + 1 => if h : n < cfg2.N then (pt2 V c ⟨n, h⟩ (accAt2 n)).2 else accAt2 n

theorem accAt2_succ (t : Fin cfg2.N) : accAt2 V c (t.val + 1) = (pt2 V c t (accAt2 V c t.val)).2 := dif_pos t.isLt

-- The region invariant before position `n`: the class's before the first point; afterwards the same with the accumulator at `accAt2`.
def PhiS2 : ℕ → sProp 𝕄
  | 0 => Pipeline.ΦA spec2 c
  | n + 1 => iprop(iprop(owns (c : Thread nD τ) scM2_0 fullShare (accAt2 V c (n + 1)) ∗ restBut2 c) ∗ (∃ r, prngReg c r))

theorem PhiS2_pos (n : ℕ) (hz : n ≠ 0) :
    PhiS2 V c n = iprop(iprop(owns (c : Thread nD τ) scM2_0 fullShare (accAt2 V c n) ∗ restBut2 c) ∗ (∃ r, prngReg c r)) := by
  cases n with
  | zero => exact absurd rfl hz
  | succ n => rfl

-- Before any point the invariant gives the class's, opened: the accumulator's named contents are forgotten.
theorem PhiS2_le (n : ℕ) :
    PhiS2 V c n ⊢ iprop(iprop(iprop((∃ d, owns (c : Thread nD τ) scM2_0 fullShare d)) ∗ restBut2 c) ∗ (∃ r, prngReg c r)) := by
  cases n with
  | zero => exact Entails.of_eq (PhiA2_eq c)
  | succ n =>
    rw [PhiS2_pos V c _ (Nat.succ_ne_zero n)]
    iintro ⟨⟨HS0, HR⟩, Hg⟩
    isplitl [HS0 HR]
    · isplitl [HS0]
      · iexists _; iexact HS0
      iexact HR
    iexact Hg

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (pt2 V c t (accAt2 V c t.val)).1
  Φ t := PhiS2 V c t.val
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]

theorem after2_0 (t : Fin cfg2.N) : (dat2 V c).after 0 t = iblk2 V c 0 t := by dsimp only [dat2]
theorem after2_1 (t : Fin cfg2.N) : (dat2 V c).after 1 t = iblk2 V c 1 t := by dsimp only [dat2]
theorem after2_2 (t : Fin cfg2.N) : (dat2 V c).after 2 t = iblk2 V c 2 t := by dsimp only [dat2]
theorem after2_3 (t : Fin cfg2.N) : (dat2 V c).after 3 t = (pt2 V c t (accAt2 V c t.val)).1 := by dsimp only [dat2]

theorem before2_0 (t : Fin cfg2.N) (d) : (dat2 V c).before 0 t d = iblk2 V c 0 t :=
  before2_0_of V (dat2 V c) (A_eq2 V c 0) (after2_0 V c) t d
theorem before2_1 (t : Fin cfg2.N) (d) : (dat2 V c).before 1 t d = iblk2 V c 1 t :=
  before2_1_of V (dat2 V c) (A_eq2 V c 1) (after2_1 V c) t d
theorem before2_2 (t : Fin cfg2.N) (d) : (dat2 V c).before 2 t d = iblk2 V c 2 t :=
  before2_2_of V (dat2 V c) (A_eq2 V c 2) (after2_2 V c) t d

theorem leavesExact2_0 (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leavesExact2_1 (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leavesExact2_2 (t : Fin cfg2.N) :
    (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]
theorem leavesExact2_3_live (t : Fin cfg2.N) (h1 : t.val % 125 = 124) :
    (dat2 V c).leavesExact 3 t = owns (c : Thread nD τ) (ms2_3 t) fullShare (pt2 V c t (accAt2 V c t.val)).1 := by
  rw [show (dat2 V c).leavesExact 3 t = owns (c : Thread nD τ) (ms2_3 t) fullShare ((dat2 V c).after 3 t) from by
    unfold Dat.leavesExact; rw [idle2_3_of _ ((hcond2_1 t).mpr h1)], after2_3]
theorem leavesExact2_3_idle (t : Fin cfg2.N) (h1 : ¬t.val % 125 = 124) :
    (dat2 V c).leavesExact 3 t = iprop(∃ d, owns (c : Thread nD τ) (ms2_3 t) fullShare ((dat2 V c).before 3 t d)) :=
  Dat.leavesExact_idle _ 3 t (idle2_3_of_not _ fun h => h1 ((hcond2_1 t).mp h)) (Bool.eq_false_iff.mpr fun h => h1 ((flush2_3 t).mp h))

def bodyPre2 (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
-- The body at any point: the closed forms of the two conditions say which case's run applies; the invariant lends it the accumulator and takes it back at this point's contents.
theorem sound_body2 (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, leavesExact2_0, leavesExact2_1, leavesExact2_2]
  rw [show (dat2 V c).owesAt () t.succ = (dat2 V c).owesAt () t.castSucc from rfl,
    show (dat2 V c).Φ t.succ = PhiS2 V c (t.val + 1) from rfl, PhiS2_pos V c (t.val + 1) (Nat.succ_ne_zero _), accAt2_succ V c t,
    show (dat2 V c).Φ t.castSucc = PhiS2 V c t.val from rfl]
  by_cases h0 : t.val % 125 = 0
  · have h1 : ¬t.val % 125 = 124 := by omega
    rw [leavesExact2_3_idle V c t h1, pt2_A V c t h0 h1]
    exact body_of_run2 (fun d K => (runA2 V c t h0 h1).2.2 ((dat2 V c).before 3 t d) Set.univ K) (PhiS2_le V c t.val)
      (owns_of_pieces2 c (by sl_kernel_rfl)) (fun _ => Entails.refl _) (fun d => by iintro H; iexists d; iexact H)
  · have hz : t.val ≠ 0 := fun e => h0 (by rw [e])
    by_cases h1 : t.val % 125 = 124
    · rw [leavesExact2_3_live V c t h1, pt2_C V c t h0 h1]
      exact body_of_run2 (fun _ K => (runC2 V c t h0 h1 (accAt2 V c t.val)).2.2 Set.univ K) (Entails.of_eq (PhiS2_pos V c _ hz))
        (owns_of_pieces2 c (by sl_kernel_rfl)) (fun d => by iintro H; iexists _; iexact H) (fun _ => owns_of_pieces2 c (by sl_kernel_rfl))
    · rw [leavesExact2_3_idle V c t h1, pt2_B V c t h0 h1]
      exact body_of_run2 (fun d K => (runB2 V c t h0 h1 (accAt2 V c t.val)).2.2 ((dat2 V c).before 3 t d) Set.univ K) (Entails.of_eq (PhiS2_pos V c _ hz))
        (owns_of_pieces2 c (by sl_kernel_rfl)) (fun _ => Entails.refl _) (fun d => by iintro H; iexists d; iexact H)

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := Entails.of_eq rfl

theorem hout2 (c : Dev nD) : (dat2 V c).Φ (Fin.last cfg2.N) ⊢ (Pipeline.ΦA spec2 c : sProp 𝕄) := by
  rw [PhiA2_eq]; exact PhiS2_le V c (Fin.last cfg2.N).val

end Cert.KernelIdeal.Hand

end
-- ==== Proof.KI.R3.lean ====
/- Region 3 of @main (custom_call 3, `cc3__dense_kernel`: a dense layer with bias and leaky rectifier; output array `main_v29`): the proof data at the contents the region is entered from, the body obligation, and the invariant's two ends. -/
import proofs.«406692_j3745211482886_1_alg».proof.Proof.Gen.KernelIdeal.Launch
import proofs.«406692_j3745211482886_1_alg».proof.Proof.Gen.KernelIdeal.Skeleton
import proofs.«406692_j3745211482886_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1000x64 := Rect.unit (s := S1000x64) ![0, 0] S1000x64.size inb_S1000x64_S1000x64_0_0
abbrev r3_1 : Rect S64x128 := Rect.unit (s := S64x128) ![0, 0] S64x128.size inb_S64x128_S64x128_0_0
abbrev r3_2 : Rect S1x128 := Rect.unit (s := S1x128) ![0, 0] S1x128.size inb_S1x128_S1x128_0_0
abbrev r3_3 : Rect S1000x128 := Rect.unit (s := S1000x128) ![0, 0] S1000x128.size inb_S1000x128_S1000x128_0_0

def out3_3 (x0 : Vec F S1000x64 .bf16) (x1 : Vec F S64x128 .bf16) (x2 : Vec F S1x128 .f32) : Vec F S1000x128 .f32 :=
  View.canon [⟨r3_3, k3_pay1 (View.ld x0 r3_0) (View.ld x1 r3_1) (View.ld x2 r3_2)⟩]

-- The body on whole memrefs: it loads the operand blocks, stores the payload over the whole output block and changes nothing else.
theorem sound_kernel3 (c : Dev nD) (E : Set ℕ) (i : grid3.Coords) (arg1 : Memref sig .tc .vmem S1000x64 .bf16) (harg1 : arg1.IsWhole) (arg2 : Memref sig .tc .vmem S64x128 .bf16) (harg2 : arg2.IsWhole) (arg3 : Memref sig .tc .vmem S1x128 .f32) (harg3 : arg3.IsWhole) (arg4 : Memref sig .tc .vmem S1000x128 .f32) (harg4 : arg4.IsWhole)
    (x0 : Vec F S1000x64 .bf16) (x1 : Vec F S64x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x128.size (by rfl))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl

-- The body leaves each operand's block in place, so every point finds it as the region did.
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d

-- The body at any point, whatever else is held (`R`, `R'`): the operands' memrefs hold their blocks, so `sound_kernel3` applies.
theorem sound_body3 (c : Dev nD) (t : Fin cfg3.N) (R R' : sProp 𝕄) :
    iprop(R ∗ R'
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d)))
    ⊢ wp frame (wpE (defs₀ (F := F)) Variants.none c none) Set.univ (bodyAt3 t) fun _ => iprop(R ∗ R'
      ∗ owns (c : Thread nD τ) (st3_0 t) fullShare ((dat3 V c).after 0 t)
      ∗ owns (c : Thread nD τ) (st3_1 t) fullShare ((dat3 V c).after 1 t)
      ∗ owns (c : Thread nD τ) (st3_2 t) fullShare ((dat3 V c).after 2 t)
      ∗ owns (c : Thread nD τ) (st3_3 t) fullShare ((dat3 V c).after 3 t)) := by
  simp only [before3_0, before3_1, before3_2]
  dsimp only [dat3]
  iintro ⟨Ha, Hb, ⟨%d0, H0⟩, ⟨%d1, H1⟩, ⟨%d2, H2⟩, ⟨%d3, H3⟩⟩
  iapply (sound_kernel3 c Set.univ (grid3.coords t) (st3_0 t) _ (st3_1 t) _ (st3_2 t) _ (st3_3 t) _ (iblk3 V c 0 t) (iblk3 V c 1 t) (iblk3 V c 2 t) _)
  iframe H0 H1 H2
  isplitl [H3]; · iexists _; iexact H3
  iintro ⟨H0, H1, H2, H3⟩
  iframe Ha Hb H0 H1 H2 H3

theorem body_obligation3 (c : Dev nD) : BodyObligation (dat3 (F := F) V c) (defs₀ (F := F)) Variants.none () Set.univ := fun t => by
  rw [bigSep_W3, bigSep_W3]
  exact sound_body3 V c t _ _

theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

end Cert.KernelIdeal.Hand

end
-- ==== Proof.KI.R4.lean ====
/- Region 4 of @main (custom_call 4, `cc4__dense_kernel`: a plain dense layer (no bias, no activation); output array `main_v35`): the proof data at the contents the region is entered from, the body obligation, and the invariant's two ends. -/
import proofs.«406692_j3745211482886_1_alg».proof.Proof.Gen.KernelIdeal.Launch
import proofs.«406692_j3745211482886_1_alg».proof.Proof.Gen.KernelIdeal.Skeleton
import proofs.«406692_j3745211482886_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1000x128 := Rect.unit (s := S1000x128) ![0, 0] S1000x128.size inb_S1000x128_S1000x128_0_0
abbrev r4_1 : Rect S128x64 := Rect.unit (s := S128x64) ![0, 0] S128x64.size inb_S128x64_S128x64_0_0
abbrev r4_3 : Rect S1000x64 := Rect.unit (s := S1000x64) ![0, 0] S1000x64.size inb_S1000x64_S1000x64_0_0

def out4_3 (x0 : Vec F S1000x128 .bf16) (x1 : Vec F S128x64 .bf16) : Vec F S1000x64 .f32 :=
  View.canon [⟨r4_3, k4_pay1 (View.ld x0 r4_0) (View.ld x1 r4_1)⟩]

-- The body on whole memrefs: it loads the operand blocks, stores the payload over the whole output block and changes nothing else.
theorem sound_kernel4 (c : Dev nD) (E : Set ℕ) (i : grid4.Coords) (arg1 : Memref sig .tc .vmem S1000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1000x64 .f32) (harg4 : arg4.IsWhole)
    (x0 : Vec F S1000x128 .bf16) (x1 : Vec F S128x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x64.size (by rfl))

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl

-- The body leaves each operand's block in place, so every point finds it as the region did.
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

-- The body at any point, whatever else is held (`R`, `R'`): the operands' memrefs hold their blocks, so `sound_kernel4` applies.
theorem sound_body4 (c : Dev nD) (t : Fin cfg4.N) (R R' : sProp 𝕄) :
    iprop(R ∗ R'
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) fun _ => iprop(R ∗ R'
      ∗ owns (c : Thread nD τ) (st4_0 t) fullShare ((dat4 V c).after 0 t)
      ∗ owns (c : Thread nD τ) (st4_1 t) fullShare ((dat4 V c).after 1 t)
      ∗ owns (c : Thread nD τ) (st4_2 t) fullShare ((dat4 V c).after 2 t)
      ∗ owns (c : Thread nD τ) (st4_3 t) fullShare ((dat4 V c).after 3 t)) := by
  simp only [before4_0, before4_1, before4_2]
  dsimp only [dat4]
  iintro ⟨Ha, Hb, ⟨%d0, H0⟩, ⟨%d1, H1⟩, ⟨%d2, H2⟩, ⟨%d3, H3⟩⟩
  iapply (sound_kernel4 c Set.univ (grid4.coords t) (st4_0 t) _ (st4_1 t) _ (st4_2 t) _ (st4_3 t) _ (iblk4 V c 0 t) (iblk4 V c 1 t) (iblk4 V c 2 t) _)
  iframe H0 H1 H2
  isplitl [H3]; · iexists _; iexact H3
  iintro ⟨H0, H1, H2, H3⟩
  iframe Ha Hb H0 H1 H2 H3

theorem body_obligation4 (c : Dev nD) : BodyObligation (dat4 (F := F) V c) (defs₀ (F := F)) Variants.none () Set.univ := fun t => by
  rw [bigSep_W4, bigSep_W4]
  exact sound_body4 V c t _ _

theorem hin4 (c : Dev nD) : (Pipeline.ΦA spec4 c : sProp 𝕄) ⊢ (dat4 V c).Φ 0 := .rfl
theorem hout4 (c : Dev nD) : (dat4 V c).Φ (Fin.last cfg4.N) ⊢ (Pipeline.ΦA spec4 c : sProp 𝕄) := .rfl

end Cert.KernelIdeal.Hand

end
-- ==== Proof.KI.R5Runs.lean ====
/- Region 5 (the sparse aggregation `cc5__spmm_kernel`: a one-hot product accumulated over the edge tiles, bias and leaky rectifier at the last): what the three cases of the body's run share. -/
import proofs.«406692_j3745211482886_1_alg».proof.Proof.Gen.KernelIdeal.Launch
import proofs.«406692_j3745211482886_1_alg».proof.Proof.Gen.KernelIdeal.Skeleton
import proofs.«406692_j3745211482886_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 125 = 0 :=
  (by decide +kernel : ∀ t : Fin grid5.N, cond5_0 (grid5.coords t) ↔ t.val % 125 = 0)

abbrev cond5_1 (i : grid5.Coords) : Prop := k5_cond2 i = 1#1
theorem hcond5_1 : ∀ t : Fin cfg5.N, cond5_1 (grid5.coords t) ↔ t.val % 125 = 124 :=
  (by decide +kernel : ∀ t : Fin grid5.N, cond5_1 (grid5.coords t) ↔ t.val % 125 = 124)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel

abbrev ms5_0 (t : Fin cfg5.N) : Memref sig .tc .vmem S1x6400 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S6400x64 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1000x64 .f32 := win5_3.stage (cfg5.slots t 3)
abbrev hs5_3 (t : Fin cfg5.N) : (ms5_3 t).IsWhole := hstage5_3 ((cfg5.slots t 3).cast nbuf5_3)
abbrev scM5_0 : Memref sig .tc .vmem S1000x64 .f32 := Memref.whole cc5_scratch0

-- a whole memref reads its raw contents bijectively, so owning it at `x` is holding the raw contents that read `x`
theorem owns_unread5 (c : Thread nD τ) {sp : Space} {S : Shape} {e : EltTy} {m : Memref sig c.2.kind sp S e} (hm : m.IsWhole) (q : PosShare TreeShare)
    (x : S.Idx → Elt F e) : (owns c m q x : sProp 𝕄) = (m.view.loc c ↦[m.view.set]{q} hm.unread x) := by
  have h₁ : (owns c m q x : sProp 𝕄) ⊢ (m.view.loc c ↦[m.view.set]{q} hm.unread x) := by
    unfold owns; iintro ⟨%f, %hf, H⟩; obtain rfl := hm.eq_unread hf; iexact H
  have h₂ : (m.view.loc c ↦[m.view.set]{q} hm.unread x : sProp 𝕄) ⊢ owns c m q x := by
    unfold owns; iintro H; iexists _; isplitr
    · ipureintro; exact hm.read_unread x
    · iexact H
  exact BI.equiv_iff.mp ⟨h₁, h₂⟩

-- pieces that tile a memref's shape leave it, whatever it held, at their canonical contents
theorem owns_canon5 (c : Thread nD τ) {sp : Space} {S : Shape} {e : EltTy} (m : Memref sig c.2.kind sp S e) (L : List (View.Piece (Elt F) S e))
    (hL : View.Piece.tiledL L S.size = true) :
    (iprop(∃ f, m.view.loc c ↦[m.view.set]{fullShare} m.view.writes (Elt F) f L) : sProp 𝕄) ⊢ owns c m fullShare (View.canon L) := by
  rw [← View.read_writes_junk_eq_canon m.view L]
  iintro ⟨%f, H⟩
  ihave H' := (Ring.owns_of_writes_tiledL m.view S.size) $$ H
  iapply H'; ipureintro; exact hL

abbrev restBut5 (c : Dev nD) : sProp 𝕄 :=
  Pipeline.scopedRestBut (Ix := Unit) (Name := ℕ) (U := Pipeline.UD sig nD τ) (Lvl := ℕ) (Val := Elt F) spec5 c [cc5_scratch0]

theorem PhiA5_eq (c : Dev nD) :
    (Pipeline.ΦA spec5 c : sProp 𝕄)
      = iprop(iprop((∃ d, owns (c : Thread nD τ) scM5_0 fullShare d) ∗ restBut5 c) ∗ (∃ r, prngReg c r)) := by
  unfold Pipeline.ΦA; rw [scopedRest5_split]; simp only [scM5_0, owns_whole]; try rfl

end Cert.KernelIdeal.Hand

end
-- ==== Proof.KI.R5RunA.lean ====
/- Region 5, the body's run at the first edge tile of a node tile: the accumulator is zeroed, then the tile's product is added; the output block is left as found. -/
import proofs.«406692_j3745211482886_1_alg».proof.Proof.KI.R5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun5_A (c : Dev nD) (i : grid5.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : cond5_0 i) (hc1 : ¬cond5_1 i)
    (x0 : Vec F S1x6400 .i32) (x1 : Vec F S6400x64 .bf16) (x2 : Vec F S1x64 .f32) :
    Σ' (L3 : List (View.Piece (Elt F) S1000x64 .f32)), { LS0 : List (View.Piece (Elt F) S1000x64 .f32) //
      ∀ (xi3 : Vec F S1000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__spmm_kernel i arg2 harg2 arg3 harg3 arg4 harg4 arg5 harg5 arg6 harg6) K } := by
  refine ⟨[], ?_, fun xi3 E K => ?run⟩
  case run =>
    simp only [cc5__spmm_kernel_eq_skeleton]; unfold cc5__spmm_kernel_skel
    rw [owns_unread5 (c : Thread nD τ) harg2, owns_unread5 (c : Thread nD τ) harg3, owns_unread5 (c : Thread nD τ) harg4, owns_unread5 (c : Thread nD τ) harg5]
    unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

end Cert.KernelIdeal.Hand

end
-- ==== Proof.KI.R5RunB.lean ====
/- Region 5, the body's run at an edge tile that is neither first nor last: the tile's product is added to the accumulator; the output block is left as found. -/
import proofs.«406692_j3745211482886_1_alg».proof.Proof.KI.R5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun5_B (c : Dev nD) (i : grid5.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : ¬cond5_0 i) (hc1 : ¬cond5_1 i)
    (x0 : Vec F S1x6400 .i32) (x1 : Vec F S6400x64 .bf16) (x2 : Vec F S1x64 .f32) (xs0 : Vec F S1000x64 .f32) :
    Σ' (L3 : List (View.Piece (Elt F) S1000x64 .f32)), { LS0 : List (View.Piece (Elt F) S1000x64 .f32) //
      ∀ (xi3 : Vec F S1000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__spmm_kernel i arg2 harg2 arg3 harg3 arg4 harg4 arg5 harg5 arg6 harg6) K } := by
  refine ⟨[], ?_, fun xi3 E K => ?run⟩
  case run =>
    simp only [cc5__spmm_kernel_eq_skeleton]; unfold cc5__spmm_kernel_skel
    rw [owns_unread5 (c : Thread nD τ) harg2, owns_unread5 (c : Thread nD τ) harg3, owns_unread5 (c : Thread nD τ) harg4, owns_unread5 (c : Thread nD τ) harg5, owns_unread5 (c : Thread nD τ) harg6]
    iintro ⟨H0, H1, H2, H3, HS0, Hk⟩
    sl_exec (disch := first | exact hc0 | exact hc1)
    sl_step
    iapply Hk
    iframe H0 H1 H2 H3
    iexists _; iexact HS0

end Cert.KernelIdeal.Hand

end
-- ==== Proof.KI.R5RunC.lean ====
/- Region 5, the body's run at the last edge tile of a node tile: the tile's product is added to the accumulator, then the output block is stored (the accumulator plus the bias row, through the leaky rectifier). -/
import proofs.«406692_j3745211482886_1_alg».proof.Proof.KI.R5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun5_C (c : Dev nD) (i : grid5.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : ¬cond5_0 i) (hc1 : cond5_1 i)
    (x0 : Vec F S1x6400 .i32) (x1 : Vec F S6400x64 .bf16) (x2 : Vec F S1x64 .f32) (xs0 : Vec F S1000x64 .f32) :
    Σ' (L3 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__spmm_kernel i arg2 harg2 arg3 harg3 arg4 harg4 arg5 harg5 arg6 harg6) K } := by
  refine ⟨?_, ?_, fun E K => ?run⟩
  case run =>
    simp only [cc5__spmm_kernel_eq_skeleton]; unfold cc5__spmm_kernel_skel
    rw [owns_unread5 (c : Thread nD τ) harg2, owns_unread5 (c : Thread nD τ) harg3, owns_unread5 (c : Thread nD τ) harg4, owns_unread5 (c : Thread nD τ) harg6]
    unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.KernelIdeal.Hand

end
-- ==== Proof.KI.R5.lean ====
/- Region 5: what the output block and the accumulator hold point by point, the pipeline's proof data at the contents `V` the region is entered from, the body obligation, and the invariant's two ends. -/
import proofs.«406692_j3745211482886_1_alg».proof.Proof.KI.R5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

section Point
variable (c : Dev nD) (t : Fin cfg5.N)

-- each case's run at point `t`: the point's memrefs, the accumulator, the point's input blocks
abbrev atA5 (h0 : t.val % 125 = 0) (h1 : ¬t.val % 125 = 124) :=
  kernelRun5_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)
abbrev atB5 (h0 : ¬t.val % 125 = 0) (h1 : ¬t.val % 125 = 124) (xs : Vec F S1000x64 .f32) :=
  kernelRun5_B c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) xs
abbrev atC5 (h0 : ¬t.val % 125 = 0) (h1 : t.val % 125 = 124) (xs : Vec F S1000x64 .f32) :=
  kernelRun5_C c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) xs

-- one point's step: from what the accumulator held, the pair (output block, accumulator) the point's case leaves
def step5 (xs : Vec F S1000x64 .f32) : Vec F S1000x64 .f32 × Vec F S1000x64 .f32 :=
  if h0 : t.val % 125 = 0 then (View.canon (atA5 V c t h0 (by omega)).1, View.canon (atA5 V c t h0 (by omega)).2.1)
  else if h1 : t.val % 125 = 124 then (View.canon (atC5 V c t h0 h1 xs).1, View.canon (atC5 V c t h0 h1 xs).2.1)
  else (View.canon (atB5 V c t h0 h1 xs).1, View.canon (atB5 V c t h0 h1 xs).2.1)

end Point

def outsAt5 (c : Dev nD) : (n : ℕ) → n < cfg5.N → Vec F S1000x64 .f32 × Vec F S1000x64 .f32
  | 0, hn => step5 V c ⟨0, hn⟩ (View.canon ([] : List (View.Piece (Elt F) S1000x64 .f32)))
  | n + 1, hn => step5 V c ⟨n + 1, hn⟩ (outsAt5 c n (Nat.lt_of_succ_lt hn)).2

-- what the point before `t` left in the accumulator
abbrev prev5 (c : Dev nD) (t : Fin cfg5.N) : Vec F S1000x64 .f32 := (outsAt5 V c (t.val - 1) (Nat.lt_of_le_of_lt (Nat.sub_le _ _) t.isLt)).2

theorem outsAt5_eq (c : Dev nD) (t : Fin cfg5.N) : outsAt5 V c t.val t.isLt = step5 V c t (prev5 V c t) := by
  obtain ⟨n, hn⟩ := t
  cases n with
  | zero =>
    have h : (⟨0, hn⟩ : Fin cfg5.N).val % 125 = 0 := Nat.zero_mod _
    show step5 V c ⟨0, hn⟩ _ = step5 V c ⟨0, hn⟩ _
    unfold step5
    rw [dif_pos h, dif_pos h]
  | succ n => rfl

theorem outsAt5_A (c : Dev nD) (t : Fin cfg5.N) (h0 : t.val % 125 = 0) (h1 : ¬t.val % 125 = 124) :
    outsAt5 V c t.val t.isLt = (View.canon (atA5 V c t h0 h1).1, View.canon (atA5 V c t h0 h1).2.1) := (outsAt5_eq V c t).trans (dif_pos h0)
theorem outsAt5_B (c : Dev nD) (t : Fin cfg5.N) (h0 : ¬t.val % 125 = 0) (h1 : ¬t.val % 125 = 124) :
    outsAt5 V c t.val t.isLt = (View.canon (atB5 V c t h0 h1 (prev5 V c t)).1, View.canon (atB5 V c t h0 h1 (prev5 V c t)).2.1) := (outsAt5_eq V c t).trans ((dif_neg h0).trans (dif_neg h1))
theorem outsAt5_C (c : Dev nD) (t : Fin cfg5.N) (h0 : ¬t.val % 125 = 0) (h1 : t.val % 125 = 124) :
    outsAt5 V c t.val t.isLt = (View.canon (atC5 V c t h0 h1 (prev5 V c t)).1, View.canon (atC5 V c t h0 h1 (prev5 V c t)).2.1) := (outsAt5_eq V c t).trans ((dif_neg h0).trans (dif_pos h1))

-- the invariant before position `n`: the class's before the first point, afterwards the accumulator at what the point before left
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ restBut5 c) ∗ (∃ r, prngReg c r))

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ restBut5 c) ∗ (∃ r, prngReg c r)) := by
  cases n with
  | zero => exact absurd rfl hz
  | succ n => rfl

-- at every position the invariant holds the accumulator at some contents
theorem PhiS5_any (c : Dev nD) (n : ℕ) (h : n ≤ cfg5.N) :
    PhiS5 V c n h ⊢ iprop(iprop((∃ d, owns (c : Thread nD τ) scM5_0 fullShare d) ∗ restBut5 c) ∗ (∃ r, prngReg c r)) := by
  cases n with
  | zero => exact Entails.of_eq (PhiA5_eq c)
  | succ n =>
    rw [PhiS5_pos V c _ h (Nat.succ_ne_zero n)]
    iintro ⟨⟨HS0, HR⟩, Hg⟩
    iframe HR Hg
    iexists _; iexact HS0

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by
  dsimp only [dat5]
theorem owed_eq5 (c : Dev nD) (t : Fin (cfg5.N + 1)) : (dat5 V c).owed t = 0 := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

-- the closed forms say which case the point is in; that case's run applies; the invariant lends the accumulator and takes it back at the point's contents
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = iprop(iprop(owns (c : Thread nD τ) scM5_0 fullShare ((outsAt5 V c t.val t.isLt).2) ∗ restBut5 c) ∗ (∃ r, prngReg c r)) from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [PhiS5_castSucc V c t]
  by_cases h1 : t.val % 125 = 124
  · have h0 : ¬t.val % 125 = 0 := by omega
    rw [show (dat5 V c).leavesExact 3 t = owns (c : Thread nD τ) (ms5_3 t) fullShare ((dat5 V c).after 3 t) from by
      unfold Dat.leavesExact; rw [liveAt5_3 t ((hcond5_1 t).mpr h1)], after5_3]
    rw [outsAt5_C V c t h0 h1, PhiS5_pos V c _ _ (by omega)]
    dsimp only
    iintro ⟨⟨⟨HS0, HR⟩, Hg⟩, Ho, ⟨%d0, H0⟩, ⟨%d1, H1⟩, ⟨%d2, H2⟩, ⟨%d3, H3⟩⟩
    iapply ((atC5 V c t h0 h1 (prev5 V c t)).2.2 Set.univ _)
    iframe H0 H1 H2 HS0
    isplitl [H3]; · iexists _; iexact H3
    iintro ⟨H0, H1, H2, H3, HS0⟩
    iframe HR Hg Ho H0 H1 H2
    isplitl [HS0]
    · iapply (owns_canon5 (c : Thread nD τ) scM5_0 _ (by sl_kernel_rfl)) $$ HS0
    · iapply (owns_canon5 (c : Thread nD τ) (ms5_3 t) _ (by sl_kernel_rfl)) $$ H3
  · rw [Dat.leavesExact_idle (dat5 V c) 3 t (idleAt5_3 t (fun h => h1 ((hcond5_1 t).mp h))) (noFlush5_3 t (fun h => h1 ((hcond5_1 t).mp h)))]
    by_cases h0 : t.val % 125 = 0
    · rw [outsAt5_A V c t h0 h1]
      dsimp only
      refine (sep_mono_left (PhiS5_any V c _ _)).trans ?_
      iintro ⟨⟨⟨HS0, HR⟩, Hg⟩, Ho, ⟨%d0, H0⟩, ⟨%d1, H1⟩, ⟨%d2, H2⟩, ⟨%d3, H3⟩⟩
      iapply ((atA5 V c t h0 h1).2.2 ((dat5 V c).before 3 t d3) Set.univ _)
      iframe H0 H1 H2 H3 HS0
      iintro ⟨H0, H1, H2, H3, HS0⟩
      iframe HR Hg Ho H0 H1 H2
      isplitl [HS0]
      · iapply (owns_canon5 (c : Thread nD τ) scM5_0 _ (by sl_kernel_rfl)) $$ HS0
      · iexists _; iexact H3
    · rw [outsAt5_B V c t h0 h1, PhiS5_pos V c _ _ (by omega)]
      dsimp only
      iintro ⟨⟨⟨HS0, HR⟩, Hg⟩, Ho, ⟨%d0, H0⟩, ⟨%d1, H1⟩, ⟨%d2, H2⟩, ⟨%d3, H3⟩⟩
      iapply ((atB5 V c t h0 h1 (prev5 V c t)).2.2 ((dat5 V c).before 3 t d3) Set.univ _)
      iframe H0 H1 H2 H3 HS0
      iintro ⟨H0, H1, H2, H3, HS0⟩
      iframe HR Hg Ho H0 H1 H2
      isplitl [HS0]
      · iapply (owns_canon5 (c : Thread nD τ) scM5_0 _ (by sl_kernel_rfl)) $$ HS0
      · iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = Pipeline.ΦA spec5 c from rfl]
  try exact Idealize.SL.BI.Entails.refl _

theorem hout5 (c : Dev nD) : (dat5 V c).Φ (Fin.last cfg5.N) ⊢ (Pipeline.ΦA spec5 c : sProp 𝕄) := by
  rw [show (dat5 V c).Φ (Fin.last cfg5.N) = PhiS5 V c (Fin.last cfg5.N).val (Nat.le_of_lt_succ (Fin.last cfg5.N).isLt) from rfl, PhiA5_eq]
  exact PhiS5_any V c _ _

end Cert.KernelIdeal.Hand

end
-- ==== Proof.KI.R6.lean ====
/- Region 6 of @main (custom_call 6, `cc6__dense_kernel`: a plain dense layer (no bias, no activation); output array `main_v50`): the proof data at the contents the region is entered from, the body obligation, and the invariant's two ends. -/
import proofs.«406692_j3745211482886_1_alg».proof.Proof.Gen.KernelIdeal.Launch
import proofs.«406692_j3745211482886_1_alg».proof.Proof.Gen.KernelIdeal.Skeleton
import proofs.«406692_j3745211482886_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1000x64 := Rect.unit (s := S1000x64) ![0, 0] S1000x64.size inb_S1000x64_S1000x64_0_0
abbrev r6_1 : Rect S64x1 := Rect.unit (s := S64x1) ![0, 0] S64x1.size inb_S64x1_S64x1_0_0
abbrev r6_3 : Rect S1000x1 := Rect.unit (s := S1000x1) ![0, 0] S1000x1.size inb_S1000x1_S1000x1_0_0

def out6_3 (x0 : Vec F S1000x64 .bf16) (x1 : Vec F S64x1 .bf16) : Vec F S1000x1 .f32 :=
  View.canon [⟨r6_3, k6_pay1 (View.ld x0 r6_0) (View.ld x1 r6_1)⟩]

-- The body on whole memrefs: it loads the operand blocks, stores the payload over the whole output block and changes nothing else.
theorem sound_kernel6 (c : Dev nD) (E : Set ℕ) (i : grid6.Coords) (arg1 : Memref sig .tc .vmem S1000x64 .bf16) (harg1 : arg1.IsWhole) (arg2 : Memref sig .tc .vmem S64x1 .bf16) (harg2 : arg2.IsWhole) (arg3 : Memref sig .tc .vmem S1x1 .f32) (harg3 : arg3.IsWhole) (arg4 : Memref sig .tc .vmem S1000x1 .f32) (harg4 : arg4.IsWhole)
    (x0 : Vec F S1000x64 .bf16) (x1 : Vec F S64x1 .bf16) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x1.size (by rfl))

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl
theorem q_eq6 (c : Dev nD) (w : Fin cfg6.W) : (dat6 V c).q w = fullShare := rfl
theorem owed_eq6 (c : Dev nD) (t : Fin (cfg6.N + 1)) : (dat6 V c).owed t = 0 := rfl

-- The body leaves each operand's block in place, so every point finds it as the region did.
theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

-- The body at any point, whatever else is held (`R`, `R'`): the operands' memrefs hold their blocks, so `sound_kernel6` applies.
theorem sound_body6 (c : Dev nD) (t : Fin cfg6.N) (R R' : sProp 𝕄) :
    iprop(R ∗ R'
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d)))
    ⊢ wp frame (wpE (defs₀ (F := F)) Variants.none c none) Set.univ (bodyAt6 t) fun _ => iprop(R ∗ R'
      ∗ owns (c : Thread nD τ) (st6_0 t) fullShare ((dat6 V c).after 0 t)
      ∗ owns (c : Thread nD τ) (st6_1 t) fullShare ((dat6 V c).after 1 t)
      ∗ owns (c : Thread nD τ) (st6_2 t) fullShare ((dat6 V c).after 2 t)
      ∗ owns (c : Thread nD τ) (st6_3 t) fullShare ((dat6 V c).after 3 t)) := by
  simp only [before6_0, before6_1, before6_2]
  dsimp only [dat6]
  iintro ⟨Ha, Hb, ⟨%d0, H0⟩, ⟨%d1, H1⟩, ⟨%d2, H2⟩, ⟨%d3, H3⟩⟩
  iapply (sound_kernel6 c Set.univ (grid6.coords t) (st6_0 t) _ (st6_1 t) _ (st6_2 t) _ (st6_3 t) _ (iblk6 V c 0 t) (iblk6 V c 1 t) (iblk6 V c 2 t) _)
  iframe H0 H1 H2
  isplitl [H3]; · iexists _; iexact H3
  iintro ⟨H0, H1, H2, H3⟩
  iframe Ha Hb H0 H1 H2 H3

theorem body_obligation6 (c : Dev nD) : BodyObligation (dat6 (F := F) V c) (defs₀ (F := F)) Variants.none () Set.univ := fun t => by
  rw [bigSep_W6, bigSep_W6]
  exact sound_body6 V c t _ _

theorem hin6 (c : Dev nD) : (Pipeline.ΦA spec6 c : sProp 𝕄) ⊢ (dat6 V c).Φ 0 := .rfl
theorem hout6 (c : Dev nD) : (dat6 V c).Φ (Fin.last cfg6.N) ⊢ (Pipeline.ΦA spec6 c : sProp 𝕄) := .rfl

end Cert.KernelIdeal.Hand

end
-- ==== Proof.KI.R7Runs.lean ====
/- Region 7 (the sparse aggregation `cc7__spmm_kernel`: a one-hot product accumulated over the edge tiles, bias and leaky rectifier at the last): what the three cases of the body's run share. -/
import proofs.«406692_j3745211482886_1_alg».proof.Proof.Gen.KernelIdeal.Launch
import proofs.«406692_j3745211482886_1_alg».proof.Proof.Gen.KernelIdeal.Skeleton
import proofs.«406692_j3745211482886_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 125 = 0 :=
  (by decide +kernel : ∀ t : Fin grid7.N, cond7_0 (grid7.coords t) ↔ t.val % 125 = 0)

abbrev cond7_1 (i : grid7.Coords) : Prop := k7_cond2 i = 1#1
theorem hcond7_1 : ∀ t : Fin cfg7.N, cond7_1 (grid7.coords t) ↔ t.val % 125 = 124 :=
  (by decide +kernel : ∀ t : Fin grid7.N, cond7_1 (grid7.coords t) ↔ t.val % 125 = 124)

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
theorem liveAt7_3 : ∀ t : Fin cfg7.N, cond7_1 (grid7.coords t) → cfg7.idle 3 (grid7.coords t) = false := by decide +kernel

abbrev ms7_0 (t : Fin cfg7.N) : Memref sig .tc .vmem S1x6400 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S6400x1 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1000x1 .f32 := win7_3.stage (cfg7.slots t 3)
abbrev hs7_3 (t : Fin cfg7.N) : (ms7_3 t).IsWhole := hstage7_3 ((cfg7.slots t 3).cast nbuf7_3)
abbrev scM7_0 : Memref sig .tc .vmem S1000x1 .f32 := Memref.whole cc7_scratch0

-- a whole memref reads its raw contents bijectively, so owning it at `x` is holding the raw contents that read `x`
theorem owns_unread7 (c : Thread nD τ) {sp : Space} {S : Shape} {e : EltTy} {m : Memref sig c.2.kind sp S e} (hm : m.IsWhole) (q : PosShare TreeShare)
    (x : S.Idx → Elt F e) : (owns c m q x : sProp 𝕄) = (m.view.loc c ↦[m.view.set]{q} hm.unread x) := by
  have h₁ : (owns c m q x : sProp 𝕄) ⊢ (m.view.loc c ↦[m.view.set]{q} hm.unread x) := by
    unfold owns; iintro ⟨%f, %hf, H⟩; obtain rfl := hm.eq_unread hf; iexact H
  have h₂ : (m.view.loc c ↦[m.view.set]{q} hm.unread x : sProp 𝕄) ⊢ owns c m q x := by
    unfold owns; iintro H; iexists _; isplitr
    · ipureintro; exact hm.read_unread x
    · iexact H
  exact BI.equiv_iff.mp ⟨h₁, h₂⟩

-- pieces that tile a memref's shape leave it, whatever it held, at their canonical contents
theorem owns_canon7 (c : Thread nD τ) {sp : Space} {S : Shape} {e : EltTy} (m : Memref sig c.2.kind sp S e) (L : List (View.Piece (Elt F) S e))
    (hL : View.Piece.tiledL L S.size = true) :
    (iprop(∃ f, m.view.loc c ↦[m.view.set]{fullShare} m.view.writes (Elt F) f L) : sProp 𝕄) ⊢ owns c m fullShare (View.canon L) := by
  rw [← View.read_writes_junk_eq_canon m.view L]
  iintro ⟨%f, H⟩
  ihave H' := (Ring.owns_of_writes_tiledL m.view S.size) $$ H
  iapply H'; ipureintro; exact hL

abbrev restBut7 (c : Dev nD) : sProp 𝕄 :=
  Pipeline.scopedRestBut (Ix := Unit) (Name := ℕ) (U := Pipeline.UD sig nD τ) (Lvl := ℕ) (Val := Elt F) spec7 c [cc7_scratch0]

theorem PhiA7_eq (c : Dev nD) :
    (Pipeline.ΦA spec7 c : sProp 𝕄)
      = iprop(iprop((∃ d, owns (c : Thread nD τ) scM7_0 fullShare d) ∗ restBut7 c) ∗ (∃ r, prngReg c r)) := by
  unfold Pipeline.ΦA; rw [scopedRest7_split]; simp only [scM7_0, owns_whole]; try rfl

end Cert.KernelIdeal.Hand

end
-- ==== Proof.KI.R7RunA.lean ====
/- Region 7, the body's run at the first edge tile of a node tile: the accumulator is zeroed, then the tile's product is added; the output block is left as found. -/
import proofs.«406692_j3745211482886_1_alg».proof.Proof.KI.R7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun7_A (c : Dev nD) (i : grid7.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : cond7_0 i) (hc1 : ¬cond7_1 i)
    (x0 : Vec F S1x6400 .i32) (x1 : Vec F S6400x1 .bf16) (x2 : Vec F S1x1 .f32) :
    Σ' (L3 : List (View.Piece (Elt F) S1000x1 .f32)), { LS0 : List (View.Piece (Elt F) S1000x1 .f32) //
      ∀ (xi3 : Vec F S1000x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__spmm_kernel i arg2 harg2 arg3 harg3 arg4 harg4 arg5 harg5 arg6 harg6) K } := by
  refine ⟨[], ?_, fun xi3 E K => ?run⟩
  case run =>
    simp only [cc7__spmm_kernel_eq_skeleton]; unfold cc7__spmm_kernel_skel
    rw [owns_unread7 (c : Thread nD τ) harg2, owns_unread7 (c : Thread nD τ) harg3, owns_unread7 (c : Thread nD τ) harg4, owns_unread7 (c : Thread nD τ) harg5]
    unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

end Cert.KernelIdeal.Hand

end
-- ==== Proof.KI.R7RunB.lean ====
/- Region 7, the body's run at an edge tile that is neither first nor last: the tile's product is added to the accumulator; the output block is left as found. -/
import proofs.«406692_j3745211482886_1_alg».proof.Proof.KI.R7RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun7_B (c : Dev nD) (i : grid7.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : ¬cond7_0 i) (hc1 : ¬cond7_1 i)
    (x0 : Vec F S1x6400 .i32) (x1 : Vec F S6400x1 .bf16) (x2 : Vec F S1x1 .f32) (xs0 : Vec F S1000x1 .f32) :
    Σ' (L3 : List (View.Piece (Elt F) S1000x1 .f32)), { LS0 : List (View.Piece (Elt F) S1000x1 .f32) //
      ∀ (xi3 : Vec F S1000x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__spmm_kernel i arg2 harg2 arg3 harg3 arg4 harg4 arg5 harg5 arg6 harg6) K } := by
  refine ⟨[], ?_, fun xi3 E K => ?run⟩
  case run =>
    simp only [cc7__spmm_kernel_eq_skeleton]; unfold cc7__spmm_kernel_skel
    rw [owns_unread7 (c : Thread nD τ) harg2, owns_unread7 (c : Thread nD τ) harg3, owns_unread7 (c : Thread nD τ) harg4, owns_unread7 (c : Thread nD τ) harg5, owns_unread7 (c : Thread nD τ) harg6]
    iintro ⟨H0, H1, H2, H3, HS0, Hk⟩
    sl_exec (disch := first | exact hc0 | exact hc1)
    sl_step
    iapply Hk
    iframe H0 H1 H2 H3
    iexists _; iexact HS0

end Cert.KernelIdeal.Hand

end
-- ==== Proof.KI.R7RunC.lean ====
/- Region 7, the body's run at the last edge tile of a node tile: the tile's product is added to the accumulator, then the output block is stored (the accumulator plus the bias row, through the leaky rectifier). -/
import proofs.«406692_j3745211482886_1_alg».proof.Proof.KI.R7RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun7_C (c : Dev nD) (i : grid7.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : ¬cond7_0 i) (hc1 : cond7_1 i)
    (x0 : Vec F S1x6400 .i32) (x1 : Vec F S6400x1 .bf16) (x2 : Vec F S1x1 .f32) (xs0 : Vec F S1000x1 .f32) :
    Σ' (L3 : List (View.Piece (Elt F) S1000x1 .f32)), { LS0 : List (View.Piece (Elt F) S1000x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__spmm_kernel i arg2 harg2 arg3 harg3 arg4 harg4 arg5 harg5 arg6 harg6) K } := by
  refine ⟨?_, ?_, fun E K => ?run⟩
  case run =>
    simp only [cc7__spmm_kernel_eq_skeleton]; unfold cc7__spmm_kernel_skel
    rw [owns_unread7 (c : Thread nD τ) harg2, owns_unread7 (c : Thread nD τ) harg3, owns_unread7 (c : Thread nD τ) harg4, owns_unread7 (c : Thread nD τ) harg6]
    unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.KernelIdeal.Hand

end
-- ==== Proof.KI.R7.lean ====
/- Region 7: what the output block and the accumulator hold point by point, the pipeline's proof data at the contents `V` the region is entered from, the body obligation, and the invariant's two ends. -/
import proofs.«406692_j3745211482886_1_alg».proof.Proof.KI.R7RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

section Point
variable (c : Dev nD) (t : Fin cfg7.N)

-- each case's run at point `t`: the point's memrefs, the accumulator, the point's input blocks
abbrev atA7 (h0 : t.val % 125 = 0) (h1 : ¬t.val % 125 = 124) :=
  kernelRun7_A c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)
abbrev atB7 (h0 : ¬t.val % 125 = 0) (h1 : ¬t.val % 125 = 124) (xs : Vec F S1000x1 .f32) :=
  kernelRun7_B c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) xs
abbrev atC7 (h0 : ¬t.val % 125 = 0) (h1 : t.val % 125 = 124) (xs : Vec F S1000x1 .f32) :=
  kernelRun7_C c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) xs

-- one point's step: from what the accumulator held, the pair (output block, accumulator) the point's case leaves
def step7 (xs : Vec F S1000x1 .f32) : Vec F S1000x1 .f32 × Vec F S1000x1 .f32 :=
  if h0 : t.val % 125 = 0 then (View.canon (atA7 V c t h0 (by omega)).1, View.canon (atA7 V c t h0 (by omega)).2.1)
  else if h1 : t.val % 125 = 124 then (View.canon (atC7 V c t h0 h1 xs).1, View.canon (atC7 V c t h0 h1 xs).2.1)
  else (View.canon (atB7 V c t h0 h1 xs).1, View.canon (atB7 V c t h0 h1 xs).2.1)

end Point

def outsAt7 (c : Dev nD) : (n : ℕ) → n < cfg7.N → Vec F S1000x1 .f32 × Vec F S1000x1 .f32
  | 0, hn => step7 V c ⟨0, hn⟩ (View.canon ([] : List (View.Piece (Elt F) S1000x1 .f32)))
  | n + 1, hn => step7 V c ⟨n + 1, hn⟩ (outsAt7 c n (Nat.lt_of_succ_lt hn)).2

-- what the point before `t` left in the accumulator
abbrev prev7 (c : Dev nD) (t : Fin cfg7.N) : Vec F S1000x1 .f32 := (outsAt7 V c (t.val - 1) (Nat.lt_of_le_of_lt (Nat.sub_le _ _) t.isLt)).2

theorem outsAt7_eq (c : Dev nD) (t : Fin cfg7.N) : outsAt7 V c t.val t.isLt = step7 V c t (prev7 V c t) := by
  obtain ⟨n, hn⟩ := t
  cases n with
  | zero =>
    have h : (⟨0, hn⟩ : Fin cfg7.N).val % 125 = 0 := Nat.zero_mod _
    show step7 V c ⟨0, hn⟩ _ = step7 V c ⟨0, hn⟩ _
    unfold step7
    rw [dif_pos h, dif_pos h]
  | succ n => rfl

theorem outsAt7_A (c : Dev nD) (t : Fin cfg7.N) (h0 : t.val % 125 = 0) (h1 : ¬t.val % 125 = 124) :
    outsAt7 V c t.val t.isLt = (View.canon (atA7 V c t h0 h1).1, View.canon (atA7 V c t h0 h1).2.1) := (outsAt7_eq V c t).trans (dif_pos h0)
theorem outsAt7_B (c : Dev nD) (t : Fin cfg7.N) (h0 : ¬t.val % 125 = 0) (h1 : ¬t.val % 125 = 124) :
    outsAt7 V c t.val t.isLt = (View.canon (atB7 V c t h0 h1 (prev7 V c t)).1, View.canon (atB7 V c t h0 h1 (prev7 V c t)).2.1) := (outsAt7_eq V c t).trans ((dif_neg h0).trans (dif_neg h1))
theorem outsAt7_C (c : Dev nD) (t : Fin cfg7.N) (h0 : ¬t.val % 125 = 0) (h1 : t.val % 125 = 124) :
    outsAt7 V c t.val t.isLt = (View.canon (atC7 V c t h0 h1 (prev7 V c t)).1, View.canon (atC7 V c t h0 h1 (prev7 V c t)).2.1) := (outsAt7_eq V c t).trans ((dif_neg h0).trans (dif_pos h1))

-- the invariant before position `n`: the class's before the first point, afterwards the accumulator at what the point before left
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ restBut7 c) ∗ (∃ r, prngReg c r))

theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ restBut7 c) ∗ (∃ r, prngReg c r)) := by
  cases n with
  | zero => exact absurd rfl hz
  | succ n => rfl

-- at every position the invariant holds the accumulator at some contents
theorem PhiS7_any (c : Dev nD) (n : ℕ) (h : n ≤ cfg7.N) :
    PhiS7 V c n h ⊢ iprop(iprop((∃ d, owns (c : Thread nD τ) scM7_0 fullShare d) ∗ restBut7 c) ∗ (∃ r, prngReg c r)) := by
  cases n with
  | zero => exact Entails.of_eq (PhiA7_eq c)
  | succ n =>
    rw [PhiS7_pos V c _ h (Nat.succ_ne_zero n)]
    iintro ⟨⟨HS0, HR⟩, Hg⟩
    iframe HR Hg
    iexists _; iexact HS0

def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by
  dsimp only [dat7]
theorem owed_eq7 (c : Dev nD) (t : Fin (cfg7.N + 1)) : (dat7 V c).owed t = 0 := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

-- the closed forms say which case the point is in; that case's run applies; the invariant lends the accumulator and takes it back at the point's contents
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = iprop(iprop(owns (c : Thread nD τ) scM7_0 fullShare ((outsAt7 V c t.val t.isLt).2) ∗ restBut7 c) ∗ (∃ r, prngReg c r)) from rfl]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [PhiS7_castSucc V c t]
  by_cases h1 : t.val % 125 = 124
  · have h0 : ¬t.val % 125 = 0 := by omega
    rw [show (dat7 V c).leavesExact 3 t = owns (c : Thread nD τ) (ms7_3 t) fullShare ((dat7 V c).after 3 t) from by
      unfold Dat.leavesExact; rw [liveAt7_3 t ((hcond7_1 t).mpr h1)], after7_3]
    rw [outsAt7_C V c t h0 h1, PhiS7_pos V c _ _ (by omega)]
    dsimp only
    iintro ⟨⟨⟨HS0, HR⟩, Hg⟩, Ho, ⟨%d0, H0⟩, ⟨%d1, H1⟩, ⟨%d2, H2⟩, ⟨%d3, H3⟩⟩
    iapply ((atC7 V c t h0 h1 (prev7 V c t)).2.2 Set.univ _)
    iframe H0 H1 H2 HS0
    isplitl [H3]; · iexists _; iexact H3
    iintro ⟨H0, H1, H2, H3, HS0⟩
    iframe HR Hg Ho H0 H1 H2
    isplitl [HS0]
    · iapply (owns_canon7 (c : Thread nD τ) scM7_0 _ (by sl_kernel_rfl)) $$ HS0
    · iapply (owns_canon7 (c : Thread nD τ) (ms7_3 t) _ (by sl_kernel_rfl)) $$ H3
  · rw [Dat.leavesExact_idle (dat7 V c) 3 t (idleAt7_3 t (fun h => h1 ((hcond7_1 t).mp h))) (noFlush7_3 t (fun h => h1 ((hcond7_1 t).mp h)))]
    by_cases h0 : t.val % 125 = 0
    · rw [outsAt7_A V c t h0 h1]
      dsimp only
      refine (sep_mono_left (PhiS7_any V c _ _)).trans ?_
      iintro ⟨⟨⟨HS0, HR⟩, Hg⟩, Ho, ⟨%d0, H0⟩, ⟨%d1, H1⟩, ⟨%d2, H2⟩, ⟨%d3, H3⟩⟩
      iapply ((atA7 V c t h0 h1).2.2 ((dat7 V c).before 3 t d3) Set.univ _)
      iframe H0 H1 H2 H3 HS0
      iintro ⟨H0, H1, H2, H3, HS0⟩
      iframe HR Hg Ho H0 H1 H2
      isplitl [HS0]
      · iapply (owns_canon7 (c : Thread nD τ) scM7_0 _ (by sl_kernel_rfl)) $$ HS0
      · iexists _; iexact H3
    · rw [outsAt7_B V c t h0 h1, PhiS7_pos V c _ _ (by omega)]
      dsimp only
      iintro ⟨⟨⟨HS0, HR⟩, Hg⟩, Ho, ⟨%d0, H0⟩, ⟨%d1, H1⟩, ⟨%d2, H2⟩, ⟨%d3, H3⟩⟩
      iapply ((atB7 V c t h0 h1 (prev7 V c t)).2.2 ((dat7 V c).before 3 t d3) Set.univ _)
      iframe H0 H1 H2 H3 HS0
      iintro ⟨H0, H1, H2, H3, HS0⟩
      iframe HR Hg Ho H0 H1 H2
      isplitl [HS0]
      · iapply (owns_canon7 (c : Thread nD τ) scM7_0 _ (by sl_kernel_rfl)) $$ HS0
      · iexists _; iexact H3

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.ΦA spec7 c : sProp 𝕄) ⊢ (dat7 V c).Φ 0 := by
  rw [show (dat7 V c).Φ 0 = Pipeline.ΦA spec7 c from rfl]
  try exact Idealize.SL.BI.Entails.refl _

theorem hout7 (c : Dev nD) : (dat7 V c).Φ (Fin.last cfg7.N) ⊢ (Pipeline.ΦA spec7 c : sProp 𝕄) := by
  rw [show (dat7 V c).Φ (Fin.last cfg7.N) = PhiS7 V c (Fin.last cfg7.N).val (Nat.le_of_lt_succ (Fin.last cfg7.N).isLt) from rfl, PhiA7_eq]
  exact PhiS7_any V c _ _

end Cert.KernelIdeal.Hand

end
-- ==== Proof.KI.Run.lean ====
/- The run of @main: every weakly fair execution terminates, the result array ends at the last valuation of the chain of host stretches and regions, each argument as launched. -/
import proofs.«406692_j3745211482886_1_alg».proof.Proof.KI.RunCond
import proofs.«406692_j3745211482886_1_alg».proof.Proof.KI.R0
import proofs.«406692_j3745211482886_1_alg».proof.Proof.KI.R1
import proofs.«406692_j3745211482886_1_alg».proof.Proof.KI.R2
import proofs.«406692_j3745211482886_1_alg».proof.Proof.KI.R3
import proofs.«406692_j3745211482886_1_alg».proof.Proof.KI.R4
import proofs.«406692_j3745211482886_1_alg».proof.Proof.KI.R5
import proofs.«406692_j3745211482886_1_alg».proof.Proof.KI.R6
import proofs.«406692_j3745211482886_1_alg».proof.Proof.KI.R7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

section Leave

variable {cfg : Cfg sig Λ₀} (W : Dev nD → Valuation τ sig (Elt F)) (d : (c : Dev nD) → Dat τ (Elt F) Unit ℕ (Pipeline.UD sig nD τ) ℕ cfg c) (o : Fin cfg.W) (c : Dev nD)

/-- What a region whose window `o` alone is written back leaves: `o`'s array at its write-backs folded over the entry contents, every other buffer as entered. -/
def leave : Valuation τ sig (Elt F) := Function.update (W c) (Pipeline.arrRef cfg.spec o) ((d c).arrAt o cfg.N)

theorem leave_self : leave W d o c (Pipeline.arrRef cfg.spec o) = (d c).arrAt o cfg.N := Function.update_self ..

theorem leave_of_ne (b : Ref sig .tc) (h : b ≠ Pipeline.arrRef cfg.spec o) : leave W d o c b = W c b :=
  Function.update_of_ne (StableHlo.devRef_ne_of_ne h) ..

/-- Every window's array ends where `leave` has it: an input window's is never written back and distinct windows have distinct arrays. -/
theorem leave_arr (hinj : Function.Injective (Pipeline.arrRef cfg.spec)) (hio : ∀ w, w ≠ o → (cfg.win w).isOut = false)
    (hA : ∀ w, (d c).A w = rd W c (Pipeline.arrRef cfg.spec w)) (w : Fin cfg.W) :
    (d c).arrAt w cfg.N = rd (leave W d o) c (Pipeline.arrRef cfg.spec w) := by
  by_cases h : w = o
  · subst h; exact (leave_self W d w c).symm
  · exact (((d c).arrAt_in w (hio w h) _).trans (hA w)).trans (leave_of_ne W d o c _ fun e => h (hinj e)).symm

end Leave

def W1 (c : Dev nD) : Valuation τ sig (Elt F) := StableHlo.after hostOps0 (V0 m c)
def W2 : Dev nD → Valuation τ sig (Elt F) := leave (W1 m) (dat0 (rd (W1 m))) (3 : Fin 4)
def W3 (c : Dev nD) : Valuation τ sig (Elt F) := StableHlo.after hostOps1 (W2 m c)
def W4 : Dev nD → Valuation τ sig (Elt F) := leave (W3 m) (dat1 (rd (W3 m))) (3 : Fin 4)
def W5 (c : Dev nD) : Valuation τ sig (Elt F) := StableHlo.after hostOps2 (W4 m c)
def W6 : Dev nD → Valuation τ sig (Elt F) := leave (W5 m) (dat2 (rd (W5 m))) (3 : Fin 4)
def W7 (c : Dev nD) : Valuation τ sig (Elt F) := StableHlo.after hostOps3 (W6 m c)
def W8 : Dev nD → Valuation τ sig (Elt F) := leave (W7 m) (dat3 (rd (W7 m))) (3 : Fin 4)
def W9 (c : Dev nD) : Valuation τ sig (Elt F) := StableHlo.after hostOps4 (W8 m c)
def W10 : Dev nD → Valuation τ sig (Elt F) := leave (W9 m) (dat4 (rd (W9 m))) (3 : Fin 4)
def W11 (c : Dev nD) : Valuation τ sig (Elt F) := StableHlo.after hostOps5 (W10 m c)
def W12 : Dev nD → Valuation τ sig (Elt F) := leave (W11 m) (dat5 (rd (W11 m))) (3 : Fin 4)
def W13 (c : Dev nD) : Valuation τ sig (Elt F) := StableHlo.after hostOps6 (W12 m c)
def W14 : Dev nD → Valuation τ sig (Elt F) := leave (W13 m) (dat6 (rd (W13 m))) (3 : Fin 4)
def W15 (c : Dev nD) : Valuation τ sig (Elt F) := StableHlo.after hostOps7 (W14 m c)
def W16 : Dev nD → Valuation τ sig (Elt F) := leave (W15 m) (dat7 (rd (W15 m))) (3 : Fin 4)
def W17 (c : Dev nD) : Valuation τ sig (Elt F) := StableHlo.after hostOps8 (W16 m c)

def outs : Outs (F := F) := fun J r c =>
  match J with
  | 2 => W2 m c r | 4 => W4 m c r | 6 => W6 m c r | 8 => W8 m c r
  | 10 => W10 m c r | 12 => W12 m c r | 14 => W14 m c r | 16 => W16 m c r
  | _ => V0 m c r

/-- Updating an equal valuation at `r` by what the updated one holds there gives the updated one. -/
theorem update_at_self {V W : Valuation τ sig (Elt F)} (h : V = W) (r : DevRef τ sig) (x : r.ty.Contents (Elt F)) :
    Function.update V r (Function.update W r x r) = Function.update W r x := by
  rw [h, Function.update_self]

/-- What a region leaves in its output array, its proof data read at an equal entry valuation. -/
theorem leave_out {cfg : Cfg sig Λ₀} (D : ((c : Dev nD) → (b : Ref sig .tc) → Buf (Elt F) ((c : Thread nD τ).loc b)) → (c : Dev nD) → Dat τ (Elt F) Unit ℕ (Pipeline.UD sig nD τ) ℕ cfg c)
    (o : Fin cfg.W) {V W : Dev nD → Valuation τ sig (Elt F)} (h : ∀ c, V c = W c) (c : Dev nD) :
    leave W (D (rd W)) o c (Pipeline.arrRef cfg.spec o) = (D (fun c b => V c b) c).arrAt o cfg.N := by
  obtain rfl : V = W := funext h
  exact leave_self ..

theorem V1_eq (c : Dev nD) : V1 m c = W1 m c := rfl
theorem V2_eq (c : Dev nD) : V2 m (outs m) c = W2 m c := update_at_self (V1_eq m c) main_v11 _
theorem V3_eq (c : Dev nD) : V3 m (outs m) c = W3 m c := congrArg (StableHlo.after hostOps1) (V2_eq m c)
theorem V4_eq (c : Dev nD) : V4 m (outs m) c = W4 m c := update_at_self (V3_eq m c) main_v14 _
theorem V5_eq (c : Dev nD) : V5 m (outs m) c = W5 m c := congrArg (StableHlo.after hostOps2) (V4_eq m c)
theorem V6_eq (c : Dev nD) : V6 m (outs m) c = W6 m c := update_at_self (V5_eq m c) main_v26 _
theorem V7_eq (c : Dev nD) : V7 m (outs m) c = W7 m c := congrArg (StableHlo.after hostOps3) (V6_eq m c)
theorem V8_eq (c : Dev nD) : V8 m (outs m) c = W8 m c := update_at_self (V7_eq m c) main_v29 _
theorem V9_eq (c : Dev nD) : V9 m (outs m) c = W9 m c := congrArg (StableHlo.after hostOps4) (V8_eq m c)
theorem V10_eq (c : Dev nD) : V10 m (outs m) c = W10 m c := update_at_self (V9_eq m c) main_v35 _
theorem V11_eq (c : Dev nD) : V11 m (outs m) c = W11 m c := congrArg (StableHlo.after hostOps5) (V10_eq m c)
theorem V12_eq (c : Dev nD) : V12 m (outs m) c = W12 m c := update_at_self (V11_eq m c) main_v44 _
theorem V13_eq (c : Dev nD) : V13 m (outs m) c = W13 m c := congrArg (StableHlo.after hostOps6) (V12_eq m c)
theorem V14_eq (c : Dev nD) : V14 m (outs m) c = W14 m c := update_at_self (V13_eq m c) main_v50 _
theorem V15_eq (c : Dev nD) : V15 m (outs m) c = W15 m c := congrArg (StableHlo.after hostOps7) (V14_eq m c)
theorem V16_eq (c : Dev nD) : V16 m (outs m) c = W16 m c := update_at_self (V15_eq m c) main_v59 _
theorem V17_eq (c : Dev nD) : V17 m (outs m) c = W17 m c := congrArg (StableHlo.after hostOps8) (V16_eq m c)

theorem outs_eq2 : ∀ c : Dev nD, outs m 2 main_v11 c = (dat0 (fun c b => V1 m c b) c).arrAt 3 cfg0.N :=
  leave_out dat0 (3 : Fin 4) (V1_eq m)
theorem outs_eq4 : ∀ c : Dev nD, outs m 4 main_v14 c = (dat1 (fun c b => V3 m (outs m) c b) c).arrAt 3 cfg1.N :=
  leave_out dat1 (3 : Fin 4) (V3_eq m)
theorem outs_eq6 : ∀ c : Dev nD, outs m 6 main_v26 c = (dat2 (fun c b => V5 m (outs m) c b) c).arrAt 3 cfg2.N :=
  leave_out dat2 (3 : Fin 4) (V5_eq m)
theorem outs_eq8 : ∀ c : Dev nD, outs m 8 main_v29 c = (dat3 (fun c b => V7 m (outs m) c b) c).arrAt 3 cfg3.N :=
  leave_out dat3 (3 : Fin 4) (V7_eq m)
theorem outs_eq10 : ∀ c : Dev nD, outs m 10 main_v35 c = (dat4 (fun c b => V9 m (outs m) c b) c).arrAt 3 cfg4.N :=
  leave_out dat4 (3 : Fin 4) (V9_eq m)
theorem outs_eq12 : ∀ c : Dev nD, outs m 12 main_v44 c = (dat5 (fun c b => V11 m (outs m) c b) c).arrAt 3 cfg5.N :=
  leave_out dat5 (3 : Fin 4) (V11_eq m)
theorem outs_eq14 : ∀ c : Dev nD, outs m 14 main_v50 c = (dat6 (fun c b => V13 m (outs m) c b) c).arrAt 3 cfg6.N :=
  leave_out dat6 (3 : Fin 4) (V13_eq m)
theorem outs_eq16 : ∀ c : Dev nD, outs m 16 main_v59 c = (dat7 (fun c b => V15 m (outs m) c b) c).arrAt 3 cfg7.N :=
  leave_out dat7 (3 : Fin 4) (V15_eq m)

def pdats : (p : Fin 8) → (c : Dev nD) → Dat τ (Elt F) Unit ℕ (Pipeline.UD sig nD τ) ℕ (cfgs p) c
  | ⟨0, _⟩ => fun c => dat0 (rd (W1 m)) c
  | ⟨1, _⟩ => fun c => dat1 (rd (W3 m)) c
  | ⟨2, _⟩ => fun c => dat2 (rd (W5 m)) c
  | ⟨3, _⟩ => fun c => dat3 (rd (W7 m)) c
  | ⟨4, _⟩ => fun c => dat4 (rd (W9 m)) c
  | ⟨5, _⟩ => fun c => dat5 (rd (W11 m)) c
  | ⟨6, _⟩ => fun c => dat6 (rd (W13 m)) c
  | ⟨7, _⟩ => fun c => dat7 (rd (W15 m)) c

abbrev Lnone : GSem nD τ sig → Finset Unit := fun _ => ∅
abbrev lv0 : GSem nD τ sig → Unit → ℕ := fun _ _ => 0
abbrev Rst (c : Dev nD) : sProp 𝕄 := iprop((∃ r, prngReg c r) ∗ ∃ W, owes (c : Thread nD τ) (0 : CellTallies nD τ sig Unit) W)

set_option backward.isDefEq.respectTransparency.types false in
/-- Region `p`, whose window `o` alone is written back, as a segment of the run: entered with every buffer at `Wi`, left with every buffer at `leave Wi (pd p) o`. -/
def regOf (pd : (p : Fin 8) → (c : Dev nD) → Dat τ (Elt F) Unit ℕ (Pipeline.UD sig nD τ) ℕ (cfgs p) c) (p : Fin 8) (launch : Pipeline.LaunchFacts (nD := nD) (τ := τ) cfgs p)
    (Wi : Dev nD → Valuation τ sig (Elt F)) (o : Fin (cfgs p).W) (hio : ∀ w, w ≠ o → ((cfgs p).win w).isOut = false)
    (hb : ∀ c, BodyObligation (pd p c) defs₀ Variants.none () Set.univ)
    (howed : ∀ c t, (pd p c).owed t = 0) (hrec : ∀ c, (pd p c).recorded 0 = Set.univ) (hq : ∀ c w, (pd p c).q w = fullShare)
    (hA : ∀ c w, (pd p c).A w = rd Wi c (Pipeline.arrRef (cfgs p).spec w))
    (hΦ0 : ∀ c, (Pipeline.ΦA (cfgs p).spec c : sProp 𝕄) ⊢ (pd p c).Φ 0)
    (hΦN : ∀ c, (pd p c).Φ (Fin.last (cfgs p).N) ⊢ (Pipeline.ΦA (cfgs p).spec c : sProp 𝕄)) :
    Pipeline.RegionSeg (pcfgs (F := F)) adm pd () defs₀ Variants.none Lnone lv0 p where
  win := launch.win.to₀
  block_pos := launch.block_pos
  stage_whole := launch.stage_whole
  K := PEmpty
  osem k := k.elim
  ho := Pipeline.OwnSemFacts.none _
  hbody c := (hb c).loose
  hwaits := Pipeline.hwaits_of_owed_zero _ _ _ _ Lnone lv0 p howed
  pre c := iprop(StableHlo.held (c : Thread nD τ) (Pipeline.ucRefs τ sig) (Wi c) ∗ Rst c)
  post c := iprop(StableHlo.held (c : Thread nD τ) (Pipeline.ucRefs τ sig) (leave Wi (pd p) o c) ∗ Rst c)
  X c := iprop(∃ r, prngReg c r)
  Y c := iprop(∃ r, prngReg c r)
  Z c := Pipeline.unscopedRest (Ix := Unit) (Name := ℕ) (U := Pipeline.UD sig nD τ) (Lvl := ℕ) (cfgs p).spec c (rd Wi c)
  hentry c := by
    unfold Pipeline.Dat.owesAt Pipeline.owesWithin
    rw [Pipeline.ownSems0_none, howed c 0]
    have hsplit := Pipeline.arrays_of_unscopedBufs (p := p) (pcfgs (F := F)) adm pd launch.win launch.arr_whole c
      ((pd p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((hrec c).symm ▸ Set.mem_univ _)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    refine (hΦN c).trans ?_
    rw [Pipeline.ownSems0_none]; unfold Pipeline.ΦA
    iintro ⟨Hr, Hp⟩
    isplitl [Hp]; · iexact Hp
    isplitr; · iempintro
    iexact Hr
  hexit c := by
    unfold Pipeline.Dat.owesAt Pipeline.owesWithin
    rw [howed c (Fin.last _)]
    have hjoin := Pipeline.unscopedBufs_of_arrays (p := p) (pcfgs (F := F)) adm (Ix := Unit) (Name := ℕ) (U := Pipeline.UD sig nD τ) (Lvl := ℕ)
      launch.win launch.arr_whole c pd ((pd p c).share_full (hq c))
      (rd Wi c) (rd (leave Wi (pd p) o) c) ((pd p c).arrAt · (cfgs p).N) (leave_arr Wi (pd p) o c launch.win.arr_inj hio (hA c))
      fun b hn => leave_of_ne Wi (pd p) o c b fun e => hn (Finset.mem_image.mpr ⟨o, Finset.mem_univ _, e.symm⟩)
    rw [Pipeline.unscopedBufs_held] at hjoin
    iintro ⟨Ha, ⟨%W, -, HO⟩, HY, Hrest⟩
    imodintro
    isplitl [Ha Hrest]
    · iapply hjoin; isplitl [Ha] <;> iassumption
    isplitl [HY]; · iexact HY
    iexists W; iexact HO

def reg0 := regOf (pdats m) 0 launch0 (W1 m) (3 : Fin 4) (by decide) (body_obligation0 _) (owed_eq0 _) (fun _ => rfl) (q_eq0 _) (A_eq0 _) (hin0 _) (hout0 _)
def reg1 := regOf (pdats m) 1 launch1 (W3 m) (3 : Fin 4) (by decide) (body_obligation1 _) (owed_eq1 _) (fun _ => rfl) (q_eq1 _) (A_eq1 _) (hin1 _) (hout1 _)
def reg2 := regOf (pdats m) 2 launch2 (W5 m) (3 : Fin 4) (by decide) (body_obligation2 _) (owed_eq2 _) (fun _ => rfl) (q_eq2 _) (A_eq2 _) (hin2 _) (hout2 _)
def reg3 := regOf (pdats m) 3 launch3 (W7 m) (3 : Fin 4) (by decide) (body_obligation3 _) (owed_eq3 _) (fun _ => rfl) (q_eq3 _) (A_eq3 _) (hin3 _) (hout3 _)
def reg4 := regOf (pdats m) 4 launch4 (W9 m) (3 : Fin 4) (by decide) (body_obligation4 _) (owed_eq4 _) (fun _ => rfl) (q_eq4 _) (A_eq4 _) (hin4 _) (hout4 _)
def reg5 := regOf (pdats m) 5 launch5 (W11 m) (3 : Fin 4) (by decide) (body_obligation5 _) (owed_eq5 _) (fun _ => rfl) (q_eq5 _) (A_eq5 _) (hin5 _) (hout5 _)
def reg6 := regOf (pdats m) 6 launch6 (W13 m) (3 : Fin 4) (by decide) (body_obligation6 _) (owed_eq6 _) (fun _ => rfl) (q_eq6 _) (A_eq6 _) (hin6 _) (hout6 _)
def reg7 := regOf (pdats m) 7 launch7 (W15 m) (3 : Fin 4) (by decide) (body_obligation7 _) (owed_eq7 _) (fun _ => rfl) (q_eq7 _) (A_eq7 _) (hin7 _) (hout7 _)

set_option backward.isDefEq.respectTransparency.types false in
theorem run (ρ : Dev nD → PrngReg) : θ_run defs (onTc (τ := τ) (main (F := F))) ⟨m, fun _ => 0, ρ⟩ (fun r => ∀ c : Dev nD,
      r.2.mem ((c.tc : Thread nD τ).loc main_v61) = V17 m (outs m) c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_cond m embL () Variants.none Lnone lv0 (fun _ _ => rfl) ρ (outs m) (pdats m)
    0 (fun _ => iprop(emp)) (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => Rst c)
    (by
      refine Pipeline.initEach Lnone lv0 fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V1_eq m c]; exact .rfl) (fun c => by rw [V2_eq m c]; exact .rfl)
    (reg1 m) (fun c => by rw [V3_eq m c]; exact .rfl) (fun c => by rw [V4_eq m c]; exact .rfl)
    (reg2 m) (fun c => by rw [V5_eq m c]; exact .rfl) (fun c => by rw [V6_eq m c]; exact .rfl)
    (reg3 m) (fun c => by rw [V7_eq m c]; exact .rfl) (fun c => by rw [V8_eq m c]; exact .rfl)
    (reg4 m) (fun c => by rw [V9_eq m c]; exact .rfl) (fun c => by rw [V10_eq m c]; exact .rfl)
    (reg5 m) (fun c => by rw [V11_eq m c]; exact .rfl) (fun c => by rw [V12_eq m c]; exact .rfl)
    (reg6 m) (fun c => by rw [V13_eq m c]; exact .rfl) (fun c => by rw [V14_eq m c]; exact .rfl)
    (reg7 m) (fun c => by rw [V15_eq m c]; exact .rfl) (fun c => by rw [V16_eq m c]; exact .rfl)

end Cert.KernelIdeal.Hand

end
-- ==== Proof.LibIndex.lean ====
/- A row gather and a row scatter along the leading axis of a two-axis array, read at an index. -/
import Idealize.ShloMosaic.PureOps.ShapeOps
import Idealize.ShloMosaic.Lib.ValueIdx

namespace Cert.Gcn

open Idealize.ShloMosaic Idealize.ShloMosaic.ValueIdx

def crow (N : Nat) (hN : 0 < N) (v : BitVec 32) : Fin N := ⟨min v.toInt.toNat (N - 1), by omega⟩

abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

-- An array of one element has one index.
theorem idx_one (i : (⟨1, ![1]⟩ : Shape).Idx) : i = ix1 (0 : Fin 1) := funext fun a => by
  match a with
  | ⟨0, _⟩ => exact Fin.ext (Nat.lt_one_iff.mp (i ⟨0, Nat.one_pos⟩).isLt)

end Cert.Gcn
-- ==== Proof.Spec.lean ====
/- The four-layer graph convolution on 50000 nodes and 800000 edges, index by index; its value is the last layer at node 1, column 0. -/
import Idealize.ShloMosaic.PureOps.Ideal
import Idealize.ShloMosaic.Lib.ValueIdx
import proofs.«406692_j3745211482886_1_alg».proof.Proof.LibIndex

namespace Cert.Gnn

open Idealize.ShloMosaic

def arr2 {α : Type} {a b : Nat} (x : (⟨2, ![a, b]⟩ : Shape).Idx → α) : Fin a → Fin b → α :=
  fun p q => x (ValueIdx.ix2 p q)

def arr1 {α : Type} {a : Nat} (x : (⟨1, ![a]⟩ : Shape).Idx → α) : Fin a → α :=
  fun p => x (ValueIdx.ix1 p)

noncomputable def slope : EReal := Ideal.ofBits .f32 0x3C23D70A#32

noncomputable def lrelu (x : EReal) : EReal := Scalar.select (Ideal.cmp .oge x 0) x (slope * x)

-- A negative source word is raised by `50000`; the signed value is then clamped into `[0, 49999]`.
def srcRow (v : BitVec 32) : Fin 50000 :=
  Cert.Gcn.crow 50000 (by decide) (if v.toInt < 0 then v + 50000#32 else v)

-- An edge whose destination word is no node's number contributes nowhere.
noncomputable def segsum {D : Nat} (feat : Fin 800000 → Fin D → EReal) (dst : Fin 800000 → BitVec 32)
    (n : Fin 50000) (j : Fin D) : EReal :=
  ∑ e ∈ Finset.univ.filter (fun e : Fin 800000 => (dst e).toInt = (n.val : Int)), feat e j

noncomputable def mm {A K J : Nat} (x : Fin A → Fin K → EReal) (w : Fin K → Fin J → EReal) (a : Fin A) (j : Fin J) :
    EReal :=
  ∑ k : Fin K, x a k * w k j

def rowsOf {D : Nat} (x : Fin 50000 → Fin D → EReal) (src : Fin 800000 → BitVec 32) : Fin 800000 → Fin D → EReal :=
  fun e j => x (srcRow (src e)) j

noncomputable def layerAgg {K J : Nat} (x : Fin 50000 → Fin K → EReal) (src dst : Fin 800000 → BitVec 32)
    (W : Fin K → Fin J → EReal) (b : Fin J → EReal) (n : Fin 50000) (j : Fin J) : EReal :=
  lrelu (mm (segsum (rowsOf x src) dst) W n j + b j)

noncomputable def layerMul {K J : Nat} (x : Fin 50000 → Fin K → EReal) (src dst : Fin 800000 → BitVec 32)
    (W : Fin K → Fin J → EReal) (b : Fin J → EReal) (n : Fin 50000) (j : Fin J) : EReal :=
  lrelu (segsum (rowsOf (mm x W) src) dst n j + b j)

noncomputable def out (in_feat : Fin 50000 → Fin 1 → EReal) (src dst : Fin 800000 → BitVec 32)
    (W0 : Fin 1 → Fin 64 → EReal) (b0 : Fin 64 → EReal) (W1 : Fin 64 → Fin 128 → EReal) (b1 : Fin 128 → EReal)
    (W2 : Fin 128 → Fin 64 → EReal) (b2 : Fin 64 → EReal) (W3 : Fin 64 → Fin 1 → EReal) (b3 : Fin 1 → EReal) : EReal :=
  layerMul (layerMul (layerAgg (layerAgg in_feat src dst W0 b0) src dst W1 b1) src dst W2 b2) src dst W3 b3
    ⟨1, by decide⟩ ⟨0, by decide⟩

end Cert.Gnn
-- ==== Proof.KI.Host.lean ====
/- What each host stretch hands the next region, index by index, at the extended reals. -/
import proofs.«406692_j3745211482886_1_alg».proof.Proof.Gen.KernelIdeal.Regions
import proofs.«406692_j3745211482886_1_alg».proof.Proof.Spec
import proofs.«406692_j3745211482886_1_alg».proof.Proof.LibIndex
import Idealize.ShloMosaic.PureOps.Ideal
import Idealize.ShloMosaic.Lib.ValueIdx
import Idealize.ShloMosaic.Lib.ValueLayout
import Idealize.ShloMosaic.Lib.Pipeline.Value
import Idealize.ShloMosaic.Lib.IdealHost

set_option maxRecDepth 1076

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Gnn (arr1 arr2 rowsOf)

variable (m : (ℓ : Loc nD τ sig) → Buf (Elt Ideal) ℓ) (outs : Gen.Outs (F := Ideal))

-- A one-axis array recast as one row reads, at column `i`, the array at `i`.
theorem row_apply {α : Type} {a : Nat} {h : (⟨1, ![a]⟩ : Shape).ShapeCasts ⟨2, ![1, a]⟩}
    (x y : (⟨1, ![a]⟩ : Shape).Idx → α) (hxy : x = y) (i : Fin a) :
    shapeCast ⟨2, ![1, a]⟩ x h (ix2 (0 : Fin 1) i) = arr1 y i := by
  subst hxy
  exact shapeCast_a_1a_apply x h 0 i

-- A negative source word is raised by `50000`.
theorem normalise_apply (B : IVec S800000 32) (i : S800000.Idx) :
    select (cmpi .slt B (broadcastInDim S800000 ![] bcast_S_S800000 (constantI S_ 32 0#32)))
      (addi B (broadcastInDim S800000 ![] bcast_S_S800000 (constantI S_ 32 50000#32))) B i
    = if (B i).toInt < 0 then B i + 50000#32 else B i := by
  show Scalar.select (IntOp.cmpi .slt (B i) (broadcastInDim S800000 ![] bcast_S_S800000 (constantI S_ 32 0#32) i))
    (IntOp.addi (B i) (broadcastInDim S800000 ![] bcast_S_S800000 (constantI S_ 32 50000#32) i)) (B i) = _
  rw [broadcastInDim_scalar_apply, broadcastInDim_scalar_apply]
  show (if BitVec.ofBool ((B i).slt 0#32) = 1 then B i + 50000#32 else B i) = _
  have h0 : (B i).slt 0#32 = decide ((B i).toInt < 0) := by
    simp [BitVec.slt]
  rw [h0]
  by_cases h : (B i).toInt < 0
  · rw [if_pos h, decide_eq_true h]; rfl
  · rw [if_neg h, decide_eq_false h]; rfl

-- Per edge, the row the source word names: the raised word, read signed and clamped into `[0, 49999]`.
theorem gatherNorm_apply {D : Nat}
    (wf : GatherDims.WF ⟨2, ![50000, D]⟩ ⟨2, ![800000, 1]⟩ ⟨2, ![800000, D]⟩ [1] [0] [] [0] [] 1 ![1, D])
    (A : FVec Ideal ⟨2, ![50000, D]⟩ .f32) (B : IVec S800000 32) (e : Fin 800000) (j : Fin D) :
    Host.gather (Cert.Gcn.rowGatherDims 50000 800000 D wf) (truncf .bf16 A bitsLt_bf16_f32)
        (broadcastInDim S800000x1 ![0] bcast_S800000_S800000x1_0
          (select (cmpi .slt B (broadcastInDim S800000 ![] bcast_S_S800000 (constantI S_ 32 0#32)))
            (addi B (broadcastInDim S800000 ![] bcast_S_S800000 (constantI S_ 32 50000#32))) B)) (ix2 e j)
      = rowsOf (arr2 A) (arr1 B) e j := by
  rw [Cert.Gcn.gatherRows_apply (by decide)]
  rw [broadcastInDim_apply _ _ _ _ (ix1 e) (by intro a; obtain rfl : a = 0 := Subsingleton.elim _ _; rfl)]
  rw [normalise_apply]
  rfl

theorem V2_v11 (c : Dev nD) : V2 m outs c main_v11 = outs 2 main_v11 c := Function.update_self _ _ _
theorem V4_v14 (c : Dev nD) : V4 m outs c main_v14 = outs 4 main_v14 c := Function.update_self _ _ _
theorem V6_v26 (c : Dev nD) : V6 m outs c main_v26 = outs 6 main_v26 c := Function.update_self _ _ _
theorem V8_v29 (c : Dev nD) : V8 m outs c main_v29 = outs 8 main_v29 c := Function.update_self _ _ _
theorem V10_v35 (c : Dev nD) : V10 m outs c main_v35 = outs 10 main_v35 c := Function.update_self _ _ _
theorem V12_v44 (c : Dev nD) : V12 m outs c main_v44 = outs 12 main_v44 c := Function.update_self _ _ _
theorem V14_v50 (c : Dev nD) : V14 m outs c main_v50 = outs 14 main_v50 c := Function.update_self _ _ _
theorem V16_v59 (c : Dev nD) : V16 m outs c main_v59 = outs 16 main_v59 c := Function.update_self _ _ _

-- A reference that neither the host stretches nor the regions so far write holds its launch contents.
theorem V2_launch (c : Dev nD) (r : Ref sig .tc) (h1 : r ∉ hostOps0_W := by decide)
    (h2 : r ∉ ([main_v11] : List (Ref sig .tc)) := by decide) : V2 m outs c r = m (c, r) :=
  (V2_of m outs c r h2).trans (V1_of m c r h1)
theorem V4_launch (c : Dev nD) (r : Ref sig .tc) (p : V2 m outs c r = m (c, r) := by exact V2_launch _ _ _ _)
    (h1 : r ∉ hostOps1_W := by decide) (h2 : r ∉ ([main_v14] : List (Ref sig .tc)) := by decide) :
    V4 m outs c r = m (c, r) :=
  (V4_of m outs c r h2).trans ((V3_of m outs c r h1).trans p)
theorem V6_launch (c : Dev nD) (r : Ref sig .tc) (p : V4 m outs c r = m (c, r) := by exact V4_launch _ _ _ _)
    (h1 : r ∉ hostOps2_W := by decide) (h2 : r ∉ ([main_v26] : List (Ref sig .tc)) := by decide) :
    V6 m outs c r = m (c, r) :=
  (V6_of m outs c r h2).trans ((V5_of m outs c r h1).trans p)
theorem V8_launch (c : Dev nD) (r : Ref sig .tc) (p : V6 m outs c r = m (c, r) := by exact V6_launch _ _ _ _)
    (h1 : r ∉ hostOps3_W := by decide) (h2 : r ∉ ([main_v29] : List (Ref sig .tc)) := by decide) :
    V8 m outs c r = m (c, r) :=
  (V8_of m outs c r h2).trans ((V7_of m outs c r h1).trans p)
theorem V10_launch (c : Dev nD) (r : Ref sig .tc) (p : V8 m outs c r = m (c, r) := by exact V8_launch _ _ _ _)
    (h1 : r ∉ hostOps4_W := by decide) (h2 : r ∉ ([main_v35] : List (Ref sig .tc)) := by decide) :
    V10 m outs c r = m (c, r) :=
  (V10_of m outs c r h2).trans ((V9_of m outs c r h1).trans p)
theorem V12_launch (c : Dev nD) (r : Ref sig .tc) (p : V10 m outs c r = m (c, r) := by exact V10_launch _ _ _ _)
    (h1 : r ∉ hostOps5_W := by decide) (h2 : r ∉ ([main_v44] : List (Ref sig .tc)) := by decide) :
    V12 m outs c r = m (c, r) :=
  (V12_of m outs c r h2).trans ((V11_of m outs c r h1).trans p)
theorem V14_launch (c : Dev nD) (r : Ref sig .tc) (p : V12 m outs c r = m (c, r) := by exact V12_launch _ _ _ _)
    (h1 : r ∉ hostOps6_W := by decide) (h2 : r ∉ ([main_v50] : List (Ref sig .tc)) := by decide) :
    V14 m outs c r = m (c, r) :=
  (V14_of m outs c r h2).trans ((V13_of m outs c r h1).trans p)

theorem V1_v1 (c : Dev nD) : (fun e : Fin 800000 => V1 m c main_v1 (ix2 0 e)) = arr1 (m (c, main_arg2)) := by
  funext e
  after_results
  exact row_apply _ _ rfl e

theorem V1_v9 (c : Dev nD) :
    (fun (e : Fin 800000) (j : Fin 1) => V1 m c main_v9 (ix2 e j)) = rowsOf (arr2 (m (c, main_arg0))) (arr1 (m (c, main_arg1))) := by
  funext e j
  after_results
  exact gatherNorm_apply _ _ _ e j

theorem V3_v12 (c : Dev nD) :
    (fun (n : Fin 50000) (k : Fin 1) => V3 m outs c main_v12 (ix2 n k)) = arr2 (outs 2 main_v11 c) := by
  funext n k
  after_results
  exact congrFun (V2_v11 m outs c) (ix2 n k)

theorem V3_v13 (c : Dev nD) :
    (fun (k : Fin 1) (j : Fin 64) => V3 m outs c main_v13 (ix2 k j)) = arr2 (m (c, main_arg3)) := by
  funext k j
  after_results
  exact congrFun (V2_launch m outs c main_arg3) (ix2 k j)

theorem V3_v0 (c : Dev nD) : (fun j : Fin 64 => V3 m outs c main_v0 (ix2 0 j)) = arr1 (m (c, main_arg4)) := by
  funext j
  rw [V3_of m outs c main_v0 (by decide), V2_of m outs c main_v0 (by decide)]
  after_results
  exact row_apply _ _ rfl j

theorem V5_v16 (c : Dev nD) : (fun e : Fin 800000 => V5 m outs c main_v16 (ix2 0 e)) = arr1 (m (c, main_arg2)) := by
  funext e
  after_results
  exact row_apply _ _ (V4_launch m outs c main_arg2) e

theorem V5_v24 (c : Dev nD) :
    (fun (e : Fin 800000) (j : Fin 64) => V5 m outs c main_v24 (ix2 e j))
      = rowsOf (arr2 (outs 4 main_v14 c)) (arr1 (m (c, main_arg1))) := by
  funext e j
  after_results
  rw [V4_v14 m outs c, V4_launch m outs c main_arg1]
  exact gatherNorm_apply _ _ _ e j

theorem V7_v27 (c : Dev nD) :
    (fun (n : Fin 50000) (k : Fin 64) => V7 m outs c main_v27 (ix2 n k)) = arr2 (outs 6 main_v26 c) := by
  funext n k
  after_results
  exact congrFun (V6_v26 m outs c) (ix2 n k)

theorem V7_v28 (c : Dev nD) :
    (fun (k : Fin 64) (j : Fin 128) => V7 m outs c main_v28 (ix2 k j)) = arr2 (m (c, main_arg5)) := by
  funext k j
  after_results
  exact congrFun (V6_launch m outs c main_arg5) (ix2 k j)

theorem V7_v15 (c : Dev nD) : (fun j : Fin 128 => V7 m outs c main_v15 (ix2 0 j)) = arr1 (m (c, main_arg6)) := by
  funext j
  rw [V7_of m outs c main_v15 (by decide), V6_of m outs c main_v15 (by decide)]
  after_results
  exact row_apply _ _ (V4_launch m outs c main_arg6) j

theorem V9_v32 (c : Dev nD) :
    (fun (n : Fin 50000) (k : Fin 128) => V9 m outs c main_v32 (ix2 n k)) = arr2 (outs 8 main_v29 c) := by
  funext n k
  after_results
  exact congrFun (V8_v29 m outs c) (ix2 n k)

theorem V9_v33 (c : Dev nD) :
    (fun (k : Fin 128) (j : Fin 64) => V9 m outs c main_v33 (ix2 k j)) = arr2 (m (c, main_arg7)) := by
  funext k j
  after_results
  exact congrFun (V8_launch m outs c main_arg7) (ix2 k j)

theorem V11_v43 (c : Dev nD) :
    (fun (e : Fin 800000) (j : Fin 64) => V11 m outs c main_v43 (ix2 e j))
      = rowsOf (arr2 (outs 10 main_v35 c)) (arr1 (m (c, main_arg1))) := by
  funext e j
  after_results
  rw [V10_v35 m outs c, V10_launch m outs c main_arg1]
  exact gatherNorm_apply _ _ _ e j

theorem V11_v31 (c : Dev nD) : (fun e : Fin 800000 => V11 m outs c main_v31 (ix2 0 e)) = arr1 (m (c, main_arg2)) := by
  funext e
  rw [V11_of m outs c main_v31 (by decide), V10_of m outs c main_v31 (by decide)]
  after_results
  exact row_apply _ _ (V8_launch m outs c main_arg2) e

theorem V11_v30 (c : Dev nD) : (fun j : Fin 64 => V11 m outs c main_v30 (ix2 0 j)) = arr1 (m (c, main_arg8)) := by
  funext j
  rw [V11_of m outs c main_v30 (by decide), V10_of m outs c main_v30 (by decide)]
  after_results
  exact row_apply _ _ (V8_launch m outs c main_arg8) j

theorem V13_v47 (c : Dev nD) :
    (fun (n : Fin 50000) (k : Fin 64) => V13 m outs c main_v47 (ix2 n k)) = arr2 (outs 12 main_v44 c) := by
  funext n k
  after_results
  exact congrFun (V12_v44 m outs c) (ix2 n k)

theorem V13_v48 (c : Dev nD) :
    (fun (k : Fin 64) (j : Fin 1) => V13 m outs c main_v48 (ix2 k j)) = arr2 (m (c, main_arg9)) := by
  funext k j
  after_results
  exact congrFun (V12_launch m outs c main_arg9) (ix2 k j)

theorem V15_v58 (c : Dev nD) :
    (fun (e : Fin 800000) (j : Fin 1) => V15 m outs c main_v58 (ix2 e j))
      = rowsOf (arr2 (outs 14 main_v50 c)) (arr1 (m (c, main_arg1))) := by
  funext e j
  after_results
  rw [V14_v50 m outs c, V14_launch m outs c main_arg1]
  exact gatherNorm_apply _ _ _ e j

theorem V15_v46 (c : Dev nD) : (fun e : Fin 800000 => V15 m outs c main_v46 (ix2 0 e)) = arr1 (m (c, main_arg2)) := by
  funext e
  rw [V15_of m outs c main_v46 (by decide), V14_of m outs c main_v46 (by decide)]
  after_results
  exact row_apply _ _ (V12_launch m outs c main_arg2) e

theorem V15_v45 (c : Dev nD) : (fun j : Fin 1 => V15 m outs c main_v45 (ix2 0 j)) = arr1 (m (c, main_arg10)) := by
  funext j
  rw [V15_of m outs c main_v45 (by decide), V14_of m outs c main_v45 (by decide)]
  after_results
  exact row_apply _ _ (V12_launch m outs c main_arg10) j

-- The one-element slice at node `1`, column `0`, recast as a one-axis array.
theorem V17_v61 (c : Dev nD) (i : S1.Idx) :
    V17 m outs c main_v61 i = arr2 (outs 16 main_v59 c) (⟨1, by decide⟩ : Fin 50000) (0 : Fin 1) := by
  after_results
  rw [Cert.Gcn.idx_one i]
  exact (shapeCast_1a_a_apply _ _ 0).trans
    ((slice2_axis0_apply 1 _ _ 0 0 ⟨1, by decide⟩ rfl).trans (congrFun (V16_v59 m outs c) _))

end Cert.KernelIdeal.Hand

end
-- ==== Proof.Algebra.lean ====
/- The running sum of 125 edge tiles of selector-weighted rows is the sum over the selected edges; a node id as a 32-bit word. -/
import Mathlib.Data.EReal.Basic
import Mathlib.Data.Fintype.BigOperators
import Mathlib.Algebra.BigOperators.Fin
import Mathlib.Logic.Equiv.Fin.Basic

namespace Cert.Gnn

open Finset

def blk (q : Fin 125) (k : Fin 6400) : Fin 800000 :=
  ⟨q.val * 6400 + k.val, by have := q.isLt; have := k.isLt; omega⟩

@[simp] theorem blk_val (q : Fin 125) (k : Fin 6400) : (blk q k).val = q.val * 6400 + k.val := rfl

-- `0 * x = 0` and `1 * x = x` at every extended real, the infinities included.
theorem onehot_sum {ι : Type*} [Fintype ι] (p : ι → Prop) [DecidablePred p] (f : ι → EReal) :
    ∑ e, (if p e then (1 : EReal) else 0) * f e = ∑ e ∈ univ.filter p, f e := by
  rw [Finset.sum_filter]
  exact Finset.sum_congr rfl fun e _ => by rw [ite_mul, one_mul, zero_mul]

-- (tile, position) pairs are the edges: quotient and remainder by 6400.
theorem blocked_sum (g : Fin 800000 → EReal) :
    ∑ q : Fin 125, ∑ k : Fin 6400, g (blk q k) = ∑ e, g e := by
  rw [← Fintype.sum_prod_type' (fun q k => g (blk q k))]
  exact Fintype.sum_equiv (finProdFinEquiv (m := 125) (n := 6400)) _ _ fun ⟨q, k⟩ => congrArg g (Fin.ext (by
    show q.val * 6400 + k.val = k.val + 6400 * q.val
    omega))

noncomputable def acc (T : ℕ → EReal) : ℕ → EReal
  | 0 => 0 + T 0
  | q + 1 => acc T q + T (q + 1)

@[simp] theorem acc_zero (T : ℕ → EReal) : acc T 0 = 0 + T 0 := rfl

@[simp] theorem acc_succ (T : ℕ → EReal) (q : ℕ) : acc T (q + 1) = acc T q + T (q + 1) := rfl

theorem acc_eq_sum (T : ℕ → EReal) (q : ℕ) : acc T q = ∑ i ∈ range (q + 1), T i := by
  induction q with
  | zero => simp
  | succ q ih => rw [acc_succ, ih, Finset.sum_range_succ _ (q + 1)]

theorem acc_blocked (T : ℕ → EReal) (f : Fin 800000 → EReal) (p : Fin 800000 → Prop) [DecidablePred p]
    (hT : ∀ q : Fin 125, T q.val = ∑ k : Fin 6400, (if p (blk q k) then (1 : EReal) else 0) * f (blk q k)) :
    acc T 124 = ∑ e ∈ univ.filter p, f e := by
  rw [acc_eq_sum, Finset.sum_range, ← onehot_sum p f, ← blocked_sum]
  exact Fintype.sum_congr _ _ hT

theorem ofNat_eq_iff_toInt {n : ℕ} (hn : n < 2 ^ 31) (w : BitVec 32) :
    BitVec.ofNat 32 n = w ↔ w.toInt = (n : ℤ) := by
  have h : (BitVec.ofNat 32 n).toInt = (n : ℤ) := by
    have hm : (BitVec.ofNat 32 n).toNat = n := by
      rw [BitVec.toNat_ofNat]
      omega
    rw [BitVec.toInt_eq_toNat_of_lt (by rw [hm]; omega), hm]
  exact ⟨by rintro rfl; exact h, fun hw => BitVec.eq_of_toInt_eq (by rw [h, hw])⟩

theorem word_eq_iff {n0 r : ℕ} (hn0 : n0 < 50) (hr : r < 1000) (w : BitVec 32) :
    BitVec.ofNat 32 n0 * 1000#32 + BitVec.ofNat 32 r = w ↔ w.toInt = ((n0 * 1000 + r : ℕ) : ℤ) := by
  rw [show BitVec.ofNat 32 n0 * 1000#32 + BitVec.ofNat 32 r = BitVec.ofNat 32 (n0 * 1000 + r) by
    rw [BitVec.ofNat_add, BitVec.ofNat_mul]]
  exact ofNat_eq_iff_toInt (by omega) w

end Cert.Gnn
-- ==== Proof.KI.Val0.lean ====
/- What region 0's output array holds after the region, index by index, at the extended reals: at node `n` and column `j` the sum of the features of the edges whose destination word, read signed, is `n`. -/
import proofs.«406692_j3745211482886_1_alg».proof.Proof.KI.R0
import proofs.«406692_j3745211482886_1_alg».proof.Proof.Spec
import proofs.«406692_j3745211482886_1_alg».proof.Proof.Algebra
import Idealize.ShloMosaic.PureOps.Ideal
import Idealize.ShloMosaic.PureOps.IdealRules
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem onehot_word0 (a b : BitVec 32) :
    (FloatOps.sitofp (F := Ideal) .f32 ((IntOp.cmpi .eq a b).setWidth 32) : EReal) = if a = b then 1 else 0 := by
  by_cases h : a = b
  · rw [if_pos h]; subst h
    show ((((IntOp.cmpi .eq a a).setWidth 32).toInt : ℝ) : EReal) = 1
    have : ((IntOp.cmpi .eq a a).setWidth 32) = 1#32 := by simp [IntOp.cmpi]
    rw [this]; norm_num
  · rw [if_neg h]
    show ((((IntOp.cmpi .eq a b).setWidth 32).toInt : ℝ) : EReal) = 0
    have hb : (a == b) = false := by simpa using h
    have : ((IntOp.cmpi .eq a b).setWidth 32) = 0#32 := by simp [IntOp.cmpi, hb]
    rw [this]; norm_num

theorem dot0_lhs_0 (j : S1000x1.Idx) (k : dot_S1000x6400_S6400x1_S1000x1_1_0_0_1_n_n.contr.Idx) : (dot_S1000x6400_S6400x1_S1000x1_1_0_0_1_n_n.lhsIdx j k 0 : ℕ) = j 0 := by
  simp [DotDims.lhsIdx, dot_S1000x6400_S6400x1_S1000x1_1_0_0_1_n_n]; rfl
theorem dot0_lhs_1 (j : S1000x1.Idx) (k : dot_S1000x6400_S6400x1_S1000x1_1_0_0_1_n_n.contr.Idx) : (dot_S1000x6400_S6400x1_S1000x1_1_0_0_1_n_n.lhsIdx j k 1 : ℕ) = k ⟨0, by decide⟩ := by
  simp [DotDims.lhsIdx, dot_S1000x6400_S6400x1_S1000x1_1_0_0_1_n_n]; rfl
theorem dot0_rhs_0 (j : S1000x1.Idx) (k : dot_S1000x6400_S6400x1_S1000x1_1_0_0_1_n_n.contr.Idx) : (dot_S1000x6400_S6400x1_S1000x1_1_0_0_1_n_n.rhsIdx j k 0 : ℕ) = k ⟨0, by decide⟩ := by
  simp [DotDims.rhsIdx, dot_S1000x6400_S6400x1_S1000x1_1_0_0_1_n_n]; rfl
theorem dot0_rhs_1 (j : S1000x1.Idx) (k : dot_S1000x6400_S6400x1_S1000x1_1_0_0_1_n_n.contr.Idx) : (dot_S1000x6400_S6400x1_S1000x1_1_0_0_1_n_n.rhsIdx j k 1 : ℕ) = j 1 := by
  simp [DotDims.rhsIdx, dot_S1000x6400_S6400x1_S1000x1_1_0_0_1_n_n]
  first | rfl | (have h : (j 1 : ℕ) < 1 := (j 1).isLt; omega)

theorem k0_pay1_apply (y : S1000x1.Idx) : (k0_pay1 (F := Ideal) : S1000x1.Idx → EReal) y = 0 := by
  unfold k0_pay1
  simp only [shapeCast_self]
  show Ideal.ofBits .f32 0x00000000#32 = 0
  exact Ideal.ofBits_zero_f32

theorem k0_pay2_apply (i : grid0.Coords) (x0 : Vec Ideal S1x6400 .i32) (acc : Vec Ideal S1000x1 .f32) (x1 : Vec Ideal S6400x1 .bf16)
    (y : S1000x1.Idx) :
    (k0_pay2 i x0 acc x1 : S1000x1.Idx → EReal) y
      = acc y + ∑ k : Fin 6400, (if BitVec.ofNat 32 (i 0).val * 1000#32 + BitVec.ofNat 32 (y 0).val = x0 (ix2 0 k) then (1 : EReal) else 0)
          * x1 (ix2 k (y 1)) := by
  unfold k0_pay2
  simp only [shapeCast_self, matmul]
  rw [addf_apply, Ideal.matmul_constant_zero_apply]
  congr 1
  rw [← Equiv.sum_comp (contrEquiv1 dot_S1000x6400_S6400x1_S1000x1_1_0_0_1_n_n 6400 rfl rfl).symm]
  refine Finset.sum_congr rfl fun k _ => ?_
  congr 1
  · show FloatOps.sitofp (F := Ideal) .f32 ((IntOp.cmpi .eq (IntOp.addi (Scalar.muli (BitVec.ofNat 32 (i 0).val) 1000#32) (iota Kind.tc S1000x6400 32 [0] iota_S1000x6400_d0_w32 _)) (broadcastTo S1000x6400 x0 broadcasts_S1x6400_S1000x6400 _)).setWidth 32) = _
    rw [onehot_word0, iota_single_apply, dot0_lhs_0]
    rw [broadcastTo_apply x0 broadcasts_S1x6400_S1000x6400 _ (ix2 0 k) (fun a => by
      match a with
      | ⟨0, _⟩ => rfl
      | ⟨1, _⟩ =>
        show (k : ℕ) = (dot_S1000x6400_S6400x1_S1000x1_1_0_0_1_n_n.lhsIdx y ((contrEquiv1 dot_S1000x6400_S6400x1_S1000x1_1_0_0_1_n_n 6400 rfl rfl).symm k) 1 : ℕ)
        rw [dot0_lhs_1]
        exact (contrEquiv1_symm_val dot_S1000x6400_S6400x1_S1000x1_1_0_0_1_n_n 6400 rfl rfl k).symm)]
    rfl
  · congr 1
    apply Shape.idx_ext₂
    · rw [dot0_rhs_0]
      exact contrEquiv1_symm_val dot_S1000x6400_S6400x1_S1000x1_1_0_0_1_n_n 6400 rfl rfl k
    · exact dot0_rhs_1 y _

section Cases
variable {F : FTy → Type} [FloatOps F] (c : Dev nD) (i : grid0.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole)
  (x0 : Vec F S1x6400 .i32) (x1 : Vec F S6400x1 .bf16) (x2 : Vec F S1x1 .f32) (xs0 : Vec F S1000x1 .f32)

theorem hz0 : (![0, 0] : Fin 2 → Nat) = fun _ => 0 := funext fun a => by fin_cases a <;> rfl

-- The first edge tile of a node tile: the accumulator is zeroed, then the tile's product is added.
theorem canon0_A (hc0 : cond0_0 i) (hc1 : ¬cond0_1 i) :
    View.canon (kernelRun0_A c i arg2 harg2 arg3 harg3 arg4 harg4 arg5 harg5 arg6 harg6 hc0 hc1 x0 x1 x2).2.1 = k0_pay2 i x0 (k0_pay1 (F := F)) x1 := by
  unfold kernelRun0_A
  dsimp only
  try sl_unfold_words
  rw [View.canon_cons_unit_zero hz0]
  try rw [View.readCov_unit_zero (S := S1000x1) _ hz0]
  simp only [View.readAt_eq_ld, harg2.read_unread, harg3.read_unread, View.ld_unit_zero (S := S1x6400) hz0, View.ld_unit_zero (S := S6400x1) hz0, View.ld_unit_zero (S := S1000x1) hz0]

-- An inner edge tile: the tile's product is added onto what the accumulator held.
theorem canon0_B (hc0 : ¬cond0_0 i) (hc1 : ¬cond0_1 i) :
    View.canon (kernelRun0_B c i arg2 harg2 arg3 harg3 arg4 harg4 arg5 harg5 arg6 harg6 hc0 hc1 x0 x1 x2 xs0).2.1 = k0_pay2 i x0 xs0 x1 := by
  unfold kernelRun0_B
  dsimp only
  try sl_unfold_words
  rw [View.canon_cons_unit_zero hz0]
  try rw [View.readCov_unit_zero (S := S1000x1) _ hz0]
  simp only [View.readAt_eq_ld, harg2.read_unread, harg3.read_unread, harg6.read_unread, View.ld_unit_zero (S := S1x6400) hz0, View.ld_unit_zero (S := S6400x1) hz0, View.ld_unit_zero (S := S1000x1) hz0]

-- The last edge tile: the same, in the accumulator and copied into the output block.
theorem canon0_C (hc0 : ¬cond0_0 i) (hc1 : cond0_1 i) :
    View.canon (kernelRun0_C c i arg2 harg2 arg3 harg3 arg4 harg4 arg5 harg5 arg6 harg6 hc0 hc1 x0 x1 x2 xs0).1 = k0_pay2 i x0 xs0 x1
      ∧ View.canon (kernelRun0_C c i arg2 harg2 arg3 harg3 arg4 harg4 arg5 harg5 arg6 harg6 hc0 hc1 x0 x1 x2 xs0).2.1 = k0_pay2 i x0 xs0 x1 := by
  constructor <;>
  (
    unfold kernelRun0_C
    dsimp only
    try sl_unfold_words
    rw [View.canon_cons_unit_zero hz0]
    try rw [View.readCov_unit_zero (S := S1000x1) _ hz0]
    simp only [View.readAt_eq_ld, harg2.read_unread, harg3.read_unread, harg6.read_unread, View.ld_unit_zero (S := S1x6400) hz0, View.ld_unit_zero (S := S6400x1) hz0, View.ld_unit_zero (S := S1000x1) hz0])

end Cases

theorem coords0 : ∀ t : Fin cfg0.N, (grid0.coords t 0).val = t.val / 125 ∧ (grid0.coords t 1).val = t.val % 125 :=
  (by decide +kernel : ∀ t : Fin grid0.N, (grid0.coords t 0).val = t.val / 125 ∧ (grid0.coords t 1).val = t.val % 125)
theorem index0_0 : ∀ t : Fin cfg0.N, win0_0.index t 0 = 0 ∧ win0_0.index t 1 = t.val % 125 :=
  (by decide +kernel : ∀ t : Fin grid0.N, win0_0.index t 0 = 0 ∧ win0_0.index t 1 = t.val % 125)
theorem index0_1 : ∀ t : Fin cfg0.N, win0_1.index t 0 = t.val % 125 ∧ win0_1.index t 1 = 0 :=
  (by decide +kernel : ∀ t : Fin grid0.N, win0_1.index t 0 = t.val % 125 ∧ win0_1.index t 1 = 0)
theorem index0_3 : ∀ t : Fin cfg0.N, win0_3.index t 0 = t.val / 125 ∧ win0_3.index t 1 = 0 :=
  (by decide +kernel : ∀ t : Fin grid0.N, win0_3.index t 0 = t.val / 125 ∧ win0_3.index t 1 = 0)

section Blocks
variable {F : FTy → Type} [FloatOps F]
variable (V : (c : Dev nD) → (b : Ref sig .tc) → Buf (Elt F) ((c : Thread nD τ).loc b))

theorem iblk0_0_apply (c : Dev nD) (t : Fin cfg0.N) (x : S1x6400.Idx) (k : S1x800000.Idx)
    (hk0 : (k 0).val = (x 0).val) (hk1 : (k 1).val = (t.val % 125) * 6400 + (x 1).val) :
    (iblk0 V c 0 t : Vec F S1x6400 .i32) x = (V c main_v1 : S1x800000.Idx → Elt F .i32) k := by
  have hi := index0_0 t
  unfold iblk0
  rw [View.read_apply]
  show V c main_v1 _ = V c main_v1 _
  congr 1
  funext a
  apply Fin.ext
  match a with
  | ⟨0, _⟩ => show win0_0.index t 0 * S1x6400.size 0 + 1 * (x 0).val = (k 0).val; rw [hi.1, hk0, Nat.zero_mul, Nat.one_mul, Nat.zero_add]
  | ⟨1, _⟩ => show win0_0.index t 1 * 6400 + 1 * (x 1).val = (k 1).val; rw [hi.2, hk1]; omega

theorem iblk0_1_apply (c : Dev nD) (t : Fin cfg0.N) (x : S6400x1.Idx) (k : S800000x1.Idx)
    (hk0 : (k 0).val = (t.val % 125) * 6400 + (x 0).val) (hk1 : (k 1).val = (x 1).val) :
    (iblk0 V c 1 t : Vec F S6400x1 .bf16) x = (V c main_v9 : S800000x1.Idx → Elt F .bf16) k := by
  have hi := index0_1 t
  unfold iblk0
  rw [View.read_apply]
  show V c main_v9 _ = V c main_v9 _
  congr 1
  funext a
  apply Fin.ext
  match a with
  | ⟨0, _⟩ => show win0_1.index t 0 * 6400 + 1 * (x 0).val = (k 0).val; rw [hi.1, hk0]; omega
  | ⟨1, _⟩ => show win0_1.index t 1 * S6400x1.size 1 + 1 * (x 1).val = (k 1).val; rw [hi.2, hk1, Nat.zero_mul, Nat.one_mul, Nat.zero_add]

-- The cases' payloads at point `t`: its input blocks in the stored pieces' closed form.
theorem runA0_snd (c : Dev nD) (t : Fin cfg0.N) (h0 : t.val % 125 = 0) (h1 : ¬t.val % 125 = 124) :
    View.canon (runA0 V c t h0 h1).2.1 = k0_pay2 (grid0.coords t) (iblk0 V c 0 t) (k0_pay1 (F := F)) (iblk0 V c 1 t) := by
  unfold runA0; exact canon0_A ..
theorem runB0_snd (c : Dev nD) (t : Fin cfg0.N) (h0 : ¬t.val % 125 = 0) (h1 : ¬t.val % 125 = 124) (xs0 : Vec F S1000x1 .f32) :
    View.canon (runB0 V c t h0 h1 xs0).2.1 = k0_pay2 (grid0.coords t) (iblk0 V c 0 t) xs0 (iblk0 V c 1 t) := by
  unfold runB0; exact canon0_B ..
theorem runC0_both (c : Dev nD) (t : Fin cfg0.N) (h0 : ¬t.val % 125 = 0) (h1 : t.val % 125 = 124) (xs0 : Vec F S1000x1 .f32) :
    View.canon (runC0 V c t h0 h1 xs0).1 = k0_pay2 (grid0.coords t) (iblk0 V c 0 t) xs0 (iblk0 V c 1 t)
      ∧ View.canon (runC0 V c t h0 h1 xs0).2.1 = k0_pay2 (grid0.coords t) (iblk0 V c 0 t) xs0 (iblk0 V c 1 t) := by
  unfold runC0; exact canon0_C ..

-- What point `t` leaves in the accumulator, whatever its case: the edge tile's product added onto zero at the first edge tile of a node tile, onto what the accumulator held at the others;
theorem pt0_snd (c : Dev nD) (t : Fin cfg0.N) (xs0 : Vec F S1000x1 .f32) :
    (pt0 V c t xs0).2 = k0_pay2 (grid0.coords t) (iblk0 V c 0 t) (if t.val % 125 = 0 then k0_pay1 (F := F) else xs0) (iblk0 V c 1 t) := by
  by_cases h0 : t.val % 125 = 0
  · have h1 : ¬t.val % 125 = 124 := by omega
    rw [pt0_A V c t h0 h1, if_pos h0]; dsimp only; exact runA0_snd V c t h0 h1
  · rw [if_neg h0]
    by_cases h1 : t.val % 125 = 124
    · rw [pt0_C V c t h0 h1]; dsimp only; exact (runC0_both V c t h0 h1 xs0).2
    · rw [pt0_B V c t h0 h1]; dsimp only; exact runB0_snd V c t h0 h1 xs0

-- and at the last edge tile the output block is left at the same.
theorem pt0_fst (c : Dev nD) (t : Fin cfg0.N) (h1 : t.val % 125 = 124) (xs0 : Vec F S1000x1 .f32) :
    (pt0 V c t xs0).1 = (pt0 V c t xs0).2 := by
  have h0 : ¬t.val % 125 = 0 := by omega
  rw [pt0_C V c t h0 h1]; dsimp only; exact (runC0_both V c t h0 h1 xs0).1.trans (runC0_both V c t h0 h1 xs0).2.symm

end Blocks

section Value
variable (V : (c : Dev nD) → (b : Ref sig .tc) → Buf (Elt Ideal) ((c : Thread nD τ).loc b))

abbrev feat0 (c : Dev nD) : Fin 800000 → Fin 1 → EReal := fun e j => V c main_v9 (ix2 e j)
abbrev dst0 (c : Dev nD) : Fin 800000 → BitVec 32 := fun e => V c main_v1 (ix2 0 e)

def tile0 (c : Dev nD) (n0 : ℕ) (y : S1000x1.Idx) (q : ℕ) : EReal :=
  if hq : q < 125 then
    ∑ k : Fin 6400, (if BitVec.ofNat 32 n0 * 1000#32 + BitVec.ofNat 32 (y 0).val = dst0 V c (Cert.Gnn.blk ⟨q, hq⟩ k) then (1 : EReal) else 0)
      * feat0 V c (Cert.Gnn.blk ⟨q, hq⟩ k) (y 1)
  else 0

theorem step0 (c : Dev nD) (t : Fin cfg0.N) (n0 q : ℕ) (hq : q < 125) (ht : t.val = n0 * 125 + q)
    (acc : Vec Ideal S1000x1 .f32) (y : S1000x1.Idx) :
    (k0_pay2 (grid0.coords t) (iblk0 V c 0 t) acc (iblk0 V c 1 t) : S1000x1.Idx → EReal) y = acc y + tile0 V c n0 y q := by
  rw [k0_pay2_apply]
  congr 1
  unfold tile0; rw [dif_pos hq]
  refine Finset.sum_congr rfl fun k _ => ?_
  have hc := coords0 t
  have h0 : (grid0.coords t 0).val = n0 := by rw [hc.1, ht]; omega
  have hm : t.val % 125 = q := by rw [ht]; omega
  rw [h0, iblk0_0_apply V c t (ix2 0 k) (ix2 0 (Cert.Gnn.blk ⟨q, hq⟩ k)) rfl (by rw [hm]; rfl),
    iblk0_1_apply V c t (ix2 k (y 1)) (ix2 (Cert.Gnn.blk ⟨q, hq⟩ k) (y 1)) (by rw [hm]; rfl) rfl]

-- One point's accumulation at an index: onto zero at the first edge tile of a node tile, onto what the accumulator held at the others.
theorem acc0_step (c : Dev nD) (n0 q : ℕ) (hq : q < 125) (hn0 : n0 < 50) (y : S1000x1.Idx) :
    (accAt0 V c (n0 * 125 + q + 1) : S1000x1.Idx → EReal) y = (if q = 0 then 0 else accAt0 V c (n0 * 125 + q) y) + tile0 V c n0 y q := by
  have hN : cfg0.N = 6250 := N_0
  have h : n0 * 125 + q < cfg0.N := by omega
  rw [accAt0_succ V c ⟨n0 * 125 + q, h⟩, pt0_snd, step0 V c ⟨n0 * 125 + q, h⟩ n0 q hq rfl]
  congr 1
  by_cases hz : q = 0
  · rw [if_pos hz, if_pos (show (n0 * 125 + q) % 125 = 0 by omega), k0_pay1_apply]
  · rw [if_neg hz, if_neg (show ¬(n0 * 125 + q) % 125 = 0 by omega)]

-- THE FOLD. After edge tile `q` of node tile `n0` the accumulator holds the running sum of the tiles' contributions from tile 0 on, started from zero.
theorem scratch0_fold (c : Dev nD) (n0 : ℕ) (hn0 : n0 < 50) (y : S1000x1.Idx) :
    ∀ (q : ℕ), q < 125 → (accAt0 V c (n0 * 125 + q + 1) : S1000x1.Idx → EReal) y = Cert.Gnn.acc (tile0 V c n0 y) q
  | 0, hq => by rw [acc0_step V c n0 0 hq hn0 y, if_pos rfl, Cert.Gnn.acc_zero]
  | q + 1, hq => by
    have ih : accAt0 V c (n0 * 125 + (q + 1)) y = _ := scratch0_fold c n0 hn0 y q (by omega)
    rw [acc0_step V c n0 (q + 1) hq hn0 y, if_neg (Nat.succ_ne_zero q), ih, Cert.Gnn.acc_succ]

-- What the last edge tile of its node tile copies into the output block: at row `y 0`, column `y 1`, the sum of the features of the edges whose destination word read signed is the node.
theorem out0_last (c : Dev nD) (t : Fin cfg0.N) (h1 : t.val % 125 = 124) (y : S1000x1.Idx) :
    ((pt0 V c t (accAt0 V c t.val)).1 : S1000x1.Idx → EReal) y
      = Cert.Gnn.segsum (feat0 V c) (dst0 V c) ⟨t.val / 125 * 1000 + (y 0).val, by have hy := (y 0).isLt; have ht := t.isLt; have hN : cfg0.N = 6250 := N_0; change (y 0).val < 1000 at hy; show _ < 50000; omega⟩ (y 1) := by
  have ht := t.isLt
  have hN : cfg0.N = 6250 := N_0
  have hn0 : t.val / 125 < 50 := by omega
  have e : t.val / 125 * 125 + 124 = t.val := by omega
  rw [pt0_fst V c t h1, ← accAt0_succ V c t, show accAt0 V c (t.val + 1) = accAt0 V c (t.val / 125 * 125 + 124 + 1) from by rw [e],
    scratch0_fold V c (t.val / 125) hn0 y 124 (by omega)]
  rw [Cert.Gnn.acc_blocked (tile0 V c (t.val / 125) y) (fun e => feat0 V c e (y 1))
    (fun e => BitVec.ofNat 32 (t.val / 125) * 1000#32 + BitVec.ofNat 32 (y 0).val = dst0 V c e)
    (fun q => by unfold tile0; rw [dif_pos q.isLt])]
  unfold Cert.Gnn.segsum
  refine Finset.sum_congr (Finset.filter_congr fun e _ => ?_) (fun _ _ => rfl)
  exact Cert.Gnn.word_eq_iff hn0 (y 0).isLt _

end Value

section Result
variable (V : (c : Dev nD) → (b : Ref sig .tc) → Buf (Elt Ideal) ((c : Thread nD τ).loc b))

def G0 (c : Dev nD) : S50000x1.Idx → EReal :=
  fun i => Cert.Gnn.segsum (feat0 V c) (dst0 V c) (i 0) (i 1)

theorem G0_apply (c : Dev nD) (i : S50000x1.Idx) :
    G0 V c i = Cert.Gnn.segsum (feat0 V c) (dst0 V c) (i 0) (i 1) := rfl

theorem cut0_3_apply (t : Fin cfg0.N) (X : S1000x1.Idx → EReal) (y : S1000x1.Idx) :
    (cfg0.win 3).cut (grid0.coords t) X y = X y := rfl

theorem read0_3_apply (t : Fin cfg0.N) (G : S50000x1.Idx → EReal) (y : S1000x1.Idx) :
    ((cfg0.win 3).blk t).view.read (Elt Ideal) G y = G (((cfg0.win 3).blk t).view.emb y) := by
  rw [View.read_apply]; rfl

theorem flushed0_3_of (c : Dev nD) (dat : Dat τ (Elt Ideal) Unit ℕ (Pipeline.UD sig nD τ) ℕ cfg0 c) (t : Fin cfg0.N)
    (X : Vec Ideal S1000x1 .f32) (hX : dat.after 3 t = X) (G : S50000x1.Idx → EReal)
    (h : ∀ y : S1000x1.Idx, X y = G (((cfg0.win 3).blk t).view.emb y)) :
    dat.flushed 3 t = ((cfg0.win 3).blk t).view.read (Elt Ideal) G := by
  funext y
  refine Eq.trans (congrFun (congrArg ((cfg0.win 3).cut (grid0.coords t)) hX) y) ?_
  refine Eq.trans (cut0_3_apply t X y) ?_
  refine Eq.trans ?_ (read0_3_apply t G y).symm
  exact h y

-- What every point that writes the output block back writes is its block of the one whole-array contents `G0`.
theorem hG0 (c : Dev nD) (t : Fin cfg0.N) (hf : (cfg0.win 3).flush t = true) :
    (dat0 V c).flushed 3 t = ((cfg0.win 3).blk t).view.read (Elt Ideal) (G0 V c) := by
  have hi := index0_3 t
  refine flushed0_3_of c (dat0 V c) t _ (after0_3 V c t) (G0 V c) (fun y => ?_)
  rw [out0_last V c t ((flush0_3 t).mp hf) y, G0_apply]
  refine congrArg₂ (Cert.Gnn.segsum (feat0 V c) (dst0 V c)) (Fin.ext ?_) (Fin.ext ?_)
  · show t.val / 125 * 1000 + (y 0).val = win0_3.index t 0 * 1000 + 1 * (y 0).val
    rw [hi.1, Nat.one_mul]
  · show (y 1).val = win0_3.index t 1 * S1000x1.size 1 + 1 * (y 1).val
    rw [hi.2, Nat.zero_mul, Nat.one_mul, Nat.zero_add]

theorem val0 (c : Dev nD) (n : Fin 50000) (j : Fin 1) :
    ((dat0 (F := Ideal) V c).arrAt 3 cfg0.N : S50000x1.Idx → EReal) (ValueIdx.ix2 n j)
      = Cert.Gnn.segsum (fun e j => V c main_v9 (ValueIdx.ix2 e j)) (fun e => V c main_v1 (ValueIdx.ix2 0 e)) n j := by
  have hn := n.isLt
  have hN : cfg0.N = 6250 := N_0
  let t : Fin cfg0.N := ⟨n.val / 1000 * 125 + 124, by rw [hN]; omega⟩
  have hf : (cfg0.win 3).flush t = true := (flush0_3 t).mpr (by show (n.val / 1000 * 125 + 124) % 125 = 124; omega)
  have hmem : ix2 n j ∈ ((cfg0.win 3).blk t).view.set := by
    show ix2 n j ∈ ((View.whole main_v11).slice (win0_3.rect t)).set
    rw [View.set_slice_whole, Rect.mem_set_unit]
    intro a
    have hi := index0_3 t
    match a with
    | ⟨0, _⟩ =>
      show win0_3.index t 0 * win0_3.size 0 ≤ (n : ℕ) ∧ (n : ℕ) < win0_3.index t 0 * win0_3.size 0 + win0_3.xsize (grid0.coords t) 0
      rw [hi.1]
      show (n.val / 1000 * 125 + 124) / 125 * 1000 ≤ n.val ∧ n.val < (n.val / 1000 * 125 + 124) / 125 * 1000 + 1000
      omega
    | ⟨1, _⟩ =>
      show win0_3.index t 1 * win0_3.size 1 ≤ (j : ℕ) ∧ (j : ℕ) < win0_3.index t 1 * win0_3.size 1 + win0_3.xsize (grid0.coords t) 1
      rw [hi.2, Nat.zero_mul, Nat.zero_add]
      exact ⟨Nat.zero_le _, j.isLt⟩
  refine ((dat0 V c).arrAt_apply_of_mem 3 (G0 V c) (hG0 V c) cfg0.N t (ix2 n j) t.isLt hf hmem).trans ?_
  have h0 : (ix2 n j : S50000x1.Idx) 0 = n := rfl
  have h1 : (ix2 n j : S50000x1.Idx) 1 = j := rfl
  exact (G0_apply V c (ix2 n j)).trans (congrArg₂ (Cert.Gnn.segsum (feat0 V c) (dst0 V c)) h0 h1)

end Result

end Cert.KernelIdeal.Hand

end
-- ==== Proof.KI.Val1.lean ====
/- What region 1's output array holds after the region, index by index, at the extended reals: at row `n` and column `j` the leaky rectifier of (x·w)[n, j] + b[0, j], where x, w and b are the region's operand arrays as it finds them. -/
import proofs.«406692_j3745211482886_1_alg».proof.Proof.KI.R1
import proofs.«406692_j3745211482886_1_alg».proof.Proof.Spec
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

local notation "𝐊" => (1 : ℕ)
local notation "𝐉" => (64 : ℕ)

-- The tile's product into the zero accumulator at (p, q): the operands are read at (p, k) and (k, q), k the contraction's one coordinate.
theorem prod1_apply (x0 : FVec Ideal S1000x1 .bf16) (x1 : FVec Ideal S1x64 .bf16) (p : Fin 1000) (q : Fin 𝐉) :
    matmul dot_S1000x1_S1x64_S1000x64_1_0_0_1_n_n none x0 x1 (constant (F := Ideal) S1000x64 .f32 0x00000000#32) (ix2 p q)
      = ∑ k : Fin 𝐊, x0 (ix2 p k) * x1 (ix2 k q) := by
  simp only [matmul]
  rw [Ideal.matmul_constant_zero_apply, ← Equiv.sum_comp (contrEquiv1 dot_S1000x1_S1x64_S1000x64_1_0_0_1_n_n 𝐊 rfl rfl).symm]
  refine Finset.sum_congr rfl fun k _ => ?_
  have hk := contrEquiv1_symm_val dot_S1000x1_S1x64_S1000x64_1_0_0_1_n_n 𝐊 rfl rfl k
  rw [show dot_S1000x1_S1x64_S1000x64_1_0_0_1_n_n.lhsIdx (ix2 p q) ((contrEquiv1 dot_S1000x1_S1x64_S1000x64_1_0_0_1_n_n 𝐊 rfl rfl).symm k) = ix2 p k from
      Shape.idx_ext₂ rfl ((dot_S1000x1_S1x64_S1000x64_1_0_0_1_n_n.lhsIdx_val_of_single rfl _ _).trans hk),
    show dot_S1000x1_S1x64_S1000x64_1_0_0_1_n_n.rhsIdx (ix2 p q) ((contrEquiv1 dot_S1000x1_S1x64_S1000x64_1_0_0_1_n_n 𝐊 rfl rfl).symm k) = ix2 k q from
      Shape.idx_ext₂ ((dot_S1000x1_S1x64_S1000x64_1_0_0_1_n_n.rhsIdx_val_of_single rfl _ _).trans hk) rfl]

theorem pay1_apply (x0 : Vec Ideal S1000x1 .bf16) (x1 : Vec Ideal S1x64 .bf16) (x2 : Vec Ideal S1x64 .f32) (p : Fin 1000) (q : Fin 𝐉) :
    k1_pay1 x0 x1 x2 (ix2 p q) = Cert.Gnn.lrelu ((∑ k : Fin 𝐊, x0 (ix2 p k) * x1 (ix2 k q)) + x2 (ix2 0 q)) := by
  unfold k1_pay1
  simp only [shapeCast_self]
  rw [select_apply, cmpf_apply, mulf_apply, addf_apply, broadcast_apply, broadcast_apply, prod1_apply, broadcastTo_1b_ab_apply x2 broadcasts_S1x64_S1000x64 p q]
  show Scalar.select (Ideal.cmp .oge _ (Ideal.ofBits .f32 0x00000000#32)) _ (Ideal.ofBits .f32 0x3C23D70A#32 * _) = _
  rw [Ideal.ofBits_zero_f32]
  rfl

def G1 (c : Dev nD) : S50000x64.Idx → EReal := fun i =>
  Cert.Gnn.lrelu (Cert.Gnn.mm (fun n k => V c main_v12 (ix2 n k)) (fun k j => V c main_v13 (ix2 k j)) (i 0) (i 1) + V c main_v0 (ix2 0 (i 1)))

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

def row1 (t : Fin cfg1.N) (p : Fin 1000) : Fin 50000 :=
  ⟨1000 * t.val + p.val, by have ht : t.val < 50 := lt_of_lt_of_eq t.isLt N_1; have hp := p.isLt; omega⟩

-- Each operand block read at an index is its array read at the index's place: row `p` of tile `t` is row `1000 t + p`.
theorem xblk1_apply (c : Dev nD) (t : Fin cfg1.N) (p : Fin 1000) (k : Fin 𝐊) :
    (iblk1 V c 0 t : Vec Ideal S1000x1 .bf16) (ix2 p k) = V c main_v12 (ix2 (row1 t p) k) := by
  obtain ⟨e0, e1, -⟩ := idx1 t
  show V c main_v12 (((cfg1.win 0).blk t).view.emb (ix2 p k)) = V c main_v12 _
  exact congrArg _ (Shape.idx_ext₂ (by show win1_0.index t (0 : Fin 2) * 1000 + 1 * p.val = 1000 * t.val + p.val; omega)
    (by show win1_0.index t (1 : Fin 2) * 𝐊 + 1 * k.val = k.val; omega))
theorem wblk1_apply (c : Dev nD) (t : Fin cfg1.N) (k : Fin 𝐊) (q : Fin 𝐉) :
    (iblk1 V c 1 t : Vec Ideal S1x64 .bf16) (ix2 k q) = V c main_v13 (ix2 k q) := by
  obtain ⟨-, -, e0, e1, -⟩ := idx1 t
  show V c main_v13 (((cfg1.win 1).blk t).view.emb (ix2 k q)) = V c main_v13 _
  exact congrArg _ (Shape.idx_ext₂ (by show win1_1.index t (0 : Fin 2) * 𝐊 + 1 * k.val = k.val; omega)
    (by show win1_1.index t (1 : Fin 2) * 𝐉 + 1 * q.val = q.val; omega))
theorem bblk1_apply (c : Dev nD) (t : Fin cfg1.N) (q : Fin 𝐉) :
    (iblk1 V c 2 t : Vec Ideal S1x64 .f32) (ix2 0 q) = V c main_v0 (ix2 0 q) := by
  obtain ⟨-, -, -, -, e0, e1, -⟩ := idx1 t
  show V c main_v0 (((cfg1.win 2).blk t).view.emb (ix2 0 q)) = V c main_v0 _
  exact congrArg _ (Shape.idx_ext₂ (by show win1_2.index t (0 : Fin 2) * 1 + 1 * 0 = 0; omega)
    (by show win1_2.index t (1 : Fin 2) * 𝐉 + 1 * q.val = q.val; omega))

theorem hz1 : (![0, 0] : Fin 2 → Nat) = fun _ => 0 := funext fun a => by fin_cases a <;> rfl

theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  dsimp only [dat1]
  unfold out1_3
  rw [View.canon_unit_zero hz1, View.ld_unit_zero hz1, View.ld_unit_zero hz1, View.ld_unit_zero hz1]
  obtain ⟨-, -, -, -, -, -, e0, e1⟩ := idx1 t
  funext y
  obtain ⟨p, q, rfl⟩ : ∃ (p : Fin 1000) (q : Fin 𝐉), y = ix2 p q := ⟨y 0, y 1, eq_ix2 y⟩
  have he : ((cfg1.win 3).blk t).view.emb (ix2 p q) = ix2 (row1 t p) q :=
    Shape.idx_ext₂ (by show win1_3.index t (0 : Fin 2) * 1000 + 1 * p.val = 1000 * t.val + p.val; omega)
      (by show win1_3.index t (1 : Fin 2) * 𝐉 + 1 * q.val = q.val; omega)
  show k1_pay1 (iblk1 V c 0 t) (iblk1 V c 1 t) (iblk1 V c 2 t) (ix2 p q) = G1 V c (((cfg1.win 3).blk t).view.emb (ix2 p q))
  rw [he]
  refine (pay1_apply (iblk1 V c 0 t) (iblk1 V c 1 t) (iblk1 V c 2 t) p q).trans ?_
  exact congrArg Cert.Gnn.lrelu (congrArg₂ (· + ·)
    (Finset.sum_congr rfl fun k _ => by rw [xblk1_apply V c t p k, wblk1_apply V c t k q]) (bblk1_apply V c t q))

-- Row `r` of the output array lies in the tile of point `r / 1000`.
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 𝐉 := (i 1).isLt
  obtain ⟨t, ht⟩ : ∃ t : Fin cfg1.N, t.val = (i 0).val / 1000 := ⟨⟨(i 0).val / 1000, by rw [show cfg1.N = 50 from N_1]; omega⟩, rfl⟩
  obtain ⟨-, -, -, -, -, -, e0, e1⟩ := idx1 t
  refine ⟨t, flush1_3 t, ?_⟩
  show i ∈ ((View.whole main_v14).slice (win1_3.rect t)).set
  rw [View.set_slice_whole, Rect.mem_set_unit]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 𝐉 ≤ (i 1).val ∧ (i 1).val < win1_3.index t (1 : Fin 2) * 𝐉 + 𝐉; omega

theorem val1 (c : Dev nD) (n : Fin 50000) (j : Fin 64) :
    ((dat1 (F := Ideal) V c).arrAt 3 cfg1.N : S50000x64.Idx → EReal) (ValueIdx.ix2 n j)
      = Cert.Gnn.lrelu (Cert.Gnn.mm (fun n k => V c main_v12 (ValueIdx.ix2 n k)) (fun k j => V c main_v13 (ValueIdx.ix2 k j)) n j + V c main_v0 (ValueIdx.ix2 0 j)) :=
  congrFun ((dat1 V c).arrAt_eq_of_cover 3 (G1 V c) (fun t _ => flushed1_eq V c t) cover1) (ix2 n j)

end Cert.KernelIdeal.Hand

end
-- ==== Proof.KI.Val2.lean ====
/- What region 2's output array holds after the region, index by index, at the extended reals: at node `n` and column `j` the sum of the features of the edges whose destination word, read signed, is `n`. -/
import proofs.«406692_j3745211482886_1_alg».proof.Proof.KI.R2
import proofs.«406692_j3745211482886_1_alg».proof.Proof.Spec
import proofs.«406692_j3745211482886_1_alg».proof.Proof.Algebra
import Idealize.ShloMosaic.PureOps.Ideal
import Idealize.ShloMosaic.PureOps.IdealRules
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem onehot_word2 (a b : BitVec 32) :
    (FloatOps.sitofp (F := Ideal) .f32 ((IntOp.cmpi .eq a b).setWidth 32) : EReal) = if a = b then 1 else 0 := by
  by_cases h : a = b
  · rw [if_pos h]; subst h
    show ((((IntOp.cmpi .eq a a).setWidth 32).toInt : ℝ) : EReal) = 1
    have : ((IntOp.cmpi .eq a a).setWidth 32) = 1#32 := by simp [IntOp.cmpi]
    rw [this]; norm_num
  · rw [if_neg h]
    show ((((IntOp.cmpi .eq a b).setWidth 32).toInt : ℝ) : EReal) = 0
    have hb : (a == b) = false := by simpa using h
    have : ((IntOp.cmpi .eq a b).setWidth 32) = 0#32 := by simp [IntOp.cmpi, hb]
    rw [this]; norm_num

theorem dot2_lhs_0 (j : S1000x64.Idx) (k : dot_S1000x6400_S6400x64_S1000x64_1_0_0_1_n_n.contr.Idx) : (dot_S1000x6400_S6400x64_S1000x64_1_0_0_1_n_n.lhsIdx j k 0 : ℕ) = j 0 := by
  simp [DotDims.lhsIdx, dot_S1000x6400_S6400x64_S1000x64_1_0_0_1_n_n]; rfl
theorem dot2_lhs_1 (j : S1000x64.Idx) (k : dot_S1000x6400_S6400x64_S1000x64_1_0_0_1_n_n.contr.Idx) : (dot_S1000x6400_S6400x64_S1000x64_1_0_0_1_n_n.lhsIdx j k 1 : ℕ) = k ⟨0, by decide⟩ := by
  simp [DotDims.lhsIdx, dot_S1000x6400_S6400x64_S1000x64_1_0_0_1_n_n]; rfl
theorem dot2_rhs_0 (j : S1000x64.Idx) (k : dot_S1000x6400_S6400x64_S1000x64_1_0_0_1_n_n.contr.Idx) : (dot_S1000x6400_S6400x64_S1000x64_1_0_0_1_n_n.rhsIdx j k 0 : ℕ) = k ⟨0, by decide⟩ := by
  simp [DotDims.rhsIdx, dot_S1000x6400_S6400x64_S1000x64_1_0_0_1_n_n]; rfl
theorem dot2_rhs_1 (j : S1000x64.Idx) (k : dot_S1000x6400_S6400x64_S1000x64_1_0_0_1_n_n.contr.Idx) : (dot_S1000x6400_S6400x64_S1000x64_1_0_0_1_n_n.rhsIdx j k 1 : ℕ) = j 1 := by
  simp [DotDims.rhsIdx, dot_S1000x6400_S6400x64_S1000x64_1_0_0_1_n_n]
  first | rfl | (have h : (j 1 : ℕ) < 1 := (j 1).isLt; omega)

theorem k2_pay1_apply (y : S1000x64.Idx) : (k2_pay1 (F := Ideal) : S1000x64.Idx → EReal) y = 0 := by
  unfold k2_pay1
  simp only [shapeCast_self]
  show Ideal.ofBits .f32 0x00000000#32 = 0
  exact Ideal.ofBits_zero_f32

theorem k2_pay2_apply (i : grid2.Coords) (x0 : Vec Ideal S1x6400 .i32) (acc : Vec Ideal S1000x64 .f32) (x1 : Vec Ideal S6400x64 .bf16)
    (y : S1000x64.Idx) :
    (k2_pay2 i x0 acc x1 : S1000x64.Idx → EReal) y
      = acc y + ∑ k : Fin 6400, (if BitVec.ofNat 32 (i 0).val * 1000#32 + BitVec.ofNat 32 (y 0).val = x0 (ix2 0 k) then (1 : EReal) else 0)
          * x1 (ix2 k (y 1)) := by
  unfold k2_pay2
  simp only [shapeCast_self, matmul]
  rw [addf_apply, Ideal.matmul_constant_zero_apply]
  congr 1
  rw [← Equiv.sum_comp (contrEquiv1 dot_S1000x6400_S6400x64_S1000x64_1_0_0_1_n_n 6400 rfl rfl).symm]
  refine Finset.sum_congr rfl fun k _ => ?_
  congr 1
  · show FloatOps.sitofp (F := Ideal) .f32 ((IntOp.cmpi .eq (IntOp.addi (Scalar.muli (BitVec.ofNat 32 (i 0).val) 1000#32) (iota Kind.tc S1000x6400 32 [0] iota_S1000x6400_d0_w32 _)) (broadcastTo S1000x6400 x0 broadcasts_S1x6400_S1000x6400 _)).setWidth 32) = _
    rw [onehot_word2, iota_single_apply, dot2_lhs_0]
    rw [broadcastTo_apply x0 broadcasts_S1x6400_S1000x6400 _ (ix2 0 k) (fun a => by
      match a with
      | ⟨0, _⟩ => rfl
      | ⟨1, _⟩ =>
        show (k : ℕ) = (dot_S1000x6400_S6400x64_S1000x64_1_0_0_1_n_n.lhsIdx y ((contrEquiv1 dot_S1000x6400_S6400x64_S1000x64_1_0_0_1_n_n 6400 rfl rfl).symm k) 1 : ℕ)
        rw [dot2_lhs_1]
        exact (contrEquiv1_symm_val dot_S1000x6400_S6400x64_S1000x64_1_0_0_1_n_n 6400 rfl rfl k).symm)]
    rfl
  · congr 1
    apply Shape.idx_ext₂
    · rw [dot2_rhs_0]
      exact contrEquiv1_symm_val dot_S1000x6400_S6400x64_S1000x64_1_0_0_1_n_n 6400 rfl rfl k
    · exact dot2_rhs_1 y _

section Cases
variable {F : FTy → Type} [FloatOps F] (c : Dev nD) (i : grid2.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole)
  (x0 : Vec F S1x6400 .i32) (x1 : Vec F S6400x64 .bf16) (x2 : Vec F S1x64 .f32) (xs0 : Vec F S1000x64 .f32)

theorem hz2 : (![0, 0] : Fin 2 → Nat) = fun _ => 0 := funext fun a => by fin_cases a <;> rfl

-- The first edge tile of a node tile: the accumulator is zeroed, then the tile's product is added.
theorem canon2_A (hc0 : cond2_0 i) (hc1 : ¬cond2_1 i) :
    View.canon (kernelRun2_A c i arg2 harg2 arg3 harg3 arg4 harg4 arg5 harg5 arg6 harg6 hc0 hc1 x0 x1 x2).2.1 = k2_pay2 i x0 (k2_pay1 (F := F)) x1 := by
  unfold kernelRun2_A
  dsimp only
  try sl_unfold_words
  rw [View.canon_cons_unit_zero hz2]
  try rw [View.readCov_unit_zero (S := S1000x64) _ hz2]
  simp only [View.readAt_eq_ld, harg2.read_unread, harg3.read_unread, View.ld_unit_zero (S := S1x6400) hz2, View.ld_unit_zero (S := S6400x64) hz2, View.ld_unit_zero (S := S1000x64) hz2]

-- An inner edge tile: the tile's product is added onto what the accumulator held.
theorem canon2_B (hc0 : ¬cond2_0 i) (hc1 : ¬cond2_1 i) :
    View.canon (kernelRun2_B c i arg2 harg2 arg3 harg3 arg4 harg4 arg5 harg5 arg6 harg6 hc0 hc1 x0 x1 x2 xs0).2.1 = k2_pay2 i x0 xs0 x1 := by
  unfold kernelRun2_B
  dsimp only
  try sl_unfold_words
  rw [View.canon_cons_unit_zero hz2]
  try rw [View.readCov_unit_zero (S := S1000x64) _ hz2]
  simp only [View.readAt_eq_ld, harg2.read_unread, harg3.read_unread, harg6.read_unread, View.ld_unit_zero (S := S1x6400) hz2, View.ld_unit_zero (S := S6400x64) hz2, View.ld_unit_zero (S := S1000x64) hz2]

-- The last edge tile: the same, in the accumulator and copied into the output block.
theorem canon2_C (hc0 : ¬cond2_0 i) (hc1 : cond2_1 i) :
    View.canon (kernelRun2_C c i arg2 harg2 arg3 harg3 arg4 harg4 arg5 harg5 arg6 harg6 hc0 hc1 x0 x1 x2 xs0).1 = k2_pay2 i x0 xs0 x1
      ∧ View.canon (kernelRun2_C c i arg2 harg2 arg3 harg3 arg4 harg4 arg5 harg5 arg6 harg6 hc0 hc1 x0 x1 x2 xs0).2.1 = k2_pay2 i x0 xs0 x1 := by
  constructor <;>
  (
    unfold kernelRun2_C
    dsimp only
    try sl_unfold_words
    rw [View.canon_cons_unit_zero hz2]
    try rw [View.readCov_unit_zero (S := S1000x64) _ hz2]
    simp only [View.readAt_eq_ld, harg2.read_unread, harg3.read_unread, harg6.read_unread, View.ld_unit_zero (S := S1x6400) hz2, View.ld_unit_zero (S := S6400x64) hz2, View.ld_unit_zero (S := S1000x64) hz2])

end Cases

theorem coords2 : ∀ t : Fin cfg2.N, (grid2.coords t 0).val = t.val / 125 ∧ (grid2.coords t 1).val = t.val % 125 :=
  (by decide +kernel : ∀ t : Fin grid2.N, (grid2.coords t 0).val = t.val / 125 ∧ (grid2.coords t 1).val = t.val % 125)
theorem index2_0 : ∀ t : Fin cfg2.N, win2_0.index t 0 = 0 ∧ win2_0.index t 1 = t.val % 125 :=
  (by decide +kernel : ∀ t : Fin grid2.N, win2_0.index t 0 = 0 ∧ win2_0.index t 1 = t.val % 125)
theorem index2_1 : ∀ t : Fin cfg2.N, win2_1.index t 0 = t.val % 125 ∧ win2_1.index t 1 = 0 :=
  (by decide +kernel : ∀ t : Fin grid2.N, win2_1.index t 0 = t.val % 125 ∧ win2_1.index t 1 = 0)
theorem index2_3 : ∀ t : Fin cfg2.N, win2_3.index t 0 = t.val / 125 ∧ win2_3.index t 1 = 0 :=
  (by decide +kernel : ∀ t : Fin grid2.N, win2_3.index t 0 = t.val / 125 ∧ win2_3.index t 1 = 0)

section Blocks
variable {F : FTy → Type} [FloatOps F]
variable (V : (c : Dev nD) → (b : Ref sig .tc) → Buf (Elt F) ((c : Thread nD τ).loc b))

theorem iblk2_0_apply (c : Dev nD) (t : Fin cfg2.N) (x : S1x6400.Idx) (k : S1x800000.Idx)
    (hk0 : (k 0).val = (x 0).val) (hk1 : (k 1).val = (t.val % 125) * 6400 + (x 1).val) :
    (iblk2 V c 0 t : Vec F S1x6400 .i32) x = (V c main_v16 : S1x800000.Idx → Elt F .i32) k := by
  have hi := index2_0 t
  unfold iblk2
  rw [View.read_apply]
  show V c main_v16 _ = V c main_v16 _
  congr 1
  funext a
  apply Fin.ext
  match a with
  | ⟨0, _⟩ => show win2_0.index t 0 * S1x6400.size 0 + 1 * (x 0).val = (k 0).val; rw [hi.1, hk0, Nat.zero_mul, Nat.one_mul, Nat.zero_add]
  | ⟨1, _⟩ => show win2_0.index t 1 * 6400 + 1 * (x 1).val = (k 1).val; rw [hi.2, hk1]; omega

theorem iblk2_1_apply (c : Dev nD) (t : Fin cfg2.N) (x : S6400x64.Idx) (k : S800000x64.Idx)
    (hk0 : (k 0).val = (t.val % 125) * 6400 + (x 0).val) (hk1 : (k 1).val = (x 1).val) :
    (iblk2 V c 1 t : Vec F S6400x64 .bf16) x = (V c main_v24 : S800000x64.Idx → Elt F .bf16) k := by
  have hi := index2_1 t
  unfold iblk2
  rw [View.read_apply]
  show V c main_v24 _ = V c main_v24 _
  congr 1
  funext a
  apply Fin.ext
  match a with
  | ⟨0, _⟩ => show win2_1.index t 0 * 6400 + 1 * (x 0).val = (k 0).val; rw [hi.1, hk0]; omega
  | ⟨1, _⟩ => show win2_1.index t 1 * S6400x64.size 1 + 1 * (x 1).val = (k 1).val; rw [hi.2, hk1, Nat.zero_mul, Nat.one_mul, Nat.zero_add]

-- The cases' payloads at point `t`: its input blocks in the stored pieces' closed form.
theorem runA2_snd (c : Dev nD) (t : Fin cfg2.N) (h0 : t.val % 125 = 0) (h1 : ¬t.val % 125 = 124) :
    View.canon (runA2 V c t h0 h1).2.1 = k2_pay2 (grid2.coords t) (iblk2 V c 0 t) (k2_pay1 (F := F)) (iblk2 V c 1 t) := by
  unfold runA2; exact canon2_A ..
theorem runB2_snd (c : Dev nD) (t : Fin cfg2.N) (h0 : ¬t.val % 125 = 0) (h1 : ¬t.val % 125 = 124) (xs0 : Vec F S1000x64 .f32) :
    View.canon (runB2 V c t h0 h1 xs0).2.1 = k2_pay2 (grid2.coords t) (iblk2 V c 0 t) xs0 (iblk2 V c 1 t) := by
  unfold runB2; exact canon2_B ..
theorem runC2_both (c : Dev nD) (t : Fin cfg2.N) (h0 : ¬t.val % 125 = 0) (h1 : t.val % 125 = 124) (xs0 : Vec F S1000x64 .f32) :
    View.canon (runC2 V c t h0 h1 xs0).1 = k2_pay2 (grid2.coords t) (iblk2 V c 0 t) xs0 (iblk2 V c 1 t)
      ∧ View.canon (runC2 V c t h0 h1 xs0).2.1 = k2_pay2 (grid2.coords t) (iblk2 V c 0 t) xs0 (iblk2 V c 1 t) := by
  unfold runC2; exact canon2_C ..

-- What point `t` leaves in the accumulator, whatever its case: the edge tile's product added onto zero at the first edge tile of a node tile, onto what the accumulator held at the others;
theorem pt2_snd (c : Dev nD) (t : Fin cfg2.N) (xs0 : Vec F S1000x64 .f32) :
    (pt2 V c t xs0).2 = k2_pay2 (grid2.coords t) (iblk2 V c 0 t) (if t.val % 125 = 0 then k2_pay1 (F := F) else xs0) (iblk2 V c 1 t) := by
  by_cases h0 : t.val % 125 = 0
  · have h1 : ¬t.val % 125 = 124 := by omega
    rw [pt2_A V c t h0 h1, if_pos h0]; dsimp only; exact runA2_snd V c t h0 h1
  · rw [if_neg h0]
    by_cases h1 : t.val % 125 = 124
    · rw [pt2_C V c t h0 h1]; dsimp only; exact (runC2_both V c t h0 h1 xs0).2
    · rw [pt2_B V c t h0 h1]; dsimp only; exact runB2_snd V c t h0 h1 xs0

-- and at the last edge tile the output block is left at the same.
theorem pt2_fst (c : Dev nD) (t : Fin cfg2.N) (h1 : t.val % 125 = 124) (xs0 : Vec F S1000x64 .f32) :
    (pt2 V c t xs0).1 = (pt2 V c t xs0).2 := by
  have h0 : ¬t.val % 125 = 0 := by omega
  rw [pt2_C V c t h0 h1]; dsimp only; exact (runC2_both V c t h0 h1 xs0).1.trans (runC2_both V c t h0 h1 xs0).2.symm

end Blocks

section Value
variable (V : (c : Dev nD) → (b : Ref sig .tc) → Buf (Elt Ideal) ((c : Thread nD τ).loc b))

abbrev feat2 (c : Dev nD) : Fin 800000 → Fin 64 → EReal := fun e j => V c main_v24 (ix2 e j)
abbrev dst2 (c : Dev nD) : Fin 800000 → BitVec 32 := fun e => V c main_v16 (ix2 0 e)

def tile2 (c : Dev nD) (n0 : ℕ) (y : S1000x64.Idx) (q : ℕ) : EReal :=
  if hq : q < 125 then
    ∑ k : Fin 6400, (if BitVec.ofNat 32 n0 * 1000#32 + BitVec.ofNat 32 (y 0).val = dst2 V c (Cert.Gnn.blk ⟨q, hq⟩ k) then (1 : EReal) else 0)
      * feat2 V c (Cert.Gnn.blk ⟨q, hq⟩ k) (y 1)
  else 0

theorem step2 (c : Dev nD) (t : Fin cfg2.N) (n0 q : ℕ) (hq : q < 125) (ht : t.val = n0 * 125 + q)
    (acc : Vec Ideal S1000x64 .f32) (y : S1000x64.Idx) :
    (k2_pay2 (grid2.coords t) (iblk2 V c 0 t) acc (iblk2 V c 1 t) : S1000x64.Idx → EReal) y = acc y + tile2 V c n0 y q := by
  rw [k2_pay2_apply]
  congr 1
  unfold tile2; rw [dif_pos hq]
  refine Finset.sum_congr rfl fun k _ => ?_
  have hc := coords2 t
  have h0 : (grid2.coords t 0).val = n0 := by rw [hc.1, ht]; omega
  have hm : t.val % 125 = q := by rw [ht]; omega
  rw [h0, iblk2_0_apply V c t (ix2 0 k) (ix2 0 (Cert.Gnn.blk ⟨q, hq⟩ k)) rfl (by rw [hm]; rfl),
    iblk2_1_apply V c t (ix2 k (y 1)) (ix2 (Cert.Gnn.blk ⟨q, hq⟩ k) (y 1)) (by rw [hm]; rfl) rfl]

-- One point's accumulation at an index: onto zero at the first edge tile of a node tile, onto what the accumulator held at the others.
theorem acc2_step (c : Dev nD) (n0 q : ℕ) (hq : q < 125) (hn0 : n0 < 50) (y : S1000x64.Idx) :
    (accAt2 V c (n0 * 125 + q + 1) : S1000x64.Idx → EReal) y = (if q = 0 then 0 else accAt2 V c (n0 * 125 + q) y) + tile2 V c n0 y q := by
  have hN : cfg2.N = 6250 := N_2
  have h : n0 * 125 + q < cfg2.N := by omega
  rw [accAt2_succ V c ⟨n0 * 125 + q, h⟩, pt2_snd, step2 V c ⟨n0 * 125 + q, h⟩ n0 q hq rfl]
  congr 1
  by_cases hz : q = 0
  · rw [if_pos hz, if_pos (show (n0 * 125 + q) % 125 = 0 by omega), k2_pay1_apply]
  · rw [if_neg hz, if_neg (show ¬(n0 * 125 + q) % 125 = 0 by omega)]

-- THE FOLD. After edge tile `q` of node tile `n0` the accumulator holds the running sum of the tiles' contributions from tile 0 on, started from zero.
theorem scratch2_fold (c : Dev nD) (n0 : ℕ) (hn0 : n0 < 50) (y : S1000x64.Idx) :
    ∀ (q : ℕ), q < 125 → (accAt2 V c (n0 * 125 + q + 1) : S1000x64.Idx → EReal) y = Cert.Gnn.acc (tile2 V c n0 y) q
  | 0, hq => by rw [acc2_step V c n0 0 hq hn0 y, if_pos rfl, Cert.Gnn.acc_zero]
  | q + 1, hq => by
    have ih : accAt2 V c (n0 * 125 + (q + 1)) y = _ := scratch2_fold c n0 hn0 y q (by omega)
    rw [acc2_step V c n0 (q + 1) hq hn0 y, if_neg (Nat.succ_ne_zero q), ih, Cert.Gnn.acc_succ]

-- What the last edge tile of its node tile copies into the output block: at row `y 0`, column `y 1`, the sum of the features of the edges whose destination word read signed is the node.
theorem out2_last (c : Dev nD) (t : Fin cfg2.N) (h1 : t.val % 125 = 124) (y : S1000x64.Idx) :
    ((pt2 V c t (accAt2 V c t.val)).1 : S1000x64.Idx → EReal) y
      = Cert.Gnn.segsum (feat2 V c) (dst2 V c) ⟨t.val / 125 * 1000 + (y 0).val, by have hy := (y 0).isLt; have ht := t.isLt; have hN : cfg2.N = 6250 := N_2; change (y 0).val < 1000 at hy; show _ < 50000; omega⟩ (y 1) := by
  have ht := t.isLt
  have hN : cfg2.N = 6250 := N_2
  have hn0 : t.val / 125 < 50 := by omega
  have e : t.val / 125 * 125 + 124 = t.val := by omega
  rw [pt2_fst V c t h1, ← accAt2_succ V c t, show accAt2 V c (t.val + 1) = accAt2 V c (t.val / 125 * 125 + 124 + 1) from by rw [e],
    scratch2_fold V c (t.val / 125) hn0 y 124 (by omega)]
  rw [Cert.Gnn.acc_blocked (tile2 V c (t.val / 125) y) (fun e => feat2 V c e (y 1))
    (fun e => BitVec.ofNat 32 (t.val / 125) * 1000#32 + BitVec.ofNat 32 (y 0).val = dst2 V c e)
    (fun q => by unfold tile2; rw [dif_pos q.isLt])]
  unfold Cert.Gnn.segsum
  refine Finset.sum_congr (Finset.filter_congr fun e _ => ?_) (fun _ _ => rfl)
  exact Cert.Gnn.word_eq_iff hn0 (y 0).isLt _

end Value

section Result
variable (V : (c : Dev nD) → (b : Ref sig .tc) → Buf (Elt Ideal) ((c : Thread nD τ).loc b))

def G2 (c : Dev nD) : S50000x64.Idx → EReal :=
  fun i => Cert.Gnn.segsum (feat2 V c) (dst2 V c) (i 0) (i 1)

theorem G2_apply (c : Dev nD) (i : S50000x64.Idx) :
    G2 V c i = Cert.Gnn.segsum (feat2 V c) (dst2 V c) (i 0) (i 1) := rfl

theorem cut2_3_apply (t : Fin cfg2.N) (X : S1000x64.Idx → EReal) (y : S1000x64.Idx) :
    (cfg2.win 3).cut (grid2.coords t) X y = X y := rfl

theorem read2_3_apply (t : Fin cfg2.N) (G : S50000x64.Idx → EReal) (y : S1000x64.Idx) :
    ((cfg2.win 3).blk t).view.read (Elt Ideal) G y = G (((cfg2.win 3).blk t).view.emb y) := by
  rw [View.read_apply]; rfl

theorem flushed2_3_of (c : Dev nD) (dat : Dat τ (Elt Ideal) Unit ℕ (Pipeline.UD sig nD τ) ℕ cfg2 c) (t : Fin cfg2.N)
    (X : Vec Ideal S1000x64 .f32) (hX : dat.after 3 t = X) (G : S50000x64.Idx → EReal)
    (h : ∀ y : S1000x64.Idx, X y = G (((cfg2.win 3).blk t).view.emb y)) :
    dat.flushed 3 t = ((cfg2.win 3).blk t).view.read (Elt Ideal) G := by
  funext y
  refine Eq.trans (congrFun (congrArg ((cfg2.win 3).cut (grid2.coords t)) hX) y) ?_
  refine Eq.trans (cut2_3_apply t X y) ?_
  refine Eq.trans ?_ (read2_3_apply t G y).symm
  exact h y

-- What every point that writes the output block back writes is its block of the one whole-array contents `G2`.
theorem hG2 (c : Dev nD) (t : Fin cfg2.N) (hf : (cfg2.win 3).flush t = true) :
    (dat2 V c).flushed 3 t = ((cfg2.win 3).blk t).view.read (Elt Ideal) (G2 V c) := by
  have hi := index2_3 t
  refine flushed2_3_of c (dat2 V c) t _ (after2_3 V c t) (G2 V c) (fun y => ?_)
  rw [out2_last V c t ((flush2_3 t).mp hf) y, G2_apply]
  refine congrArg₂ (Cert.Gnn.segsum (feat2 V c) (dst2 V c)) (Fin.ext ?_) (Fin.ext ?_)
  · show t.val / 125 * 1000 + (y 0).val = win2_3.index t 0 * 1000 + 1 * (y 0).val
    rw [hi.1, Nat.one_mul]
  · show (y 1).val = win2_3.index t 1 * S1000x64.size 1 + 1 * (y 1).val
    rw [hi.2, Nat.zero_mul, Nat.one_mul, Nat.zero_add]

theorem val2 (c : Dev nD) (n : Fin 50000) (j : Fin 64) :
    ((dat2 (F := Ideal) V c).arrAt 3 cfg2.N : S50000x64.Idx → EReal) (ValueIdx.ix2 n j)
      = Cert.Gnn.segsum (fun e j => V c main_v24 (ValueIdx.ix2 e j)) (fun e => V c main_v16 (ValueIdx.ix2 0 e)) n j := by
  have hn := n.isLt
  have hN : cfg2.N = 6250 := N_2
  let t : Fin cfg2.N := ⟨n.val / 1000 * 125 + 124, by rw [hN]; omega⟩
  have hf : (cfg2.win 3).flush t = true := (flush2_3 t).mpr (by show (n.val / 1000 * 125 + 124) % 125 = 124; omega)
  have hmem : ix2 n j ∈ ((cfg2.win 3).blk t).view.set := by
    show ix2 n j ∈ ((View.whole main_v26).slice (win2_3.rect t)).set
    rw [View.set_slice_whole, Rect.mem_set_unit]
    intro a
    have hi := index2_3 t
    match a with
    | ⟨0, _⟩ =>
      show win2_3.index t 0 * win2_3.size 0 ≤ (n : ℕ) ∧ (n : ℕ) < win2_3.index t 0 * win2_3.size 0 + win2_3.xsize (grid2.coords t) 0
      rw [hi.1]
      show (n.val / 1000 * 125 + 124) / 125 * 1000 ≤ n.val ∧ n.val < (n.val / 1000 * 125 + 124) / 125 * 1000 + 1000
      omega
    | ⟨1, _⟩ =>
      show win2_3.index t 1 * win2_3.size 1 ≤ (j : ℕ) ∧ (j : ℕ) < win2_3.index t 1 * win2_3.size 1 + win2_3.xsize (grid2.coords t) 1
      rw [hi.2, Nat.zero_mul, Nat.zero_add]
      exact ⟨Nat.zero_le _, j.isLt⟩
  refine ((dat2 V c).arrAt_apply_of_mem 3 (G2 V c) (hG2 V c) cfg2.N t (ix2 n j) t.isLt hf hmem).trans ?_
  have h0 : (ix2 n j : S50000x64.Idx) 0 = n := rfl
  have h1 : (ix2 n j : S50000x64.Idx) 1 = j := rfl
  exact (G2_apply V c (ix2 n j)).trans (congrArg₂ (Cert.Gnn.segsum (feat2 V c) (dst2 V c)) h0 h1)

end Result

end Cert.KernelIdeal.Hand

end
-- ==== Proof.KI.Val3.lean ====
/- What region 3's output array holds after the region, index by index, at the extended reals: at row `n` and column `j` the leaky rectifier of (x·w)[n, j] + b[0, j], where x, w and b are the region's operand arrays as it finds them. -/
import proofs.«406692_j3745211482886_1_alg».proof.Proof.KI.R3
import proofs.«406692_j3745211482886_1_alg».proof.Proof.Spec
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

local notation "𝐊" => (64 : ℕ)
local notation "𝐉" => (128 : ℕ)

-- The tile's product into the zero accumulator at (p, q): the operands are read at (p, k) and (k, q), k the contraction's one coordinate.
theorem prod3_apply (x0 : FVec Ideal S1000x64 .bf16) (x1 : FVec Ideal S64x128 .bf16) (p : Fin 1000) (q : Fin 𝐉) :
    matmul dot_S1000x64_S64x128_S1000x128_1_0_0_1_n_n none x0 x1 (constant (F := Ideal) S1000x128 .f32 0x00000000#32) (ix2 p q)
      = ∑ k : Fin 𝐊, x0 (ix2 p k) * x1 (ix2 k q) := by
  simp only [matmul]
  rw [Ideal.matmul_constant_zero_apply, ← Equiv.sum_comp (contrEquiv1 dot_S1000x64_S64x128_S1000x128_1_0_0_1_n_n 𝐊 rfl rfl).symm]
  refine Finset.sum_congr rfl fun k _ => ?_
  have hk := contrEquiv1_symm_val dot_S1000x64_S64x128_S1000x128_1_0_0_1_n_n 𝐊 rfl rfl k
  rw [show dot_S1000x64_S64x128_S1000x128_1_0_0_1_n_n.lhsIdx (ix2 p q) ((contrEquiv1 dot_S1000x64_S64x128_S1000x128_1_0_0_1_n_n 𝐊 rfl rfl).symm k) = ix2 p k from
      Shape.idx_ext₂ rfl ((dot_S1000x64_S64x128_S1000x128_1_0_0_1_n_n.lhsIdx_val_of_single rfl _ _).trans hk),
    show dot_S1000x64_S64x128_S1000x128_1_0_0_1_n_n.rhsIdx (ix2 p q) ((contrEquiv1 dot_S1000x64_S64x128_S1000x128_1_0_0_1_n_n 𝐊 rfl rfl).symm k) = ix2 k q from
      Shape.idx_ext₂ ((dot_S1000x64_S64x128_S1000x128_1_0_0_1_n_n.rhsIdx_val_of_single rfl _ _).trans hk) rfl]

theorem pay3_apply (x0 : Vec Ideal S1000x64 .bf16) (x1 : Vec Ideal S64x128 .bf16) (x2 : Vec Ideal S1x128 .f32) (p : Fin 1000) (q : Fin 𝐉) :
    k3_pay1 x0 x1 x2 (ix2 p q) = Cert.Gnn.lrelu ((∑ k : Fin 𝐊, x0 (ix2 p k) * x1 (ix2 k q)) + x2 (ix2 0 q)) := by
  unfold k3_pay1
  simp only [shapeCast_self]
  rw [select_apply, cmpf_apply, mulf_apply, addf_apply, broadcast_apply, broadcast_apply, prod3_apply, broadcastTo_1b_ab_apply x2 broadcasts_S1x128_S1000x128 p q]
  show Scalar.select (Ideal.cmp .oge _ (Ideal.ofBits .f32 0x00000000#32)) _ (Ideal.ofBits .f32 0x3C23D70A#32 * _) = _
  rw [Ideal.ofBits_zero_f32]
  rfl

def G3 (c : Dev nD) : S50000x128.Idx → EReal := fun i =>
  Cert.Gnn.lrelu (Cert.Gnn.mm (fun n k => V c main_v27 (ix2 n k)) (fun k j => V c main_v28 (ix2 k j)) (i 0) (i 1) + V c main_v15 (ix2 0 (i 1)))

theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

def row3 (t : Fin cfg3.N) (p : Fin 1000) : Fin 50000 :=
  ⟨1000 * t.val + p.val, by have ht : t.val < 50 := lt_of_lt_of_eq t.isLt N_3; have hp := p.isLt; omega⟩

-- Each operand block read at an index is its array read at the index's place: row `p` of tile `t` is row `1000 t + p`.
theorem xblk3_apply (c : Dev nD) (t : Fin cfg3.N) (p : Fin 1000) (k : Fin 𝐊) :
    (iblk3 V c 0 t : Vec Ideal S1000x64 .bf16) (ix2 p k) = V c main_v27 (ix2 (row3 t p) k) := by
  obtain ⟨e0, e1, -⟩ := idx3 t
  show V c main_v27 (((cfg3.win 0).blk t).view.emb (ix2 p k)) = V c main_v27 _
  exact congrArg _ (Shape.idx_ext₂ (by show win3_0.index t (0 : Fin 2) * 1000 + 1 * p.val = 1000 * t.val + p.val; omega)
    (by show win3_0.index t (1 : Fin 2) * 𝐊 + 1 * k.val = k.val; omega))
theorem wblk3_apply (c : Dev nD) (t : Fin cfg3.N) (k : Fin 𝐊) (q : Fin 𝐉) :
    (iblk3 V c 1 t : Vec Ideal S64x128 .bf16) (ix2 k q) = V c main_v28 (ix2 k q) := by
  obtain ⟨-, -, e0, e1, -⟩ := idx3 t
  show V c main_v28 (((cfg3.win 1).blk t).view.emb (ix2 k q)) = V c main_v28 _
  exact congrArg _ (Shape.idx_ext₂ (by show win3_1.index t (0 : Fin 2) * 𝐊 + 1 * k.val = k.val; omega)
    (by show win3_1.index t (1 : Fin 2) * 𝐉 + 1 * q.val = q.val; omega))
theorem bblk3_apply (c : Dev nD) (t : Fin cfg3.N) (q : Fin 𝐉) :
    (iblk3 V c 2 t : Vec Ideal S1x128 .f32) (ix2 0 q) = V c main_v15 (ix2 0 q) := by
  obtain ⟨-, -, -, -, e0, e1, -⟩ := idx3 t
  show V c main_v15 (((cfg3.win 2).blk t).view.emb (ix2 0 q)) = V c main_v15 _
  exact congrArg _ (Shape.idx_ext₂ (by show win3_2.index t (0 : Fin 2) * 1 + 1 * 0 = 0; omega)
    (by show win3_2.index t (1 : Fin 2) * 𝐉 + 1 * q.val = q.val; omega))

theorem hz3 : (![0, 0] : Fin 2 → Nat) = fun _ => 0 := funext fun a => by fin_cases a <;> rfl

theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  dsimp only [dat3]
  unfold out3_3
  rw [View.canon_unit_zero hz3, View.ld_unit_zero hz3, View.ld_unit_zero hz3, View.ld_unit_zero hz3]
  obtain ⟨-, -, -, -, -, -, e0, e1⟩ := idx3 t
  funext y
  obtain ⟨p, q, rfl⟩ : ∃ (p : Fin 1000) (q : Fin 𝐉), y = ix2 p q := ⟨y 0, y 1, eq_ix2 y⟩
  have he : ((cfg3.win 3).blk t).view.emb (ix2 p q) = ix2 (row3 t p) q :=
    Shape.idx_ext₂ (by show win3_3.index t (0 : Fin 2) * 1000 + 1 * p.val = 1000 * t.val + p.val; omega)
      (by show win3_3.index t (1 : Fin 2) * 𝐉 + 1 * q.val = q.val; omega)
  show k3_pay1 (iblk3 V c 0 t) (iblk3 V c 1 t) (iblk3 V c 2 t) (ix2 p q) = G3 V c (((cfg3.win 3).blk t).view.emb (ix2 p q))
  rw [he]
  refine (pay3_apply (iblk3 V c 0 t) (iblk3 V c 1 t) (iblk3 V c 2 t) p q).trans ?_
  exact congrArg Cert.Gnn.lrelu (congrArg₂ (· + ·)
    (Finset.sum_congr rfl fun k _ => by rw [xblk3_apply V c t p k, wblk3_apply V c t k q]) (bblk3_apply V c t q))

-- Row `r` of the output array lies in the tile of point `r / 1000`.
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 𝐉 := (i 1).isLt
  obtain ⟨t, ht⟩ : ∃ t : Fin cfg3.N, t.val = (i 0).val / 1000 := ⟨⟨(i 0).val / 1000, by rw [show cfg3.N = 50 from N_3]; omega⟩, rfl⟩
  obtain ⟨-, -, -, -, -, -, e0, e1⟩ := idx3 t
  refine ⟨t, flush3_3 t, ?_⟩
  show i ∈ ((View.whole main_v29).slice (win3_3.rect t)).set
  rw [View.set_slice_whole, Rect.mem_set_unit]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 𝐉 ≤ (i 1).val ∧ (i 1).val < win3_3.index t (1 : Fin 2) * 𝐉 + 𝐉; omega

theorem val3 (c : Dev nD) (n : Fin 50000) (j : Fin 128) :
    ((dat3 (F := Ideal) V c).arrAt 3 cfg3.N : S50000x128.Idx → EReal) (ValueIdx.ix2 n j)
      = Cert.Gnn.lrelu (Cert.Gnn.mm (fun n k => V c main_v27 (ValueIdx.ix2 n k)) (fun k j => V c main_v28 (ValueIdx.ix2 k j)) n j + V c main_v15 (ValueIdx.ix2 0 j)) :=
  congrFun ((dat3 V c).arrAt_eq_of_cover 3 (G3 V c) (fun t _ => flushed3_eq V c t) cover3) (ix2 n j)

end Cert.KernelIdeal.Hand

end
-- ==== Proof.KI.Val4.lean ====
/- What region 4's output array holds after the region, index by index, at the extended reals: row `n`, column `j` is the sum over `k` of x[n, k] * w[k, j], where x and w are the region's x array and weight as it finds them. -/
import proofs.«406692_j3745211482886_1_alg».proof.Proof.KI.R4
import proofs.«406692_j3745211482886_1_alg».proof.Proof.Spec
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

-- The stored block at (r, j): the product into the zero accumulator reads the operands at (r, k) and (k, j), k the contraction's one coordinate.
theorem pay4_apply (x0 : Vec Ideal S1000x128 .bf16) (x1 : Vec Ideal S128x64 .bf16) (r : Fin 1000) (j : Fin 64) :
    k4_pay1 x0 x1 (ix2 r j) = ∑ k : Fin 128, x0 (ix2 r k) * x1 (ix2 k j) := by
  unfold k4_pay1
  simp only [shapeCast_self, matmul]
  rw [Ideal.matmul_constant_zero_apply, ← Equiv.sum_comp (contrEquiv1 dot_S1000x128_S128x64_S1000x64_1_0_0_1_n_n 128 rfl rfl).symm]
  refine Finset.sum_congr rfl fun k _ => ?_
  have ck := contrEquiv1_symm_val dot_S1000x128_S128x64_S1000x64_1_0_0_1_n_n 128 rfl rfl k
  rw [show dot_S1000x128_S128x64_S1000x64_1_0_0_1_n_n.lhsIdx (ix2 r j) ((contrEquiv1 dot_S1000x128_S128x64_S1000x64_1_0_0_1_n_n 128 rfl rfl).symm k) = ix2 r k from
      Shape.idx_ext₂ rfl ((dot_S1000x128_S128x64_S1000x64_1_0_0_1_n_n.lhsIdx_val_of_single rfl _ _).trans ck),
    show dot_S1000x128_S128x64_S1000x64_1_0_0_1_n_n.rhsIdx (ix2 r j) ((contrEquiv1 dot_S1000x128_S128x64_S1000x64_1_0_0_1_n_n 128 rfl rfl).symm k) = ix2 k j from
      Shape.idx_ext₂ ((dot_S1000x128_S128x64_S1000x64_1_0_0_1_n_n.rhsIdx_val_of_single rfl _ _).trans ck) rfl]

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_3.index t (0 : Fin 2) = t.val ∧ win4_3.index t (1 : Fin 2) = 0 :=
  (by decide +kernel : ∀ t : Fin grid4.N, _)

-- Each operand block read at an index is its array read at the index's place: row `r` of block `t` is row `1000 t + r`.
theorem iblk4_0_apply (c : Dev nD) (t : Fin cfg4.N) (r : Fin 1000) (k : Fin 128) (n : Fin 50000) (hn : n.val = 1000 * t.val + r.val) :
    (iblk4 V c 0 t : Vec Ideal S1000x128 .bf16) (ix2 r k) = V c main_v32 (ix2 n k) := by
  obtain ⟨e0, e1, -⟩ := idx_facts4 t
  show V c main_v32 (((cfg4.win 0).blk t).view.emb (ix2 r k)) = V c main_v32 _
  exact congrArg _ (Shape.idx_ext₂ (by show win4_0.index t (0 : Fin 2) * 1000 + 1 * r.val = n.val; omega)
    (by show win4_0.index t (1 : Fin 2) * 128 + 1 * k.val = k.val; omega))
theorem iblk4_1_apply (c : Dev nD) (t : Fin cfg4.N) (k : Fin 128) (j : Fin 64) :
    (iblk4 V c 1 t : Vec Ideal S128x64 .bf16) (ix2 k j) = V c main_v33 (ix2 k j) := by
  obtain ⟨-, -, e2, e3, -⟩ := idx_facts4 t
  show V c main_v33 (((cfg4.win 1).blk t).view.emb (ix2 k j)) = V c main_v33 _
  exact congrArg _ (Shape.idx_ext₂ (by show win4_1.index t (0 : Fin 2) * 128 + 1 * k.val = k.val; omega)
    (by show win4_1.index t (1 : Fin 2) * 64 + 1 * j.val = j.val; omega))

def G4 (a0 : S50000x128.Idx → EReal) (a1 : S128x64.Idx → EReal) : S50000x64.Idx → EReal :=
  fun i => ∑ k : Fin 128, a0 (ix2 (n0 := 50000) (i 0) k) * a1 (ix2 (n1 := 64) k (i 1))

theorem G4_apply (a0 : S50000x128.Idx → EReal) (a1 : S128x64.Idx → EReal) (n : Fin 50000) (j : Fin 64) :
    G4 a0 a1 (ix2 n j) = ∑ k : Fin 128, a0 (ix2 n k) * a1 (ix2 k j) := rfl

theorem flushed4_eq (c : Dev nD) (t : Fin cfg4.N) :
    (dat4 (F := Ideal) V c).flushed 3 t = ((cfg4.win 3).blk t).view.read (Elt Ideal) (G4 (V c main_v32) (V c main_v33)) := by
  show (cfg4.win 3).cut (grid4.coords t) ((dat4 (F := Ideal) V c).after 3 t) = _
  dsimp only [dat4]
  unfold out4_3
  rw [View.canon_unit_zero hz4]
  simp only [View.ld_unit_zero (S := S1000x128) hz4, View.ld_unit_zero (S := S128x64) hz4]
  obtain ⟨-, -, -, -, e4, e5⟩ := idx_facts4 t
  funext y
  obtain ⟨r, j, rfl⟩ : ∃ (r : Fin 1000) (j : Fin 64), y = ix2 r j := ⟨y 0, y 1, eq_ix2 y⟩
  have ht : t.val < 50 := lt_of_lt_of_eq t.isLt N_4
  let n : Fin 50000 := ⟨1000 * t.val + r.val, by have := r.isLt; omega⟩
  have hemb : ((cfg4.win 3).blk t).view.emb (ix2 r j) = ix2 n j :=
    Shape.idx_ext₂ (by show win4_3.index t (0 : Fin 2) * 1000 + 1 * r.val = 1000 * t.val + r.val; omega)
      (by show win4_3.index t (1 : Fin 2) * 64 + 1 * j.val = j.val; omega)
  show k4_pay1 (iblk4 V c 0 t) (iblk4 V c 1 t) (ix2 r j) = G4 (V c main_v32) (V c main_v33) (((cfg4.win 3).blk t).view.emb (ix2 r j))
  rw [hemb, pay4_apply, G4_apply]
  exact Finset.sum_congr rfl fun k _ => by rw [iblk4_0_apply V c t r k n rfl, iblk4_1_apply V c t k j]

-- Row `n` of the output array lies in the block of point `n / 1000`.
theorem cover4 (i : S50000x64.Idx) : ∃ t : Fin cfg4.N, (cfg4.win 3).flush t = true ∧ i ∈ ((cfg4.win 3).blk t).view.set := by
  have hi0 : (i 0).val < 50000 := idx2_lt0 i
  have hi1 : (i 1).val < 64 := idx2_lt1 i
  let t : Fin cfg4.N := ⟨(i 0).val / 1000, by rw [show cfg4.N = 50 from N_4]; omega⟩
  obtain ⟨-, -, -, -, e4, e5⟩ := idx_facts4 t
  have e4' : win4_3.index t (0 : Fin 2) = (i 0).val / 1000 := e4
  refine ⟨t, flush4_3 t, ?_⟩
  show i ∈ ((View.whole main_v35).slice (win4_3.rect t)).set
  rw [View.set_slice_whole, Rect.mem_set_unit]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 64 ≤ (i 1).val ∧ (i 1).val < win4_3.index t (1 : Fin 2) * 64 + 64; omega

theorem val4 (c : Dev nD) (n : Fin 50000) (j : Fin 64) :
    ((dat4 (F := Ideal) V c).arrAt 3 cfg4.N : S50000x64.Idx → EReal) (ValueIdx.ix2 n j)
      = Cert.Gnn.mm (fun n k => V c main_v32 (ValueIdx.ix2 n k)) (fun k j => V c main_v33 (ValueIdx.ix2 k j)) n j :=
  congrFun ((dat4 (F := Ideal) V c).arrAt_eq_of_cover 3 (G4 (V c main_v32) (V c main_v33)) (fun t _ => flushed4_eq V c t) cover4) (ix2 n j)

end Cert.KernelIdeal.Hand

end
-- ==== Proof.KI.Val5.lean ====
/- What region 5's output array holds after the region, index by index, at the extended reals: the leaky rectifier of the segment sum plus the bias. -/
import proofs.«406692_j3745211482886_1_alg».proof.Proof.KI.R5
import proofs.«406692_j3745211482886_1_alg».proof.Proof.Spec
import proofs.«406692_j3745211482886_1_alg».proof.Proof.Algebra
import Idealize.ShloMosaic.PureOps.Ideal
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

namespace Val5

abbrev D5 := dot_S1000x6400_S6400x64_S1000x64_1_0_0_1_n_n

theorem D5_contr_rank : D5.contr.rank = 1 := rfl
theorem D5_contr_size : D5.contr.size ⟨0, by decide⟩ = 6400 := rfl

theorem onehot_word (a b : BitVec 32) :
    (FloatOps.sitofp (F := Ideal) .f32 ((IntOp.cmpi .eq a b).setWidth 32) : EReal) = if a = b then (1 : EReal) else 0 := by
  show (((BitVec.setWidth 32 (IntOp.cmpi .eq a b)).toInt : ℝ) : EReal) = _
  by_cases h : a = b
  · rw [if_pos h]; subst h
    have : IntOp.cmpi .eq a a = 1#1 := by simp [IntOp.cmpi]
    rw [this]
    norm_num
  · rw [if_neg h]
    have : IntOp.cmpi .eq a b = 0#1 := by
      have hb : (a == b) = false := beq_eq_false_iff_ne.mpr h
      simp [IntOp.cmpi, hb]
    rw [this]
    norm_num

theorem D5_lhsIdx_eq (r : Fin 1000) (j : Fin 64) (k : Fin 6400) :
    D5.lhsIdx (ix2 r j) ((contrEquiv1 D5 6400 D5_contr_rank D5_contr_size).symm k) = ix2 r k := by
  funext a; apply Fin.ext
  match a with
  | ⟨0, _⟩ => rfl
  | ⟨1, _⟩ => exact contrEquiv1_symm_val D5 6400 D5_contr_rank D5_contr_size k

theorem D5_rhsIdx_eq (r : Fin 1000) (j : Fin 64) (k : Fin 6400) :
    D5.rhsIdx (ix2 r j) ((contrEquiv1 D5 6400 D5_contr_rank D5_contr_size).symm k) = ix2 k j := by
  funext a; apply Fin.ext
  match a with
  | ⟨0, _⟩ => exact contrEquiv1_symm_val D5 6400 D5_contr_rank D5_contr_size k
  | ⟨1, _⟩ => rfl

theorem pay2_apply (i : grid5.Coords) (v7 : Vec Ideal S1x6400 .i32) (v15 : Vec Ideal S1000x64 .f32) (v16 : Vec Ideal S6400x64 .bf16)
    (r : Fin 1000) (j : Fin 64) :
    (k5_pay2 i v7 v15 v16 : S1000x64.Idx → EReal) (ix2 r j)
      = v15 (ix2 r j) + ∑ k : Fin 6400, (if BitVec.ofNat 32 (i 0).val * 1000#32 + BitVec.ofNat 32 r.val = v7 (ix2 0 k) then (1 : EReal) else 0) * v16 (ix2 k j) := by
  unfold k5_pay2
  simp only [shapeCast_self]
  rw [addf_apply]
  congr 1
  simp only [matmul]
  rw [Ideal.matmul_constant_zero_apply]
  rw [← Equiv.sum_comp (contrEquiv1 D5 6400 D5_contr_rank D5_contr_size).symm]
  refine Finset.sum_congr rfl fun k _ => ?_
  congr 1
  · rw [show dot_S1000x6400_S6400x64_S1000x64_1_0_0_1_n_n.lhsIdx (ix2 r j) ((contrEquiv1 D5 6400 D5_contr_rank D5_contr_size).symm k) = ix2 r k from D5_lhsIdx_eq r j k]
    have hB : broadcastTo S1000x6400 v7 broadcasts_S1x6400_S1000x6400 (ix2 r k) = v7 (ix2 0 k) :=
      broadcastTo_apply v7 _ (ix2 r k) (ix2 0 k) (by intro a; match a with | ⟨0, _⟩ => rfl | ⟨1, _⟩ => rfl)
    have hi : iota Kind.tc S1000x6400 32 [0] iota_S1000x6400_d0_w32 (ix2 r k) = BitVec.ofNat 32 r.val :=
      iota_single_apply _ _ _ _ _ _
    show (FloatOps.sitofp (F := Ideal) .f32 ((IntOp.cmpi .eq (IntOp.addi (Scalar.muli (BitVec.ofNat 32 (i 0).val) 1000#32) (iota Kind.tc S1000x6400 32 [0] iota_S1000x6400_d0_w32 (ix2 r k))) (broadcastTo S1000x6400 v7 broadcasts_S1x6400_S1000x6400 (ix2 r k))).setWidth 32) : EReal) = _
    rw [hB, hi, onehot_word]
    rfl
  · rw [show dot_S1000x6400_S6400x64_S1000x64_1_0_0_1_n_n.rhsIdx (ix2 r j) ((contrEquiv1 D5 6400 D5_contr_rank D5_contr_size).symm k) = ix2 k j from D5_rhsIdx_eq r j k]

theorem pay3_apply (v26 : Vec Ideal S1000x64 .f32) (v27 : Vec Ideal S1x64 .f32) (r : Fin 1000) (j : Fin 64) :
    (k5_pay3 v26 v27 : S1000x64.Idx → EReal) (ix2 r j) = Cert.Gnn.lrelu (v26 (ix2 r j) + v27 (ix2 0 j)) := by
  unfold k5_pay3
  simp only [shapeCast_self]
  have hB : broadcastTo S1000x64 v27 broadcasts_S1x64_S1000x64 (ix2 r j) = v27 (ix2 0 j) :=
    broadcastTo_apply v27 _ (ix2 r j) (ix2 0 j) (by
      intro a
      match a with
      | ⟨0, _⟩ => rfl
      | ⟨1, _⟩ => first | rfl | (have := j.isLt; show (j : ℕ) = 0; omega))
  rw [select_apply, cmpf_apply, mulf_apply, addf_apply, broadcast_apply, broadcast_apply, hB]
  unfold Cert.Gnn.lrelu Cert.Gnn.slope
  rw [Ideal.cmpf_def]
  show Scalar.select (Ideal.cmp .oge _ (Ideal.ofBits .f32 0x00000000#32)) _ _ = _
  rw [Ideal.ofBits_zero_f32]
  rfl

section AnyF
variable {F : FTy → Type} [FloatOps F]
variable {c : Dev nD} {i : grid5.Coords} {arg2 : Memref sig .tc .vmem S1x6400 .i32} {harg2 : arg2.IsWhole} {arg3 : Memref sig .tc .vmem S6400x64 .bf16} {harg3 : arg3.IsWhole} {arg4 : Memref sig .tc .vmem S1x64 .f32} {harg4 : arg4.IsWhole} {arg5 : Memref sig .tc .vmem S1000x64 .f32} {harg5 : arg5.IsWhole} {arg6 : Memref sig .tc .vmem S1000x64 .f32} {harg6 : arg6.IsWhole}
  {x0 : Vec F S1x6400 .i32} {x1 : Vec F S6400x64 .bf16} {x2 : Vec F S1x64 .f32} {xs0 : Vec F S1000x64 .f32}

theorem hz5 : (![0, 0] : Fin 2 → Nat) = fun _ => 0 := funext fun a => by fin_cases a <;> rfl

-- each case's pieces are whole-block stores, so their canonical contents are the last payload, read off the run
theorem soutA_eq5 {hc0 : cond5_0 i} {hc1 : ¬cond5_1 i} :
    View.canon (kernelRun5_A c i arg2 harg2 arg3 harg3 arg4 harg4 arg5 harg5 arg6 harg6 hc0 hc1 x0 x1 x2).2.1 = k5_pay2 i x0 (k5_pay1 (F := F)) x1 := by
  unfold kernelRun5_A
  dsimp only
  try sl_unfold_words
  rw [View.canon_cons_unit_zero hz5]
  rw [View.readCov_unit_zero (S := S1000x64) _ hz5]
  simp only [View.readAt_eq_ld, harg2.read_unread, harg3.read_unread, harg4.read_unread, harg6.read_unread, View.ld_unit_zero (S := S1x6400) hz5, View.ld_unit_zero (S := S6400x64) hz5, View.ld_unit_zero (S := S1000x64) hz5, View.ld_unit_zero (S := S1x64) hz5]

theorem soutB_eq5 {hc0 : ¬cond5_0 i} {hc1 : ¬cond5_1 i} :
    View.canon (kernelRun5_B c i arg2 harg2 arg3 harg3 arg4 harg4 arg5 harg5 arg6 harg6 hc0 hc1 x0 x1 x2 xs0).2.1 = k5_pay2 i x0 xs0 x1 := by
  unfold kernelRun5_B
  dsimp only
  try sl_unfold_words
  rw [View.canon_unit_zero hz5]
  simp only [View.readAt_eq_ld, harg2.read_unread, harg3.read_unread, harg6.read_unread, View.ld_unit_zero (S := S1x6400) hz5, View.ld_unit_zero (S := S6400x64) hz5, View.ld_unit_zero (S := S1000x64) hz5]

theorem soutC_eq5 {hc0 : ¬cond5_0 i} {hc1 : cond5_1 i} :
    View.canon (kernelRun5_C c i arg2 harg2 arg3 harg3 arg4 harg4 arg5 harg5 arg6 harg6 hc0 hc1 x0 x1 x2 xs0).2.1 = k5_pay2 i x0 xs0 x1 := by
  unfold kernelRun5_C
  dsimp only
  try sl_unfold_words
  rw [View.canon_unit_zero hz5]
  simp only [View.readAt_eq_ld, harg2.read_unread, harg3.read_unread, harg6.read_unread, View.ld_unit_zero (S := S1x6400) hz5, View.ld_unit_zero (S := S6400x64) hz5, View.ld_unit_zero (S := S1000x64) hz5]

theorem outC_eq5 {hc0 : ¬cond5_0 i} {hc1 : cond5_1 i} :
    View.canon (kernelRun5_C c i arg2 harg2 arg3 harg3 arg4 harg4 arg5 harg5 arg6 harg6 hc0 hc1 x0 x1 x2 xs0).1 = k5_pay3 (k5_pay2 i x0 xs0 x1) x2 := by
  unfold kernelRun5_C
  dsimp only
  try sl_unfold_words
  rw [View.canon_unit_zero hz5]
  rw [View.readCov_unit_zero (S := S1000x64) _ hz5]
  simp only [View.readAt_eq_ld, harg2.read_unread, harg3.read_unread, harg4.read_unread, harg6.read_unread, View.ld_unit_zero (S := S1x6400) hz5, View.ld_unit_zero (S := S6400x64) hz5, View.ld_unit_zero (S := S1000x64) hz5, View.ld_unit_zero (S := S1x64) hz5]

end AnyF

theorem coords5_eq : ∀ t : Fin cfg5.N, ((grid5.coords t) 0).val = t.val / 125 ∧ ((grid5.coords t) 1).val = t.val % 125 :=
  (by decide +kernel : ∀ t : Fin grid5.N, ((grid5.coords t) 0).val = t.val / 125 ∧ ((grid5.coords t) 1).val = t.val % 125)
theorem idx5_0 : ∀ t : Fin cfg5.N, win5_0.index t 0 = 0 ∧ win5_0.index t 1 = t.val % 125 :=
  (by decide +kernel : ∀ t : Fin grid5.N, win5_0.index t 0 = 0 ∧ win5_0.index t 1 = t.val % 125)
theorem idx5_1 : ∀ t : Fin cfg5.N, win5_1.index t 0 = t.val % 125 ∧ win5_1.index t 1 = 0 :=
  (by decide +kernel : ∀ t : Fin grid5.N, win5_1.index t 0 = t.val % 125 ∧ win5_1.index t 1 = 0)
theorem idx5_2 : ∀ t : Fin cfg5.N, win5_2.index t 0 = 0 ∧ win5_2.index t 1 = 0 :=
  (by decide +kernel : ∀ t : Fin grid5.N, win5_2.index t 0 = 0 ∧ win5_2.index t 1 = 0)
theorem idx5_3 : ∀ t : Fin cfg5.N, win5_3.index t 0 = t.val / 125 ∧ win5_3.index t 1 = 0 :=
  (by decide +kernel : ∀ t : Fin grid5.N, win5_3.index t 0 = t.val / 125 ∧ win5_3.index t 1 = 0)

section Blocks
variable {F : FTy → Type} [FloatOps F]
variable (V : (c : Dev nD) → (b : Ref sig .tc) → Buf (Elt F) ((c : Thread nD τ).loc b))

theorem iblk5_0_apply (c : Dev nD) (t : Fin cfg5.N) (k : Fin 6400) (e : Fin 800000) (he : e.val = (t.val % 125) * 6400 + k.val) :
    (iblk5 V c 0 t : Vec F S1x6400 .i32) (ix2 0 k) = (V c main_v31 : S1x800000.Idx → Elt F .i32) (ix2 0 e) := by
  have hi := idx5_0 t
  unfold iblk5
  rw [View.read_apply]
  show V c main_v31 _ = V c main_v31 _
  congr 1
  funext a
  apply Fin.ext
  match a with
  | ⟨0, _⟩ => show win5_0.index t 0 * 1 + 1 * 0 = 0; rw [hi.1]
  | ⟨1, _⟩ => show win5_0.index t 1 * 6400 + 1 * k.val = e.val; rw [hi.2, he]; omega

theorem iblk5_1_apply (c : Dev nD) (t : Fin cfg5.N) (k : Fin 6400) (j : Fin 64) (e : Fin 800000) (he : e.val = (t.val % 125) * 6400 + k.val) :
    (iblk5 V c 1 t : Vec F S6400x64 .bf16) (ix2 k j) = (V c main_v43 : S800000x64.Idx → Elt F .bf16) (ix2 e j) := by
  have hi := idx5_1 t
  unfold iblk5
  rw [View.read_apply]
  show V c main_v43 _ = V c main_v43 _
  congr 1
  funext a
  apply Fin.ext
  match a with
  | ⟨0, _⟩ => show win5_1.index t 0 * 6400 + 1 * k.val = e.val; rw [hi.1, he]; omega
  | ⟨1, _⟩ => show win5_1.index t 1 * 64 + 1 * j.val = j.val; rw [hi.2]; omega

theorem iblk5_2_apply (c : Dev nD) (t : Fin cfg5.N) (j : Fin 64) :
    (iblk5 V c 2 t : Vec F S1x64 .f32) (ix2 0 j) = (V c main_v30 : S1x64.Idx → Elt F .f32) (ix2 0 j) := by
  have hi := idx5_2 t
  unfold iblk5
  rw [View.read_apply]
  show V c main_v30 _ = V c main_v30 _
  congr 1
  funext a
  apply Fin.ext
  match a with
  | ⟨0, _⟩ => show win5_2.index t 0 * 1 + 1 * 0 = 0; rw [hi.1]
  | ⟨1, _⟩ => show win5_2.index t 1 * 64 + 1 * j.val = j.val; rw [hi.2]; omega

end Blocks

section Steps
variable {F : FTy → Type} [FloatOps F]
variable (V : (c : Dev nD) → (b : Ref sig .tc) → Buf (Elt F) ((c : Thread nD τ).loc b))

theorem outsAt5_congr (c : Dev nD) {a b : ℕ} (h : a = b) (ha : a < cfg5.N) (hb : b < cfg5.N) :
    outsAt5 V c a ha = outsAt5 V c b hb := by subst h; rfl

theorem sc_first5 (c : Dev nD) (n : ℕ) (hn : n < cfg5.N) (h0 : n % 125 = 0) :
    (outsAt5 V c n hn).2 = k5_pay2 (grid5.coords ⟨n, hn⟩) (iblk5 V c 0 ⟨n, hn⟩) (k5_pay1 (F := F)) (iblk5 V c 1 ⟨n, hn⟩) := by
  rw [show outsAt5 V c n hn = _ from outsAt5_A V c ⟨n, hn⟩ h0 (by show ¬n % 125 = 124; omega)]
  dsimp only
  rw [soutA_eq5]

theorem sc_step5 (c : Dev nD) (n : ℕ) (hn : n + 1 < cfg5.N) (h0 : ¬(n + 1) % 125 = 0) :
    (outsAt5 V c (n + 1) hn).2
      = k5_pay2 (grid5.coords ⟨n + 1, hn⟩) (iblk5 V c 0 ⟨n + 1, hn⟩) (outsAt5 V c n (Nat.lt_of_succ_lt hn)).2 (iblk5 V c 1 ⟨n + 1, hn⟩) := by
  by_cases h1 : (n + 1) % 125 = 124
  · rw [show outsAt5 V c (n + 1) hn = _ from outsAt5_C V c ⟨n + 1, hn⟩ h0 h1]
    dsimp only
    rw [soutC_eq5]; try rfl
  · rw [show outsAt5 V c (n + 1) hn = _ from outsAt5_B V c ⟨n + 1, hn⟩ h0 h1]
    dsimp only
    rw [soutB_eq5]; try rfl

theorem out_last5 (c : Dev nD) (n : ℕ) (hn : n < cfg5.N) (h1 : n % 125 = 124) :
    (outsAt5 V c n hn).1 = k5_pay3 (outsAt5 V c n hn).2 (iblk5 V c 2 ⟨n, hn⟩) := by
  rw [show outsAt5 V c n hn = _ from outsAt5_C V c ⟨n, hn⟩ (by show ¬n % 125 = 0; omega) h1]
  dsimp only
  rw [outC_eq5, soutC_eq5]

end Steps

section AtIdeal
variable (V : (c : Dev nD) → (b : Ref sig .tc) → Buf (Elt Ideal) ((c : Thread nD τ).loc b))

theorem pay1_apply (r : Fin 1000) (j : Fin 64) : (k5_pay1 (F := Ideal) : S1000x64.Idx → EReal) (ix2 r j) = 0 := by
  unfold k5_pay1
  simp only [shapeCast_self]
  show Ideal.ofBits .f32 0x00000000#32 = 0
  exact Ideal.ofBits_zero_f32

def term5 (c : Dev nD) (n0 : Fin 50) (r : Fin 1000) (j : Fin 64) (q : ℕ) : EReal :=
  if h : q < 125 then
    ∑ k : Fin 6400, (if (V c main_v31 (ix2 0 (Cert.Gnn.blk ⟨q, h⟩ k)) : BitVec 32).toInt = ((n0.val * 1000 + r.val : ℕ) : ℤ) then (1 : EReal) else 0)
      * (V c main_v43 (ix2 (Cert.Gnn.blk ⟨q, h⟩ k) j) : EReal)
  else 0

theorem pay2_at5 (c : Dev nD) (t : Fin cfg5.N) (n0 : Fin 50) (q : ℕ) (hq : q < 125) (ht : t.val = n0.val * 125 + q)
    (xs : Vec Ideal S1000x64 .f32) (r : Fin 1000) (j : Fin 64) :
    (k5_pay2 (grid5.coords t) (iblk5 V c 0 t) xs (iblk5 V c 1 t) : S1000x64.Idx → EReal) (ix2 r j) = xs (ix2 r j) + term5 V c n0 r j q := by
  have hmod : t.val % 125 = q := by omega
  have hdiv : t.val / 125 = n0.val := by omega
  rw [pay2_apply]
  congr 1
  unfold term5
  rw [dif_pos hq]
  refine Finset.sum_congr rfl fun k _ => ?_
  have he : (Cert.Gnn.blk ⟨q, hq⟩ k).val = (t.val % 125) * 6400 + k.val := by rw [hmod]; rfl
  rw [iblk5_0_apply V c t k _ he, iblk5_1_apply V c t k j _ he, (coords5_eq t).1, hdiv]
  simp only [Cert.Gnn.word_eq_iff n0.isLt r.isLt]

theorem acc5 (c : Dev nD) (n0 : Fin 50) (r : Fin 1000) (j : Fin 64) :
    ∀ (q : ℕ) (hq : q < 125) (hb : n0.val * 125 + q < cfg5.N),
      ((outsAt5 V c (n0.val * 125 + q) hb).2 : S1000x64.Idx → EReal) (ix2 r j) = Cert.Gnn.acc (term5 V c n0 r j) q
  | 0, hq, hb => by
    rw [sc_first5 V c _ hb (by omega), pay2_at5 V c _ n0 0 hq rfl, pay1_apply, Cert.Gnn.acc_zero]
  | q + 1, hq, hb => by
    rw [show outsAt5 V c (n0.val * 125 + (q + 1)) hb = outsAt5 V c (n0.val * 125 + q + 1) hb from rfl,
      sc_step5 V c (n0.val * 125 + q) hb (by omega), pay2_at5 V c _ n0 (q + 1) hq rfl, Cert.Gnn.acc_succ]
    congr 1
    exact acc5 c n0 r j q (by omega) _

theorem out5_at (c : Dev nD) (n0 : Fin 50) (hb : n0.val * 125 + 124 < cfg5.N) (r : Fin 1000) (j : Fin 64) (hlt : n0.val * 1000 + r.val < 50000) :
    ((outsAt5 V c (n0.val * 125 + 124) hb).1 : S1000x64.Idx → EReal) (ix2 r j)
      = Cert.Gnn.lrelu (Cert.Gnn.segsum (fun e j => V c main_v43 (ix2 e j)) (fun e => V c main_v31 (ix2 0 e)) ⟨n0.val * 1000 + r.val, hlt⟩ j + V c main_v30 (ix2 0 j)) := by
  rw [out_last5 V c _ hb (by omega), pay3_apply, acc5 V c n0 r j 124 (by omega) hb, iblk5_2_apply]
  refine congrArg Cert.Gnn.lrelu (congrArg (· + _) ?_)
  unfold Cert.Gnn.segsum
  exact Cert.Gnn.acc_blocked (term5 V c n0 r j) (fun e => (V c main_v43 (ix2 e j) : EReal))
    (fun e => (V c main_v31 (ix2 0 e) : BitVec 32).toInt = ((n0.val * 1000 + r.val : ℕ) : ℤ)) (fun q => by unfold term5; rw [dif_pos q.isLt])

end AtIdeal

section Final
variable (V : (c : Dev nD) → (b : Ref sig .tc) → Buf (Elt Ideal) ((c : Thread nD τ).loc b))

def G5 (c : Dev nD) : S50000x64.Idx → EReal := fun i =>
  Cert.Gnn.lrelu (Cert.Gnn.segsum (fun e j => V c main_v43 (ix2 e j)) (fun e => V c main_v31 (ix2 0 e)) (i 0) (i 1) + V c main_v30 (ix2 0 (i 1)))

theorem G5_ix2 (c : Dev nD) (n : Fin 50000) (j : Fin 64) :
    G5 V c (ix2 n j)
      = Cert.Gnn.lrelu (Cert.Gnn.segsum (fun e j => V c main_v43 (ix2 e j)) (fun e => V c main_v31 (ix2 0 e)) n j + V c main_v30 (ix2 0 j)) := rfl

theorem hG5 (c : Dev nD) (t : Fin cfg5.N) (hf : (cfg5.win 3).flush t = true) :
    (dat5 V c).flushed 3 t = ((cfg5.win 3).blk t).view.read (Elt Ideal) (G5 V c) := by
  have h1 : t.val % 125 = 124 := (flush5_3 t).mp hf
  have hN : cfg5.N = 6250 := N_5
  have htl := t.isLt
  have hb : t.val / 125 * 125 + 124 < cfg5.N := by omega
  funext y
  have hy0 : (y 0).val < 1000 := (y 0).isLt
  have hy1 : (y 1).val < 64 := (y 1).isLt
  rw [View.read_apply]
  show (dat5 V c).after 3 t ((cfg5.win 3).xinj (grid5.coords t) y) = _
  rw [after5_3]
  have e1 : (cfg5.win 3).xinj (grid5.coords t) y = ix2 (⟨(y 0).val, hy0⟩ : Fin 1000) (⟨(y 1).val, hy1⟩ : Fin 64) := by
    funext a; apply Fin.ext
    match a with
    | ⟨0, _⟩ => rfl
    | ⟨1, _⟩ => rfl
  have e2 : ((cfg5.win 3).blk t).view.emb y
      = ix2 (⟨t.val / 125 * 1000 + (y 0).val, by omega⟩ : Fin 50000) (⟨(y 1).val, hy1⟩ : Fin 64) := by
    funext a; apply Fin.ext
    match a with
    | ⟨0, _⟩ => show win5_3.index t 0 * 1000 + 1 * (y 0).val = t.val / 125 * 1000 + (y 0).val; rw [(idx5_3 t).1]; omega
    | ⟨1, _⟩ => show win5_3.index t 1 * 64 + 1 * (y 1).val = (y 1).val; rw [(idx5_3 t).2]; omega
  have e3 : outsAt5 V c t.val t.isLt = outsAt5 V c (t.val / 125 * 125 + 124) hb :=
    outsAt5_congr V c (show t.val = t.val / 125 * 125 + 124 by omega) t.isLt hb
  refine Eq.trans (congrArg (outsAt5 V c t.val t.isLt).1 e1) ?_
  refine Eq.trans ?_ (cast_eq _ _).symm
  refine Eq.trans ?_ (congrArg (G5 V c) e2.symm)
  refine Eq.trans (congrFun (congrArg Prod.fst e3) _) ?_
  refine Eq.trans ?_ (G5_ix2 V c _ _).symm
  exact out5_at V c ⟨t.val / 125, by omega⟩ hb ⟨(y 0).val, hy0⟩ ⟨(y 1).val, hy1⟩ (by show t.val / 125 * 1000 + (y 0).val < 50000; omega)

end Final

end Val5

section Value
variable (V : (c : Dev nD) → (b : Ref sig .tc) → Buf (Elt Ideal) ((c : Thread nD τ).loc b))

open Val5 in
theorem val5 (c : Dev nD) (n : Fin 50000) (j : Fin 64) :
    ((dat5 (F := Ideal) V c).arrAt 3 cfg5.N : S50000x64.Idx → EReal) (ValueIdx.ix2 n j)
      = Cert.Gnn.lrelu (Cert.Gnn.segsum (fun e j => V c main_v43 (ValueIdx.ix2 e j)) (fun e => V c main_v31 (ValueIdx.ix2 0 e)) n j + V c main_v30 (ValueIdx.ix2 0 j)) := by
  have hN : cfg5.N = 6250 := N_5
  have hnl := n.isLt
  have hb : n.val / 1000 * 125 + 124 < cfg5.N := by omega
  have hf : (cfg5.win 3).flush ⟨n.val / 1000 * 125 + 124, hb⟩ = true :=
    (flush5_3 ⟨n.val / 1000 * 125 + 124, hb⟩).mpr (by show (n.val / 1000 * 125 + 124) % 125 = 124; omega)
  have hemb : ((cfg5.win 3).blk ⟨n.val / 1000 * 125 + 124, hb⟩).view.emb (ix2 (⟨n.val % 1000, by omega⟩ : Fin 1000) j) = ix2 n j := by
    funext a; apply Fin.ext
    match a with
    | ⟨0, _⟩ =>
      show win5_3.index ⟨n.val / 1000 * 125 + 124, hb⟩ 0 * 1000 + 1 * (n.val % 1000) = n.val
      rw [(idx5_3 _).1]; show (n.val / 1000 * 125 + 124) / 125 * 1000 + 1 * (n.val % 1000) = n.val; omega
    | ⟨1, _⟩ =>
      show win5_3.index ⟨n.val / 1000 * 125 + 124, hb⟩ 1 * 64 + 1 * j.val = j.val
      rw [(idx5_3 _).2]; omega
  have hmem : (ix2 n j : S50000x64.Idx) ∈ ((cfg5.win 3).blk ⟨n.val / 1000 * 125 + 124, hb⟩).view.set :=
    hemb ▸ ((cfg5.win 3).blk ⟨n.val / 1000 * 125 + 124, hb⟩).view.emb_mem_set _
  exact ((dat5 V c).arrAt_apply_of_mem 3 (G5 V c) (hG5 V c) cfg5.N ⟨n.val / 1000 * 125 + 124, hb⟩ _ (Fin.is_lt _) hf hmem).trans rfl

end Value

end Cert.KernelIdeal.Hand

end
-- ==== Proof.KI.Val6.lean ====
/- What region 6's output array holds after the region, index by index, at the extended reals: row `n`, column `j` is the sum over `k` of x[n, k] * w[k, j], where x and w are the region's x array and weight as it finds them. -/
import proofs.«406692_j3745211482886_1_alg».proof.Proof.KI.R6
import proofs.«406692_j3745211482886_1_alg».proof.Proof.Spec
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

-- The stored block at (r, j): the product into the zero accumulator reads the operands at (r, k) and (k, j), k the contraction's one coordinate.
theorem pay6_apply (x0 : Vec Ideal S1000x64 .bf16) (x1 : Vec Ideal S64x1 .bf16) (r : Fin 1000) (j : Fin 1) :
    k6_pay1 x0 x1 (ix2 r j) = ∑ k : Fin 64, x0 (ix2 r k) * x1 (ix2 k j) := by
  unfold k6_pay1
  simp only [shapeCast_self, matmul]
  rw [Ideal.matmul_constant_zero_apply, ← Equiv.sum_comp (contrEquiv1 dot_S1000x64_S64x1_S1000x1_1_0_0_1_n_n 64 rfl rfl).symm]
  refine Finset.sum_congr rfl fun k _ => ?_
  have ck := contrEquiv1_symm_val dot_S1000x64_S64x1_S1000x1_1_0_0_1_n_n 64 rfl rfl k
  rw [show dot_S1000x64_S64x1_S1000x1_1_0_0_1_n_n.lhsIdx (ix2 r j) ((contrEquiv1 dot_S1000x64_S64x1_S1000x1_1_0_0_1_n_n 64 rfl rfl).symm k) = ix2 r k from
      Shape.idx_ext₂ rfl ((dot_S1000x64_S64x1_S1000x1_1_0_0_1_n_n.lhsIdx_val_of_single rfl _ _).trans ck),
    show dot_S1000x64_S64x1_S1000x1_1_0_0_1_n_n.rhsIdx (ix2 r j) ((contrEquiv1 dot_S1000x64_S64x1_S1000x1_1_0_0_1_n_n 64 rfl rfl).symm k) = ix2 k j from
      Shape.idx_ext₂ ((dot_S1000x64_S64x1_S1000x1_1_0_0_1_n_n.rhsIdx_val_of_single rfl _ _).trans ck) rfl]

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_3.index t (0 : Fin 2) = t.val ∧ win6_3.index t (1 : Fin 2) = 0 :=
  (by decide +kernel : ∀ t : Fin grid6.N, _)

-- Each operand block read at an index is its array read at the index's place: row `r` of block `t` is row `1000 t + r`.
theorem iblk6_0_apply (c : Dev nD) (t : Fin cfg6.N) (r : Fin 1000) (k : Fin 64) (n : Fin 50000) (hn : n.val = 1000 * t.val + r.val) :
    (iblk6 V c 0 t : Vec Ideal S1000x64 .bf16) (ix2 r k) = V c main_v47 (ix2 n k) := by
  obtain ⟨e0, e1, -⟩ := idx_facts6 t
  show V c main_v47 (((cfg6.win 0).blk t).view.emb (ix2 r k)) = V c main_v47 _
  exact congrArg _ (Shape.idx_ext₂ (by show win6_0.index t (0 : Fin 2) * 1000 + 1 * r.val = n.val; omega)
    (by show win6_0.index t (1 : Fin 2) * 64 + 1 * k.val = k.val; omega))
theorem iblk6_1_apply (c : Dev nD) (t : Fin cfg6.N) (k : Fin 64) (j : Fin 1) :
    (iblk6 V c 1 t : Vec Ideal S64x1 .bf16) (ix2 k j) = V c main_v48 (ix2 k j) := by
  obtain ⟨-, -, e2, e3, -⟩ := idx_facts6 t
  show V c main_v48 (((cfg6.win 1).blk t).view.emb (ix2 k j)) = V c main_v48 _
  exact congrArg _ (Shape.idx_ext₂ (by show win6_1.index t (0 : Fin 2) * 64 + 1 * k.val = k.val; omega)
    (by show win6_1.index t (1 : Fin 2) * 1 + 1 * j.val = j.val; omega))

def G6 (a0 : S50000x64.Idx → EReal) (a1 : S64x1.Idx → EReal) : S50000x1.Idx → EReal :=
  fun i => ∑ k : Fin 64, a0 (ix2 (n0 := 50000) (i 0) k) * a1 (ix2 (n1 := 1) k (i 1))

theorem G6_apply (a0 : S50000x64.Idx → EReal) (a1 : S64x1.Idx → EReal) (n : Fin 50000) (j : Fin 1) :
    G6 a0 a1 (ix2 n j) = ∑ k : Fin 64, a0 (ix2 n k) * a1 (ix2 k j) := rfl

theorem flushed6_eq (c : Dev nD) (t : Fin cfg6.N) :
    (dat6 (F := Ideal) V c).flushed 3 t = ((cfg6.win 3).blk t).view.read (Elt Ideal) (G6 (V c main_v47) (V c main_v48)) := by
  show (cfg6.win 3).cut (grid6.coords t) ((dat6 (F := Ideal) V c).after 3 t) = _
  dsimp only [dat6]
  unfold out6_3
  rw [View.canon_unit_zero hz6]
  simp only [View.ld_unit_zero (S := S1000x64) hz6, View.ld_unit_zero (S := S64x1) hz6]
  obtain ⟨-, -, -, -, e4, e5⟩ := idx_facts6 t
  funext y
  obtain ⟨r, j, rfl⟩ : ∃ (r : Fin 1000) (j : Fin 1), y = ix2 r j := ⟨y 0, y 1, eq_ix2 y⟩
  have ht : t.val < 50 := lt_of_lt_of_eq t.isLt N_6
  let n : Fin 50000 := ⟨1000 * t.val + r.val, by have := r.isLt; omega⟩
  have hemb : ((cfg6.win 3).blk t).view.emb (ix2 r j) = ix2 n j :=
    Shape.idx_ext₂ (by show win6_3.index t (0 : Fin 2) * 1000 + 1 * r.val = 1000 * t.val + r.val; omega)
      (by show win6_3.index t (1 : Fin 2) * 1 + 1 * j.val = j.val; omega)
  show k6_pay1 (iblk6 V c 0 t) (iblk6 V c 1 t) (ix2 r j) = G6 (V c main_v47) (V c main_v48) (((cfg6.win 3).blk t).view.emb (ix2 r j))
  rw [hemb, pay6_apply, G6_apply]
  exact Finset.sum_congr rfl fun k _ => by rw [iblk6_0_apply V c t r k n rfl, iblk6_1_apply V c t k j]

-- Row `n` of the output array lies in the block of point `n / 1000`.
theorem cover6 (i : S50000x1.Idx) : ∃ t : Fin cfg6.N, (cfg6.win 3).flush t = true ∧ i ∈ ((cfg6.win 3).blk t).view.set := by
  have hi0 : (i 0).val < 50000 := idx2_lt0 i
  have hi1 : (i 1).val < 1 := idx2_lt1 i
  let t : Fin cfg6.N := ⟨(i 0).val / 1000, by rw [show cfg6.N = 50 from N_6]; omega⟩
  obtain ⟨-, -, -, -, e4, e5⟩ := idx_facts6 t
  have e4' : win6_3.index t (0 : Fin 2) = (i 0).val / 1000 := e4
  refine ⟨t, flush6_3 t, ?_⟩
  show i ∈ ((View.whole main_v50).slice (win6_3.rect t)).set
  rw [View.set_slice_whole, Rect.mem_set_unit]
  intro a
  match a with
  | ⟨0, _⟩ => show win6_3.index t (0 : Fin 2) * 1000 ≤ (i 0).val ∧ (i 0).val < win6_3.index t (0 : Fin 2) * 1000 + 1000; omega
  | ⟨1, _⟩ => show win6_3.index t (1 : Fin 2) * 1 ≤ (i 1).val ∧ (i 1).val < win6_3.index t (1 : Fin 2) * 1 + 1; omega

theorem val6 (c : Dev nD) (n : Fin 50000) (j : Fin 1) :
    ((dat6 (F := Ideal) V c).arrAt 3 cfg6.N : S50000x1.Idx → EReal) (ValueIdx.ix2 n j)
      = Cert.Gnn.mm (fun n k => V c main_v47 (ValueIdx.ix2 n k)) (fun k j => V c main_v48 (ValueIdx.ix2 k j)) n j :=
  congrFun ((dat6 (F := Ideal) V c).arrAt_eq_of_cover 3 (G6 (V c main_v47) (V c main_v48)) (fun t _ => flushed6_eq V c t) cover6) (ix2 n j)

end Cert.KernelIdeal.Hand

end
-- ==== Proof.KI.Val7.lean ====
/- What region 7's output array holds after the region, index by index, at the extended reals: the leaky rectifier of the segment sum plus the bias. -/
import proofs.«406692_j3745211482886_1_alg».proof.Proof.KI.R7
import proofs.«406692_j3745211482886_1_alg».proof.Proof.Spec
import proofs.«406692_j3745211482886_1_alg».proof.Proof.Algebra
import Idealize.ShloMosaic.PureOps.Ideal
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

namespace Val7

abbrev D7 := dot_S1000x6400_S6400x1_S1000x1_1_0_0_1_n_n

theorem D7_contr_rank : D7.contr.rank = 1 := rfl
theorem D7_contr_size : D7.contr.size ⟨0, by decide⟩ = 6400 := rfl

theorem onehot_word (a b : BitVec 32) :
    (FloatOps.sitofp (F := Ideal) .f32 ((IntOp.cmpi .eq a b).setWidth 32) : EReal) = if a = b then (1 : EReal) else 0 := by
  show (((BitVec.setWidth 32 (IntOp.cmpi .eq a b)).toInt : ℝ) : EReal) = _
  by_cases h : a = b
  · rw [if_pos h]; subst h
    have : IntOp.cmpi .eq a a = 1#1 := by simp [IntOp.cmpi]
    rw [this]
    norm_num
  · rw [if_neg h]
    have : IntOp.cmpi .eq a b = 0#1 := by
      have hb : (a == b) = false := beq_eq_false_iff_ne.mpr h
      simp [IntOp.cmpi, hb]
    rw [this]
    norm_num

theorem D7_lhsIdx_eq (r : Fin 1000) (j : Fin 1) (k : Fin 6400) :
    D7.lhsIdx (ix2 r j) ((contrEquiv1 D7 6400 D7_contr_rank D7_contr_size).symm k) = ix2 r k := by
  funext a; apply Fin.ext
  match a with
  | ⟨0, _⟩ => rfl
  | ⟨1, _⟩ => exact contrEquiv1_symm_val D7 6400 D7_contr_rank D7_contr_size k

theorem D7_rhsIdx_eq (r : Fin 1000) (j : Fin 1) (k : Fin 6400) :
    D7.rhsIdx (ix2 r j) ((contrEquiv1 D7 6400 D7_contr_rank D7_contr_size).symm k) = ix2 k j := by
  funext a; apply Fin.ext
  match a with
  | ⟨0, _⟩ => exact contrEquiv1_symm_val D7 6400 D7_contr_rank D7_contr_size k
  | ⟨1, _⟩ => rfl

theorem pay2_apply (i : grid7.Coords) (v7 : Vec Ideal S1x6400 .i32) (v15 : Vec Ideal S1000x1 .f32) (v16 : Vec Ideal S6400x1 .bf16)
    (r : Fin 1000) (j : Fin 1) :
    (k7_pay2 i v7 v15 v16 : S1000x1.Idx → EReal) (ix2 r j)
      = v15 (ix2 r j) + ∑ k : Fin 6400, (if BitVec.ofNat 32 (i 0).val * 1000#32 + BitVec.ofNat 32 r.val = v7 (ix2 0 k) then (1 : EReal) else 0) * v16 (ix2 k j) := by
  unfold k7_pay2
  simp only [shapeCast_self]
  rw [addf_apply]
  congr 1
  simp only [matmul]
  rw [Ideal.matmul_constant_zero_apply]
  rw [← Equiv.sum_comp (contrEquiv1 D7 6400 D7_contr_rank D7_contr_size).symm]
  refine Finset.sum_congr rfl fun k _ => ?_
  congr 1
  · rw [show dot_S1000x6400_S6400x1_S1000x1_1_0_0_1_n_n.lhsIdx (ix2 r j) ((contrEquiv1 D7 6400 D7_contr_rank D7_contr_size).symm k) = ix2 r k from D7_lhsIdx_eq r j k]
    have hB : broadcastTo S1000x6400 v7 broadcasts_S1x6400_S1000x6400 (ix2 r k) = v7 (ix2 0 k) :=
      broadcastTo_apply v7 _ (ix2 r k) (ix2 0 k) (by intro a; match a with | ⟨0, _⟩ => rfl | ⟨1, _⟩ => rfl)
    have hi : iota Kind.tc S1000x6400 32 [0] iota_S1000x6400_d0_w32 (ix2 r k) = BitVec.ofNat 32 r.val :=
      iota_single_apply _ _ _ _ _ _
    show (FloatOps.sitofp (F := Ideal) .f32 ((IntOp.cmpi .eq (IntOp.addi (Scalar.muli (BitVec.ofNat 32 (i 0).val) 1000#32) (iota Kind.tc S1000x6400 32 [0] iota_S1000x6400_d0_w32 (ix2 r k))) (broadcastTo S1000x6400 v7 broadcasts_S1x6400_S1000x6400 (ix2 r k))).setWidth 32) : EReal) = _
    rw [hB, hi, onehot_word]
    rfl
  · rw [show dot_S1000x6400_S6400x1_S1000x1_1_0_0_1_n_n.rhsIdx (ix2 r j) ((contrEquiv1 D7 6400 D7_contr_rank D7_contr_size).symm k) = ix2 k j from D7_rhsIdx_eq r j k]

theorem pay3_apply (v26 : Vec Ideal S1000x1 .f32) (v27 : Vec Ideal S1x1 .f32) (r : Fin 1000) (j : Fin 1) :
    (k7_pay3 v26 v27 : S1000x1.Idx → EReal) (ix2 r j) = Cert.Gnn.lrelu (v26 (ix2 r j) + v27 (ix2 0 j)) := by
  unfold k7_pay3
  simp only [shapeCast_self]
  have hB : broadcastTo S1000x1 v27 broadcasts_S1x1_S1000x1 (ix2 r j) = v27 (ix2 0 j) :=
    broadcastTo_apply v27 _ (ix2 r j) (ix2 0 j) (by
      intro a
      match a with
      | ⟨0, _⟩ => rfl
      | ⟨1, _⟩ => first | rfl | (have := j.isLt; show (j : ℕ) = 0; omega))
  rw [select_apply, cmpf_apply, mulf_apply, addf_apply, broadcast_apply, broadcast_apply, hB]
  unfold Cert.Gnn.lrelu Cert.Gnn.slope
  rw [Ideal.cmpf_def]
  show Scalar.select (Ideal.cmp .oge _ (Ideal.ofBits .f32 0x00000000#32)) _ _ = _
  rw [Ideal.ofBits_zero_f32]
  rfl

section AnyF
variable {F : FTy → Type} [FloatOps F]
variable {c : Dev nD} {i : grid7.Coords} {arg2 : Memref sig .tc .vmem S1x6400 .i32} {harg2 : arg2.IsWhole} {arg3 : Memref sig .tc .vmem S6400x1 .bf16} {harg3 : arg3.IsWhole} {arg4 : Memref sig .tc .vmem S1x1 .f32} {harg4 : arg4.IsWhole} {arg5 : Memref sig .tc .vmem S1000x1 .f32} {harg5 : arg5.IsWhole} {arg6 : Memref sig .tc .vmem S1000x1 .f32} {harg6 : arg6.IsWhole}
  {x0 : Vec F S1x6400 .i32} {x1 : Vec F S6400x1 .bf16} {x2 : Vec F S1x1 .f32} {xs0 : Vec F S1000x1 .f32}

theorem hz7 : (![0, 0] : Fin 2 → Nat) = fun _ => 0 := funext fun a => by fin_cases a <;> rfl

-- each case's pieces are whole-block stores, so their canonical contents are the last payload, read off the run
theorem soutA_eq7 {hc0 : cond7_0 i} {hc1 : ¬cond7_1 i} :
    View.canon (kernelRun7_A c i arg2 harg2 arg3 harg3 arg4 harg4 arg5 harg5 arg6 harg6 hc0 hc1 x0 x1 x2).2.1 = k7_pay2 i x0 (k7_pay1 (F := F)) x1 := by
  unfold kernelRun7_A
  dsimp only
  try sl_unfold_words
  rw [View.canon_cons_unit_zero hz7]
  rw [View.readCov_unit_zero (S := S1000x1) _ hz7]
  simp only [View.readAt_eq_ld, harg2.read_unread, harg3.read_unread, harg4.read_unread, harg6.read_unread, View.ld_unit_zero (S := S1x6400) hz7, View.ld_unit_zero (S := S6400x1) hz7, View.ld_unit_zero (S := S1000x1) hz7, View.ld_unit_zero (S := S1x1) hz7]

theorem soutB_eq7 {hc0 : ¬cond7_0 i} {hc1 : ¬cond7_1 i} :
    View.canon (kernelRun7_B c i arg2 harg2 arg3 harg3 arg4 harg4 arg5 harg5 arg6 harg6 hc0 hc1 x0 x1 x2 xs0).2.1 = k7_pay2 i x0 xs0 x1 := by
  unfold kernelRun7_B
  dsimp only
  try sl_unfold_words
  rw [View.canon_unit_zero hz7]
  simp only [View.readAt_eq_ld, harg2.read_unread, harg3.read_unread, harg6.read_unread, View.ld_unit_zero (S := S1x6400) hz7, View.ld_unit_zero (S := S6400x1) hz7, View.ld_unit_zero (S := S1000x1) hz7]

theorem soutC_eq7 {hc0 : ¬cond7_0 i} {hc1 : cond7_1 i} :
    View.canon (kernelRun7_C c i arg2 harg2 arg3 harg3 arg4 harg4 arg5 harg5 arg6 harg6 hc0 hc1 x0 x1 x2 xs0).2.1 = k7_pay2 i x0 xs0 x1 := by
  unfold kernelRun7_C
  dsimp only
  try sl_unfold_words
  rw [View.canon_unit_zero hz7]
  simp only [View.readAt_eq_ld, harg2.read_unread, harg3.read_unread, harg6.read_unread, View.ld_unit_zero (S := S1x6400) hz7, View.ld_unit_zero (S := S6400x1) hz7, View.ld_unit_zero (S := S1000x1) hz7]

theorem outC_eq7 {hc0 : ¬cond7_0 i} {hc1 : cond7_1 i} :
    View.canon (kernelRun7_C c i arg2 harg2 arg3 harg3 arg4 harg4 arg5 harg5 arg6 harg6 hc0 hc1 x0 x1 x2 xs0).1 = k7_pay3 (k7_pay2 i x0 xs0 x1) x2 := by
  unfold kernelRun7_C
  dsimp only
  try sl_unfold_words
  rw [View.canon_unit_zero hz7]
  rw [View.readCov_unit_zero (S := S1000x1) _ hz7]
  simp only [View.readAt_eq_ld, harg2.read_unread, harg3.read_unread, harg4.read_unread, harg6.read_unread, View.ld_unit_zero (S := S1x6400) hz7, View.ld_unit_zero (S := S6400x1) hz7, View.ld_unit_zero (S := S1000x1) hz7, View.ld_unit_zero (S := S1x1) hz7]

end AnyF

theorem coords7_eq : ∀ t : Fin cfg7.N, ((grid7.coords t) 0).val = t.val / 125 ∧ ((grid7.coords t) 1).val = t.val % 125 :=
  (by decide +kernel : ∀ t : Fin grid7.N, ((grid7.coords t) 0).val = t.val / 125 ∧ ((grid7.coords t) 1).val = t.val % 125)
theorem idx7_0 : ∀ t : Fin cfg7.N, win7_0.index t 0 = 0 ∧ win7_0.index t 1 = t.val % 125 :=
  (by decide +kernel : ∀ t : Fin grid7.N, win7_0.index t 0 = 0 ∧ win7_0.index t 1 = t.val % 125)
theorem idx7_1 : ∀ t : Fin cfg7.N, win7_1.index t 0 = t.val % 125 ∧ win7_1.index t 1 = 0 :=
  (by decide +kernel : ∀ t : Fin grid7.N, win7_1.index t 0 = t.val % 125 ∧ win7_1.index t 1 = 0)
theorem idx7_2 : ∀ t : Fin cfg7.N, win7_2.index t 0 = 0 ∧ win7_2.index t 1 = 0 :=
  (by decide +kernel : ∀ t : Fin grid7.N, win7_2.index t 0 = 0 ∧ win7_2.index t 1 = 0)
theorem idx7_3 : ∀ t : Fin cfg7.N, win7_3.index t 0 = t.val / 125 ∧ win7_3.index t 1 = 0 :=
  (by decide +kernel : ∀ t : Fin grid7.N, win7_3.index t 0 = t.val / 125 ∧ win7_3.index t 1 = 0)

section Blocks
variable {F : FTy → Type} [FloatOps F]
variable (V : (c : Dev nD) → (b : Ref sig .tc) → Buf (Elt F) ((c : Thread nD τ).loc b))

theorem iblk7_0_apply (c : Dev nD) (t : Fin cfg7.N) (k : Fin 6400) (e : Fin 800000) (he : e.val = (t.val % 125) * 6400 + k.val) :
    (iblk7 V c 0 t : Vec F S1x6400 .i32) (ix2 0 k) = (V c main_v46 : S1x800000.Idx → Elt F .i32) (ix2 0 e) := by
  have hi := idx7_0 t
  unfold iblk7
  rw [View.read_apply]
  show V c main_v46 _ = V c main_v46 _
  congr 1
  funext a
  apply Fin.ext
  match a with
  | ⟨0, _⟩ => show win7_0.index t 0 * 1 + 1 * 0 = 0; rw [hi.1]
  | ⟨1, _⟩ => show win7_0.index t 1 * 6400 + 1 * k.val = e.val; rw [hi.2, he]; omega

theorem iblk7_1_apply (c : Dev nD) (t : Fin cfg7.N) (k : Fin 6400) (j : Fin 1) (e : Fin 800000) (he : e.val = (t.val % 125) * 6400 + k.val) :
    (iblk7 V c 1 t : Vec F S6400x1 .bf16) (ix2 k j) = (V c main_v58 : S800000x1.Idx → Elt F .bf16) (ix2 e j) := by
  have hi := idx7_1 t
  unfold iblk7
  rw [View.read_apply]
  show V c main_v58 _ = V c main_v58 _
  congr 1
  funext a
  apply Fin.ext
  match a with
  | ⟨0, _⟩ => show win7_1.index t 0 * 6400 + 1 * k.val = e.val; rw [hi.1, he]; omega
  | ⟨1, _⟩ => show win7_1.index t 1 * 1 + 1 * j.val = j.val; rw [hi.2]; omega

theorem iblk7_2_apply (c : Dev nD) (t : Fin cfg7.N) (j : Fin 1) :
    (iblk7 V c 2 t : Vec F S1x1 .f32) (ix2 0 j) = (V c main_v45 : S1x1.Idx → Elt F .f32) (ix2 0 j) := by
  have hi := idx7_2 t
  unfold iblk7
  rw [View.read_apply]
  show V c main_v45 _ = V c main_v45 _
  congr 1
  funext a
  apply Fin.ext
  match a with
  | ⟨0, _⟩ => show win7_2.index t 0 * 1 + 1 * 0 = 0; rw [hi.1]
  | ⟨1, _⟩ => show win7_2.index t 1 * 1 + 1 * j.val = j.val; rw [hi.2]; omega

end Blocks

section Steps
variable {F : FTy → Type} [FloatOps F]
variable (V : (c : Dev nD) → (b : Ref sig .tc) → Buf (Elt F) ((c : Thread nD τ).loc b))

theorem outsAt7_congr (c : Dev nD) {a b : ℕ} (h : a = b) (ha : a < cfg7.N) (hb : b < cfg7.N) :
    outsAt7 V c a ha = outsAt7 V c b hb := by subst h; rfl

theorem sc_first7 (c : Dev nD) (n : ℕ) (hn : n < cfg7.N) (h0 : n % 125 = 0) :
    (outsAt7 V c n hn).2 = k7_pay2 (grid7.coords ⟨n, hn⟩) (iblk7 V c 0 ⟨n, hn⟩) (k7_pay1 (F := F)) (iblk7 V c 1 ⟨n, hn⟩) := by
  rw [show outsAt7 V c n hn = _ from outsAt7_A V c ⟨n, hn⟩ h0 (by show ¬n % 125 = 124; omega)]
  dsimp only
  rw [soutA_eq7]

theorem sc_step7 (c : Dev nD) (n : ℕ) (hn : n + 1 < cfg7.N) (h0 : ¬(n + 1) % 125 = 0) :
    (outsAt7 V c (n + 1) hn).2
      = k7_pay2 (grid7.coords ⟨n + 1, hn⟩) (iblk7 V c 0 ⟨n + 1, hn⟩) (outsAt7 V c n (Nat.lt_of_succ_lt hn)).2 (iblk7 V c 1 ⟨n + 1, hn⟩) := by
  by_cases h1 : (n + 1) % 125 = 124
  · rw [show outsAt7 V c (n + 1) hn = _ from outsAt7_C V c ⟨n + 1, hn⟩ h0 h1]
    dsimp only
    rw [soutC_eq7]; try rfl
  · rw [show outsAt7 V c (n + 1) hn = _ from outsAt7_B V c ⟨n + 1, hn⟩ h0 h1]
    dsimp only
    rw [soutB_eq7]; try rfl

theorem out_last7 (c : Dev nD) (n : ℕ) (hn : n < cfg7.N) (h1 : n % 125 = 124) :
    (outsAt7 V c n hn).1 = k7_pay3 (outsAt7 V c n hn).2 (iblk7 V c 2 ⟨n, hn⟩) := by
  rw [show outsAt7 V c n hn = _ from outsAt7_C V c ⟨n, hn⟩ (by show ¬n % 125 = 0; omega) h1]
  dsimp only
  rw [outC_eq7, soutC_eq7]

end Steps

section AtIdeal
variable (V : (c : Dev nD) → (b : Ref sig .tc) → Buf (Elt Ideal) ((c : Thread nD τ).loc b))

theorem pay1_apply (r : Fin 1000) (j : Fin 1) : (k7_pay1 (F := Ideal) : S1000x1.Idx → EReal) (ix2 r j) = 0 := by
  unfold k7_pay1
  simp only [shapeCast_self]
  show Ideal.ofBits .f32 0x00000000#32 = 0
  exact Ideal.ofBits_zero_f32

def term7 (c : Dev nD) (n0 : Fin 50) (r : Fin 1000) (j : Fin 1) (q : ℕ) : EReal :=
  if h : q < 125 then
    ∑ k : Fin 6400, (if (V c main_v46 (ix2 0 (Cert.Gnn.blk ⟨q, h⟩ k)) : BitVec 32).toInt = ((n0.val * 1000 + r.val : ℕ) : ℤ) then (1 : EReal) else 0)
      * (V c main_v58 (ix2 (Cert.Gnn.blk ⟨q, h⟩ k) j) : EReal)
  else 0

theorem pay2_at7 (c : Dev nD) (t : Fin cfg7.N) (n0 : Fin 50) (q : ℕ) (hq : q < 125) (ht : t.val = n0.val * 125 + q)
    (xs : Vec Ideal S1000x1 .f32) (r : Fin 1000) (j : Fin 1) :
    (k7_pay2 (grid7.coords t) (iblk7 V c 0 t) xs (iblk7 V c 1 t) : S1000x1.Idx → EReal) (ix2 r j) = xs (ix2 r j) + term7 V c n0 r j q := by
  have hmod : t.val % 125 = q := by omega
  have hdiv : t.val / 125 = n0.val := by omega
  rw [pay2_apply]
  congr 1
  unfold term7
  rw [dif_pos hq]
  refine Finset.sum_congr rfl fun k _ => ?_
  have he : (Cert.Gnn.blk ⟨q, hq⟩ k).val = (t.val % 125) * 6400 + k.val := by rw [hmod]; rfl
  rw [iblk7_0_apply V c t k _ he, iblk7_1_apply V c t k j _ he, (coords7_eq t).1, hdiv]
  simp only [Cert.Gnn.word_eq_iff n0.isLt r.isLt]

theorem acc7 (c : Dev nD) (n0 : Fin 50) (r : Fin 1000) (j : Fin 1) :
    ∀ (q : ℕ) (hq : q < 125) (hb : n0.val * 125 + q < cfg7.N),
      ((outsAt7 V c (n0.val * 125 + q) hb).2 : S1000x1.Idx → EReal) (ix2 r j) = Cert.Gnn.acc (term7 V c n0 r j) q
  | 0, hq, hb => by
    rw [sc_first7 V c _ hb (by omega), pay2_at7 V c _ n0 0 hq rfl, pay1_apply, Cert.Gnn.acc_zero]
  | q + 1, hq, hb => by
    rw [show outsAt7 V c (n0.val * 125 + (q + 1)) hb = outsAt7 V c (n0.val * 125 + q + 1) hb from rfl,
      sc_step7 V c (n0.val * 125 + q) hb (by omega), pay2_at7 V c _ n0 (q + 1) hq rfl, Cert.Gnn.acc_succ]
    congr 1
    exact acc7 c n0 r j q (by omega) _

theorem out7_at (c : Dev nD) (n0 : Fin 50) (hb : n0.val * 125 + 124 < cfg7.N) (r : Fin 1000) (j : Fin 1) (hlt : n0.val * 1000 + r.val < 50000) :
    ((outsAt7 V c (n0.val * 125 + 124) hb).1 : S1000x1.Idx → EReal) (ix2 r j)
      = Cert.Gnn.lrelu (Cert.Gnn.segsum (fun e j => V c main_v58 (ix2 e j)) (fun e => V c main_v46 (ix2 0 e)) ⟨n0.val * 1000 + r.val, hlt⟩ j + V c main_v45 (ix2 0 j)) := by
  rw [out_last7 V c _ hb (by omega), pay3_apply, acc7 V c n0 r j 124 (by omega) hb, iblk7_2_apply]
  refine congrArg Cert.Gnn.lrelu (congrArg (· + _) ?_)
  unfold Cert.Gnn.segsum
  exact Cert.Gnn.acc_blocked (term7 V c n0 r j) (fun e => (V c main_v58 (ix2 e j) : EReal))
    (fun e => (V c main_v46 (ix2 0 e) : BitVec 32).toInt = ((n0.val * 1000 + r.val : ℕ) : ℤ)) (fun q => by unfold term7; rw [dif_pos q.isLt])

end AtIdeal

section Final
variable (V : (c : Dev nD) → (b : Ref sig .tc) → Buf (Elt Ideal) ((c : Thread nD τ).loc b))

def G7 (c : Dev nD) : S50000x1.Idx → EReal := fun i =>
  Cert.Gnn.lrelu (Cert.Gnn.segsum (fun e j => V c main_v58 (ix2 e j)) (fun e => V c main_v46 (ix2 0 e)) (i 0) (i 1) + V c main_v45 (ix2 0 (i 1)))

theorem G7_ix2 (c : Dev nD) (n : Fin 50000) (j : Fin 1) :
    G7 V c (ix2 n j)
      = Cert.Gnn.lrelu (Cert.Gnn.segsum (fun e j => V c main_v58 (ix2 e j)) (fun e => V c main_v46 (ix2 0 e)) n j + V c main_v45 (ix2 0 j)) := rfl

theorem hG7 (c : Dev nD) (t : Fin cfg7.N) (hf : (cfg7.win 3).flush t = true) :
    (dat7 V c).flushed 3 t = ((cfg7.win 3).blk t).view.read (Elt Ideal) (G7 V c) := by
  have h1 : t.val % 125 = 124 := (flush7_3 t).mp hf
  have hN : cfg7.N = 6250 := N_7
  have htl := t.isLt
  have hb : t.val / 125 * 125 + 124 < cfg7.N := by omega
  funext y
  have hy0 : (y 0).val < 1000 := (y 0).isLt
  have hy1 : (y 1).val < 1 := (y 1).isLt
  rw [View.read_apply]
  show (dat7 V c).after 3 t ((cfg7.win 3).xinj (grid7.coords t) y) = _
  rw [after7_3]
  have e1 : (cfg7.win 3).xinj (grid7.coords t) y = ix2 (⟨(y 0).val, hy0⟩ : Fin 1000) (⟨(y 1).val, hy1⟩ : Fin 1) := by
    funext a; apply Fin.ext
    match a with
    | ⟨0, _⟩ => rfl
    | ⟨1, _⟩ => rfl
  have e2 : ((cfg7.win 3).blk t).view.emb y
      = ix2 (⟨t.val / 125 * 1000 + (y 0).val, by omega⟩ : Fin 50000) (⟨(y 1).val, hy1⟩ : Fin 1) := by
    funext a; apply Fin.ext
    match a with
    | ⟨0, _⟩ => show win7_3.index t 0 * 1000 + 1 * (y 0).val = t.val / 125 * 1000 + (y 0).val; rw [(idx7_3 t).1]; omega
    | ⟨1, _⟩ => show win7_3.index t 1 * 1 + 1 * (y 1).val = (y 1).val; rw [(idx7_3 t).2]; omega
  have e3 : outsAt7 V c t.val t.isLt = outsAt7 V c (t.val / 125 * 125 + 124) hb :=
    outsAt7_congr V c (show t.val = t.val / 125 * 125 + 124 by omega) t.isLt hb
  refine Eq.trans (congrArg (outsAt7 V c t.val t.isLt).1 e1) ?_
  refine Eq.trans ?_ (cast_eq _ _).symm
  refine Eq.trans ?_ (congrArg (G7 V c) e2.symm)
  refine Eq.trans (congrFun (congrArg Prod.fst e3) _) ?_
  refine Eq.trans ?_ (G7_ix2 V c _ _).symm
  exact out7_at V c ⟨t.val / 125, by omega⟩ hb ⟨(y 0).val, hy0⟩ ⟨(y 1).val, hy1⟩ (by show t.val / 125 * 1000 + (y 0).val < 50000; omega)

end Final

end Val7

section Value
variable (V : (c : Dev nD) → (b : Ref sig .tc) → Buf (Elt Ideal) ((c : Thread nD τ).loc b))

open Val7 in
theorem val7 (c : Dev nD) (n : Fin 50000) (j : Fin 1) :
    ((dat7 (F := Ideal) V c).arrAt 3 cfg7.N : S50000x1.Idx → EReal) (ValueIdx.ix2 n j)
      = Cert.Gnn.lrelu (Cert.Gnn.segsum (fun e j => V c main_v58 (ValueIdx.ix2 e j)) (fun e => V c main_v46 (ValueIdx.ix2 0 e)) n j + V c main_v45 (ValueIdx.ix2 0 j)) := by
  have hN : cfg7.N = 6250 := N_7
  have hnl := n.isLt
  have hb : n.val / 1000 * 125 + 124 < cfg7.N := by omega
  have hf : (cfg7.win 3).flush ⟨n.val / 1000 * 125 + 124, hb⟩ = true :=
    (flush7_3 ⟨n.val / 1000 * 125 + 124, hb⟩).mpr (by show (n.val / 1000 * 125 + 124) % 125 = 124; omega)
  have hemb : ((cfg7.win 3).blk ⟨n.val / 1000 * 125 + 124, hb⟩).view.emb (ix2 (⟨n.val % 1000, by omega⟩ : Fin 1000) j) = ix2 n j := by
    funext a; apply Fin.ext
    match a with
    | ⟨0, _⟩ =>
      show win7_3.index ⟨n.val / 1000 * 125 + 124, hb⟩ 0 * 1000 + 1 * (n.val % 1000) = n.val
      rw [(idx7_3 _).1]; show (n.val / 1000 * 125 + 124) / 125 * 1000 + 1 * (n.val % 1000) = n.val; omega
    | ⟨1, _⟩ =>
      show win7_3.index ⟨n.val / 1000 * 125 + 124, hb⟩ 1 * 1 + 1 * j.val = j.val
      rw [(idx7_3 _).2]; omega
  have hmem : (ix2 n j : S50000x1.Idx) ∈ ((cfg7.win 3).blk ⟨n.val / 1000 * 125 + 124, hb⟩).view.set :=
    hemb ▸ ((cfg7.win 3).blk ⟨n.val / 1000 * 125 + 124, hb⟩).view.emb_mem_set _
  exact ((dat7 V c).arrAt_apply_of_mem 3 (G7 V c) (hG7 V c) cfg7.N ⟨n.val / 1000 * 125 + 124, hb⟩ _ (Fin.is_lt _) hf hmem).trans rfl

end Value

end Cert.KernelIdeal.Hand

end
-- ==== Proof.KI.Chain.lean ====
/- The result array, after the whole run, is the four-layer network of the launch contents. -/
import proofs.«406692_j3745211482886_1_alg».proof.Proof.KI.Host
import proofs.«406692_j3745211482886_1_alg».proof.Proof.KI.Val0
import proofs.«406692_j3745211482886_1_alg».proof.Proof.KI.Val1
import proofs.«406692_j3745211482886_1_alg».proof.Proof.KI.Val2
import proofs.«406692_j3745211482886_1_alg».proof.Proof.KI.Val3
import proofs.«406692_j3745211482886_1_alg».proof.Proof.KI.Val4
import proofs.«406692_j3745211482886_1_alg».proof.Proof.KI.Val5
import proofs.«406692_j3745211482886_1_alg».proof.Proof.KI.Val6
import proofs.«406692_j3745211482886_1_alg».proof.Proof.KI.Val7

set_option maxRecDepth 1076

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Gnn (arr1 arr2 segsum rowsOf mm lrelu layerAgg layerMul)

variable (m : (ℓ : Loc nD τ sig) → Buf (Elt Ideal) ℓ) (outs : Gen.Outs (F := Ideal))

namespace Chain

abbrev inFeat (c : Dev nD) : Fin 50000 → Fin 1 → EReal := arr2 (m (c, main_arg0))
abbrev srcW (c : Dev nD) : Fin 800000 → BitVec 32 := arr1 (m (c, main_arg1))
abbrev dstW (c : Dev nD) : Fin 800000 → BitVec 32 := arr1 (m (c, main_arg2))
abbrev W0 (c : Dev nD) : Fin 1 → Fin 64 → EReal := arr2 (m (c, main_arg3))
abbrev b0 (c : Dev nD) : Fin 64 → EReal := arr1 (m (c, main_arg4))
abbrev W1 (c : Dev nD) : Fin 64 → Fin 128 → EReal := arr2 (m (c, main_arg5))
abbrev b1 (c : Dev nD) : Fin 128 → EReal := arr1 (m (c, main_arg6))
abbrev W2 (c : Dev nD) : Fin 128 → Fin 64 → EReal := arr2 (m (c, main_arg7))
abbrev b2 (c : Dev nD) : Fin 64 → EReal := arr1 (m (c, main_arg8))
abbrev W3 (c : Dev nD) : Fin 64 → Fin 1 → EReal := arr2 (m (c, main_arg9))
abbrev b3 (c : Dev nD) : Fin 1 → EReal := arr1 (m (c, main_arg10))

abbrev lay1 (c : Dev nD) : Fin 50000 → Fin 64 → EReal := layerAgg (inFeat m c) (srcW m c) (dstW m c) (W0 m c) (b0 m c)
abbrev lay2 (c : Dev nD) : Fin 50000 → Fin 128 → EReal := layerAgg (lay1 m c) (srcW m c) (dstW m c) (W1 m c) (b1 m c)
abbrev lay3 (c : Dev nD) : Fin 50000 → Fin 64 → EReal := layerMul (lay2 m c) (srcW m c) (dstW m c) (W2 m c) (b2 m c)
abbrev lay4 (c : Dev nD) : Fin 50000 → Fin 1 → EReal := layerMul (lay3 m c) (srcW m c) (dstW m c) (W3 m c) (b3 m c)

abbrev net (c : Dev nD) : EReal :=
  Cert.Gnn.out (inFeat m c) (srcW m c) (dstW m c) (W0 m c) (b0 m c) (W1 m c) (b1 m c) (W2 m c) (b2 m c) (W3 m c) (b3 m c)

-- What a region leaves in its output array, by coordinates, from its value theorem.
theorem step {A B : Nat} {o d : (⟨2, ![A, B]⟩ : Shape).Idx → EReal} {g : Fin A → Fin B → EReal} (h : o = d)
    (v : ∀ n j, d (ix2 n j) = g n j) : arr2 o = g :=
  funext fun n => funext fun j => (congrFun h _).trans (v n j)

abbrev act {A J : Nat} (y : Fin A → Fin J → EReal) (b : Fin J → EReal) : Fin A → Fin J → EReal :=
  fun n j => lrelu (y n j + b j)

variable (h2 : ∀ c, outs 2 main_v11 c = (dat0 (fun c b => V1 m c b) c).arrAt 3 cfg0.N)
include h2
theorem out0_eq (c : Dev nD) : arr2 (outs 2 main_v11 c) = segsum (rowsOf (inFeat m c) (srcW m c)) (dstW m c) :=
  (step (h2 c) (val0 _ c)).trans (congrArg₂ segsum (V1_v9 m c) (V1_v1 m c))

variable (h4 : ∀ c, outs 4 main_v14 c = (dat1 (fun c b => V3 m outs c b) c).arrAt 3 cfg1.N)
include h4
theorem out1_eq (c : Dev nD) : arr2 (outs 4 main_v14 c) = lay1 m c :=
  (step (h4 c) (val1 _ c)).trans (congrArg₂ act
    (congrArg₂ mm ((V3_v12 m outs c).trans (out0_eq m outs h2 c)) (V3_v13 m outs c)) (V3_v0 m outs c))

variable (h6 : ∀ c, outs 6 main_v26 c = (dat2 (fun c b => V5 m outs c b) c).arrAt 3 cfg2.N)
include h6
theorem out2_eq (c : Dev nD) : arr2 (outs 6 main_v26 c) = segsum (rowsOf (lay1 m c) (srcW m c)) (dstW m c) :=
  (step (h6 c) (val2 _ c)).trans (congrArg₂ segsum
    ((V5_v24 m outs c).trans (congrArg (rowsOf · _) (out1_eq m outs h2 h4 c))) (V5_v16 m outs c))

variable (h8 : ∀ c, outs 8 main_v29 c = (dat3 (fun c b => V7 m outs c b) c).arrAt 3 cfg3.N)
include h8
theorem out3_eq (c : Dev nD) : arr2 (outs 8 main_v29 c) = lay2 m c :=
  (step (h8 c) (val3 _ c)).trans (congrArg₂ act
    (congrArg₂ mm ((V7_v27 m outs c).trans (out2_eq m outs h2 h4 h6 c)) (V7_v28 m outs c)) (V7_v15 m outs c))

variable (h10 : ∀ c, outs 10 main_v35 c = (dat4 (fun c b => V9 m outs c b) c).arrAt 3 cfg4.N)
include h10
theorem out4_eq (c : Dev nD) : arr2 (outs 10 main_v35 c) = mm (lay2 m c) (W2 m c) :=
  (step (h10 c) (val4 _ c)).trans
    (congrArg₂ mm ((V9_v32 m outs c).trans (out3_eq m outs h2 h4 h6 h8 c)) (V9_v33 m outs c))

variable (h12 : ∀ c, outs 12 main_v44 c = (dat5 (fun c b => V11 m outs c b) c).arrAt 3 cfg5.N)
include h12
theorem out5_eq (c : Dev nD) : arr2 (outs 12 main_v44 c) = lay3 m c :=
  (step (h12 c) (val5 _ c)).trans (congrArg₂ act (congrArg₂ segsum
    ((V11_v43 m outs c).trans (congrArg (rowsOf · _) (out4_eq m outs h2 h4 h6 h8 h10 c))) (V11_v31 m outs c)) (V11_v30 m outs c))

variable (h14 : ∀ c, outs 14 main_v50 c = (dat6 (fun c b => V13 m outs c b) c).arrAt 3 cfg6.N)
include h14
theorem out6_eq (c : Dev nD) : arr2 (outs 14 main_v50 c) = mm (lay3 m c) (W3 m c) :=
  (step (h14 c) (val6 _ c)).trans
    (congrArg₂ mm ((V13_v47 m outs c).trans (out5_eq m outs h2 h4 h6 h8 h10 h12 c)) (V13_v48 m outs c))

variable (h16 : ∀ c, outs 16 main_v59 c = (dat7 (fun c b => V15 m outs c b) c).arrAt 3 cfg7.N)
include h16
theorem out7_eq (c : Dev nD) : arr2 (outs 16 main_v59 c) = lay4 m c :=
  (step (h16 c) (val7 _ c)).trans (congrArg₂ act (congrArg₂ segsum
    ((V15_v58 m outs c).trans (congrArg (rowsOf · _) (out6_eq m outs h2 h4 h6 h8 h10 h12 h14 c))) (V15_v46 m outs c)) (V15_v45 m outs c))

theorem chain (c : Dev nD) : V17 m outs c main_v61 = fun _ => net m c :=
  funext fun i => (V17_v61 m outs c i).trans
    (congrFun (congrFun (out7_eq m outs h2 h4 h6 h8 h10 h12 h14 h16 c) _) _)

end Chain

end Cert.KernelIdeal.Hand

end
-- ==== Proof.K.RunCond.lean ====
/- The run of @main given the eight regions' segment records: every weakly fair execution terminates, the result array ends at the chain's last valuation, each argument as launched. -/
import proofs.«406692_j3745211482886_1_alg».proof.Proof.Gen.Kernel.Regions

set_option maxRecDepth 1076

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- What the run ends at on core `c`: the result array at the chain's last valuation, each argument as launched. -/
abbrev Final (m : (ℓ : Loc nD τ sig) → Buf (Elt F) ℓ) (outs : Outs (F := F)) (c : Dev nD) (s : MemSt nD τ sig (Elt F)) : Prop :=
  s.mem ((c.tc : Thread nD τ).loc main_v61) = V17 m outs c main_v61
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

set_option backward.isDefEq.respectTransparency.types false in
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c)) :
    θ_run defs (onTc (τ := τ) (main (F := F))) ⟨m, fun _ => 0, ρ⟩ (fun r => ∀ c : Dev nD, Final m outs c r.2) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, sep_mono .rfl (hE8 c)⟩)
    (hinit := ?_) (QY := Final m outs)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      have rdb := fun (b : Ref sig .tc) (hb : ¬ (Proc.devRef (τ := τ) .tc b).isScoped) =>
        h (Proc.devRef .tc b) (Finset.mem_filter.mpr ⟨StableHlo.devRef_mem_tcRefs b, hb⟩)
      exact ⟨rdb main_v61 (by decide), (rdb main_arg0 (by decide)).trans (V17_main_arg0 m outs c),
        (rdb main_arg1 (by decide)).trans (V17_main_arg1 m outs c),
        (rdb main_arg2 (by decide)).trans (V17_main_arg2 m outs c),
        (rdb main_arg3 (by decide)).trans (V17_main_arg3 m outs c),
        (rdb main_arg4 (by decide)).trans (V17_main_arg4 m outs c),
        (rdb main_arg5 (by decide)).trans (V17_main_arg5 m outs c),
        (rdb main_arg6 (by decide)).trans (V17_main_arg6 m outs c),
        (rdb main_arg7 (by decide)).trans (V17_main_arg7 m outs c),
        (rdb main_arg8 (by decide)).trans (V17_main_arg8 m outs c),
        (rdb main_arg9 (by decide)).trans (V17_main_arg9 m outs c),
        (rdb main_arg10 (by decide)).trans (V17_main_arg10 m outs c)⟩
    · iexact HSI

end Cert.Kernel.Hand

end
-- ==== Proof.K.R0Runs.lean ====
/- Region 0 of @main (`cc0__spmm_kernel`): what the three control cases of the body share. -/
import proofs.«406692_j3745211482886_1_alg».proof.Proof.Gen.Kernel.Launch
import proofs.«406692_j3745211482886_1_alg».proof.Proof.Gen.Kernel.Skeleton
import proofs.«406692_j3745211482886_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

-- Window `w`'s block at point `t`, read off its array as the region finds it.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

-- The body's two conditions (first edge tile, last edge tile), in closed form over the grid.
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 125 = 0 :=
  (by decide +kernel : ∀ t : Fin grid0.N, cond0_0 (grid0.coords t) ↔ t.val % 125 = 0)

abbrev cond0_1 (i : grid0.Coords) : Prop := k0_cond2 i = 1#1
theorem hcond0_1 : ∀ t : Fin cfg0.N, cond0_1 (grid0.coords t) ↔ t.val % 125 = 124 :=
  (by decide +kernel : ∀ t : Fin grid0.N, cond0_1 (grid0.coords t) ↔ t.val % 125 = 124)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
-- The output window is idle exactly where the second condition fails.
theorem idle0_3_of_not (i : grid0.Coords) (h : ¬cond0_1 i) : cfg0.idle 3 i = true := by
  show (!(k0_cond2 i == 1#1)) = true
  rw [Bool.not_eq_true', beq_eq_false_iff_ne]; exact h
theorem idle0_3_of (i : grid0.Coords) (h : cond0_1 i) : cfg0.idle 3 i = false := by
  show (!(k0_cond2 i == 1#1)) = false
  rw [Bool.not_eq_false', beq_iff_eq]; exact h

-- The memrefs the body is called with at point `t`, and the accumulator.
abbrev ms0_0 (t : Fin cfg0.N) : Memref sig .tc .vmem S1x6400 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6400x1 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x1 .f32 := win0_3.stage (cfg0.slots t 3)
abbrev hs0_3 (t : Fin cfg0.N) : (ms0_3 t).IsWhole := hstage0_3 ((cfg0.slots t 3).cast nbuf0_3)
abbrev scM0_0 : Memref sig .tc .vmem S1000x1 .f32 := Memref.whole cc0_scratch0

abbrev restBut0 (c : Dev nD) : sProp 𝕄 :=
  Pipeline.scopedRestBut (Ix := Unit) (Name := ℕ) (U := Pipeline.UD sig nD τ) (Lvl := ℕ) (Val := Elt F) spec0 c [cc0_scratch0]

-- A whole memref held at the raw contents that read `X` is owned at `X`.
theorem held_unread0 {c : Dev nD} {sp : Space} {sh : Shape} {e : EltTy} {m : Memref sig .tc sp sh e} (h : m.IsWhole) (X : sh.Idx → Elt F e) :
    (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
  iintro H; iexists _; isplitr; · ipureintro; exact h.read_unread _
  iexact H

-- The class invariant with the accumulator split off the other scoped buffers.
theorem PhiA0_eq (c : Dev nD) :
    (Pipeline.ΦA spec0 c : sProp 𝕄)
      = iprop(iprop(iprop((∃ d, owns (c : Thread nD τ) scM0_0 fullShare d)) ∗ restBut0 c) ∗ (∃ r, prngReg c r)) := by
  unfold Pipeline.ΦA; rw [scopedRest0_split]; simp only [scM0_0, owns_whole]; try rfl

end Cert.Kernel.Hand

end
-- ==== Proof.K.R0RunA.lean ====
/- Region 0 of @main (`cc0__spmm_kernel`): the whole-body run of the kernel in case A (first edge tile of a node tile). -/
import proofs.«406692_j3745211482886_1_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun0_A (c : Dev nD) (i : grid0.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : cond0_0 i) (hc1 : ¬cond0_1 i)
    (x0 : Vec F S1x6400 .i32) (x1 : Vec F S6400x1 .bf16) (x2 : Vec F S1x1 .f32) :
    Σ' (L3 : List (View.Piece (Elt F) S1000x1 .f32)), { LS0 : List (View.Piece (Elt F) S1000x1 .f32) //
      ∀ (xi3 : Vec F S1000x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_kernel i arg2 harg2 arg3 harg3 arg4 harg4 arg5 harg5 arg6 harg6) K } := by
  refine ⟨[], ?_, fun xi3 E K => ?run⟩
  case run =>
    simp only [cc0__spmm_kernel_eq_skeleton]; unfold cc0__spmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]; · iapply (held_unread0 harg2 _); iexact H0
    isplitl [H1]; · iapply (held_unread0 harg3 _); iexact H1
    isplitl [H2]; · iapply (held_unread0 harg4 _); iexact H2
    isplitl [H3]; · iapply (held_unread0 harg5 _); iexact H3
    iexists _; iexact HS0

end Cert.Kernel.Hand

end
-- ==== Proof.K.R0RunB.lean ====
/- Region 0 of @main (`cc0__spmm_kernel`): the whole-body run of the kernel in case B (an inner edge tile of a node tile). -/
import proofs.«406692_j3745211482886_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun0_B (c : Dev nD) (i : grid0.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : ¬cond0_0 i) (hc1 : ¬cond0_1 i)
    (x0 : Vec F S1x6400 .i32) (x1 : Vec F S6400x1 .bf16) (x2 : Vec F S1x1 .f32) (xs0 : Vec F S1000x1 .f32) :
    Σ' (L3 : List (View.Piece (Elt F) S1000x1 .f32)), { LS0 : List (View.Piece (Elt F) S1000x1 .f32) //
      ∀ (xi3 : Vec F S1000x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_kernel i arg2 harg2 arg3 harg3 arg4 harg4 arg5 harg5 arg6 harg6) K } := by
  refine ⟨[], ?_, fun xi3 E K => ?run⟩
  case run =>
    simp only [cc0__spmm_kernel_eq_skeleton]; unfold cc0__spmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]; · iapply (held_unread0 harg2 _); iexact H0
    isplitl [H1]; · iapply (held_unread0 harg3 _); iexact H1
    isplitl [H2]; · iapply (held_unread0 harg4 _); iexact H2
    isplitl [H3]; · iapply (held_unread0 harg5 _); iexact H3
    iexists _; iexact HS0

end Cert.Kernel.Hand

end
-- ==== Proof.K.R0RunC.lean ====
/- Region 0 of @main (`cc0__spmm_kernel`): the whole-body run of the kernel in case C (last edge tile of a node tile). -/
import proofs.«406692_j3745211482886_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun0_C (c : Dev nD) (i : grid0.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : ¬cond0_0 i) (hc1 : cond0_1 i)
    (x0 : Vec F S1x6400 .i32) (x1 : Vec F S6400x1 .bf16) (x2 : Vec F S1x1 .f32) (xs0 : Vec F S1000x1 .f32) :
    Σ' (L3 : List (View.Piece (Elt F) S1000x1 .f32)), { LS0 : List (View.Piece (Elt F) S1000x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__spmm_kernel i arg2 harg2 arg3 harg3 arg4 harg4 arg5 harg5 arg6 harg6) K } := by
  refine ⟨?_, ?_, fun E K => ?run⟩
  case run =>
    simp only [cc0__spmm_kernel_eq_skeleton]; unfold cc0__spmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]; · iapply (held_unread0 harg2 _); iexact H0
    isplitl [H1]; · iapply (held_unread0 harg3 _); iexact H1
    isplitl [H2]; · iapply (held_unread0 harg4 _); iexact H2
    isplitl [H3]; · iexists _; iexact H3
    iexists _; iexact HS0

end Cert.Kernel.Hand

end
-- ==== Proof.K.R0.lean ====
/- Region 0 of @main: the pipeline's proof data at the region-entry contents `V`, the body obligation, and the invariant's two ends. -/
import proofs.«406692_j3745211482886_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- A run that takes the inputs, the output's buffer as `P3 d` and the accumulator as `P6` and hands the inputs back with `Q3 d` and `Q6` carries the rest of the invariant and what is owed across.
theorem body_of_run0 {c : Dev nD} {D0 D1 D2 D3 : Type} {e : Prog (TpuEff nD τ sig (Elt F) Λ₀ .tc) PUnit}
    {Φ S' I0 I1 I2 P6 Q6 R G O L3 : sProp 𝕄} {B3 P3 Q3 : D3 → sProp 𝕄}
    (hrun : ∀ (d : D3) (K : PUnit → sProp 𝕄), iprop(I0 ∗ I1 ∗ I2 ∗ P3 d ∗ P6 ∗ (iprop(I0 ∗ I1 ∗ I2 ∗ Q3 d ∗ Q6) -∗ K ⟨⟩))
      ⊢ wp frame (wpE (defs₀ (F := F)) Variants.none c none) Set.univ e K)
    (hΦ : Φ ⊢ iprop(iprop(P6 ∗ R) ∗ G)) (h6 : Q6 ⊢ S') (h3 : ∀ d, B3 d ⊢ P3 d) (h3' : ∀ d, Q3 d ⊢ L3) :
    iprop(Φ ∗ O ∗ (∃ _d : D0, I0) ∗ (∃ _d : D1, I1) ∗ (∃ _d : D2, I2) ∗ (∃ d, B3 d))
      ⊢ wp frame (wpE (defs₀ (F := F)) Variants.none c none) Set.univ e
          (fun _ => iprop(iprop(iprop(S' ∗ R) ∗ G) ∗ O ∗ I0 ∗ I1 ∗ I2 ∗ L3)) := by
  iintro ⟨HP, Ho, ⟨%d0, H0⟩, ⟨%d1, H1⟩, ⟨%d2, H2⟩, ⟨%d3, H3⟩⟩
  ihave HP' := (hΦ) $$ HP
  icases HP' with ⟨⟨HS, HR⟩, Hg⟩
  iapply (hrun d3 _)
  isplitl [H0]; · iexact H0
  isplitl [H1]; · iexact H1
  isplitl [H2]; · iexact H2
  isplitl [H3]; · iapply (h3 d3); iexact H3
  isplitl [HS]; · iexact HS
  iintro ⟨H0, H1, H2, H3, HS⟩
  isplitl [HS HR Hg]
  · isplitl [HS HR]
    · isplitl [HS]; · iapply h6; iexact HS
      iexact HR
    iexact Hg
  isplitl [Ho]; · iexact Ho
  isplitl [H0]; · iexact H0
  isplitl [H1]; · iexact H1
  isplitl [H2]; · iexact H2
  iapply (h3' d3); iexact H3

-- Stored pieces that tile a buffer leave it owned at their closed form, whatever it held before.
theorem owns_of_pieces0 (c : Dev nD) {m : Memref sig .tc .vmem S1000x1 .f32} {L : List (View.Piece (Elt F) S1000x1 .f32)}
    (hL : View.Piece.tiledL L S1000x1.size = true) :
    iprop(∃ f, m.view.loc (c : Thread nD τ) ↦[m.view.set]{fullShare} m.view.writes (Elt F) f L)
      ⊢ (owns (c : Thread nD τ) m fullShare (View.canon L) : sProp 𝕄) := by
  iintro ⟨%f, H⟩
  unfold owns; iexists _; isplitr
  swap; · iexact H
  ipureintro; exact View.read_writes_eq_canon _ _ _ (View.cover_of_tiledL L S1000x1.size hL)

variable (V : (c : Dev nD) → (b : Ref sig .tc) → Buf (Elt F) ((c : Thread nD τ).loc b)) (c : Dev nD)

section Point
variable (t : Fin cfg0.N)

-- The three cases' runs at point `t`: its memrefs, the accumulator, its input blocks.
def runA0 (h0 : t.val % 125 = 0) (h1 : ¬t.val % 125 = 124) :=
  kernelRun0_A c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (iblk0 V c 0 t) (iblk0 V c 1 t) (iblk0 V c 2 t)
def runB0 (h0 : ¬t.val % 125 = 0) (h1 : ¬t.val % 125 = 124) (xs0 : Vec F S1000x1 .f32) :=
  kernelRun0_B c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk0 V c 0 t) (iblk0 V c 1 t) (iblk0 V c 2 t) xs0
def runC0 (h0 : ¬t.val % 125 = 0) (h1 : t.val % 125 = 124) (xs0 : Vec F S1000x1 .f32) :=
  kernelRun0_C c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk0 V c 0 t) (iblk0 V c 1 t) (iblk0 V c 2 t) xs0

-- The pair (output block, accumulator) point `t` leaves when the accumulator held `xs0` before it: reset at the first edge tile of a node tile, added to at every edge tile, copied out at the last.
def pt0 (xs0 : Vec F S1000x1 .f32) : Vec F S1000x1 .f32 × Vec F S1000x1 .f32 :=
  if h0 : t.val % 125 = 0 then (View.canon (runA0 V c t h0 (by omega)).1, View.canon (runA0 V c t h0 (by omega)).2.1)
  else if h1 : t.val % 125 = 124 then (View.canon (runC0 V c t h0 h1 xs0).1, View.canon (runC0 V c t h0 h1 xs0).2.1)
  else (View.canon (runB0 V c t h0 h1 xs0).1, View.canon (runB0 V c t h0 h1 xs0).2.1)

theorem pt0_A (h0 : t.val % 125 = 0) (h1 : ¬t.val % 125 = 124) (xs0 : Vec F S1000x1 .f32) :
    pt0 V c t xs0 = (View.canon (runA0 V c t h0 h1).1, View.canon (runA0 V c t h0 h1).2.1) := dif_pos h0
theorem pt0_B (h0 : ¬t.val % 125 = 0) (h1 : ¬t.val % 125 = 124) (xs0 : Vec F S1000x1 .f32) :
    pt0 V c t xs0 = (View.canon (runB0 V c t h0 h1 xs0).1, View.canon (runB0 V c t h0 h1 xs0).2.1) := (dif_neg h0).trans (dif_neg h1)
theorem pt0_C (h0 : ¬t.val % 125 = 0) (h1 : t.val % 125 = 124) (xs0 : Vec F S1000x1 .f32) :
    pt0 V c t xs0 = (View.canon (runC0 V c t h0 h1 xs0).1, View.canon (runC0 V c t h0 h1 xs0).2.1) := (dif_neg h0).trans (dif_pos h1)

end Point

-- What the accumulator holds before position `n`: what the point before left there.
def accAt0 : ℕ → Vec F S1000x1 .f32
  | 0 => View.canon []
  | n + 1 => if h : n < cfg0.N then (pt0 V c ⟨n, h⟩ (accAt0 n)).2 else accAt0 n

theorem accAt0_succ (t : Fin cfg0.N) : accAt0 V c (t.val + 1) = (pt0 V c t (accAt0 V c t.val)).2 := dif_pos t.isLt

-- The region invariant before position `n`: the class's before the first point; afterwards the same with the accumulator at `accAt0`.
def PhiS0 : ℕ → sProp 𝕄
  | 0 => Pipeline.ΦA spec0 c
  | n + 1 => iprop(iprop(owns (c : Thread nD τ) scM0_0 fullShare (accAt0 V c (n + 1)) ∗ restBut0 c) ∗ (∃ r, prngReg c r))

theorem PhiS0_pos (n : ℕ) (hz : n ≠ 0) :
    PhiS0 V c n = iprop(iprop(owns (c : Thread nD τ) scM0_0 fullShare (accAt0 V c n) ∗ restBut0 c) ∗ (∃ r, prngReg c r)) := by
  cases n with
  | zero => exact absurd rfl hz
  | succ n => rfl

-- Before any point the invariant gives the class's, opened: the accumulator's named contents are forgotten.
theorem PhiS0_le (n : ℕ) :
    PhiS0 V c n ⊢ iprop(iprop(iprop((∃ d, owns (c : Thread nD τ) scM0_0 fullShare d)) ∗ restBut0 c) ∗ (∃ r, prngReg c r)) := by
  cases n with
  | zero => exact Entails.of_eq (PhiA0_eq c)
  | succ n =>
    rw [PhiS0_pos V c _ (Nat.succ_ne_zero n)]
    iintro ⟨⟨HS0, HR⟩, Hg⟩
    isplitl [HS0 HR]
    · isplitl [HS0]
      · iexists _; iexact HS0
      iexact HR
    iexact Hg

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (pt0 V c t (accAt0 V c t.val)).1
  Φ t := PhiS0 V c t.val
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = (pt0 V c t (accAt0 V c t.val)).1 := by dsimp only [dat0]

theorem before0_0 (t : Fin cfg0.N) (d) : (dat0 V c).before 0 t d = iblk0 V c 0 t :=
  before0_0_of V (dat0 V c) (A_eq0 V c 0) (after0_0 V c) t d
theorem before0_1 (t : Fin cfg0.N) (d) : (dat0 V c).before 1 t d = iblk0 V c 1 t :=
  before0_1_of V (dat0 V c) (A_eq0 V c 1) (after0_1 V c) t d
theorem before0_2 (t : Fin cfg0.N) (d) : (dat0 V c).before 2 t d = iblk0 V c 2 t :=
  before0_2_of V (dat0 V c) (A_eq0 V c 2) (after0_2 V c) t d

theorem leavesExact0_0 (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leavesExact0_1 (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leavesExact0_2 (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leavesExact0_3_live (t : Fin cfg0.N) (h1 : t.val % 125 = 124) :
    (dat0 V c).leavesExact 3 t = owns (c : Thread nD τ) (ms0_3 t) fullShare (pt0 V c t (accAt0 V c t.val)).1 := by
  rw [show (dat0 V c).leavesExact 3 t = owns (c : Thread nD τ) (ms0_3 t) fullShare ((dat0 V c).after 3 t) from by
    unfold Dat.leavesExact; rw [idle0_3_of _ ((hcond0_1 t).mpr h1)], after0_3]
theorem leavesExact0_3_idle (t : Fin cfg0.N) (h1 : ¬t.val % 125 = 124) :
    (dat0 V c).leavesExact 3 t = iprop(∃ d, owns (c : Thread nD τ) (ms0_3 t) fullShare ((dat0 V c).before 3 t d)) :=
  Dat.leavesExact_idle _ 3 t (idle0_3_of_not _ fun h => h1 ((hcond0_1 t).mp h)) (Bool.eq_false_iff.mpr fun h => h1 ((flush0_3 t).mp h))

def bodyPre0 (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
-- The body at any point: the closed forms of the two conditions say which case's run applies; the invariant lends it the accumulator and takes it back at this point's contents.
theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, leavesExact0_0, leavesExact0_1, leavesExact0_2]
  rw [show (dat0 V c).owesAt () t.succ = (dat0 V c).owesAt () t.castSucc from rfl,
    show (dat0 V c).Φ t.succ = PhiS0 V c (t.val + 1) from rfl, PhiS0_pos V c (t.val + 1) (Nat.succ_ne_zero _), accAt0_succ V c t,
    show (dat0 V c).Φ t.castSucc = PhiS0 V c t.val from rfl]
  by_cases h0 : t.val % 125 = 0
  · have h1 : ¬t.val % 125 = 124 := by omega
    rw [leavesExact0_3_idle V c t h1, pt0_A V c t h0 h1]
    exact body_of_run0 (fun d K => (runA0 V c t h0 h1).2.2 ((dat0 V c).before 3 t d) Set.univ K) (PhiS0_le V c t.val)
      (owns_of_pieces0 c (by sl_kernel_rfl)) (fun _ => Entails.refl _) (fun d => by iintro H; iexists d; iexact H)
  · have hz : t.val ≠ 0 := fun e => h0 (by rw [e])
    by_cases h1 : t.val % 125 = 124
    · rw [leavesExact0_3_live V c t h1, pt0_C V c t h0 h1]
      exact body_of_run0 (fun _ K => (runC0 V c t h0 h1 (accAt0 V c t.val)).2.2 Set.univ K) (Entails.of_eq (PhiS0_pos V c _ hz))
        (owns_of_pieces0 c (by sl_kernel_rfl)) (fun d => by iintro H; iexists _; iexact H) (fun _ => owns_of_pieces0 c (by sl_kernel_rfl))
    · rw [leavesExact0_3_idle V c t h1, pt0_B V c t h0 h1]
      exact body_of_run0 (fun d K => (runB0 V c t h0 h1 (accAt0 V c t.val)).2.2 ((dat0 V c).before 3 t d) Set.univ K) (Entails.of_eq (PhiS0_pos V c _ hz))
        (owns_of_pieces0 c (by sl_kernel_rfl)) (fun _ => Entails.refl _) (fun d => by iintro H; iexists d; iexact H)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := Entails.of_eq rfl

theorem hout0 (c : Dev nD) : (dat0 V c).Φ (Fin.last cfg0.N) ⊢ (Pipeline.ΦA spec0 c : sProp 𝕄) := by
  rw [PhiA0_eq]; exact PhiS0_le V c (Fin.last cfg0.N).val

end Cert.Kernel.Hand

end
-- ==== Proof.K.R1.lean ====
/- Region 1 of @main (custom_call 1, `cc1__dense_kernel`: a dense layer with bias and leaky rectifier; output array `main_v14`): the proof data at the contents the region is entered from, the body obligation, and the invariant's two ends. -/
import proofs.«406692_j3745211482886_1_alg».proof.Proof.Gen.Kernel.Launch
import proofs.«406692_j3745211482886_1_alg».proof.Proof.Gen.Kernel.Skeleton
import proofs.«406692_j3745211482886_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1000x1 := Rect.unit (s := S1000x1) ![0, 0] S1000x1.size inb_S1000x1_S1000x1_0_0
abbrev r1_1 : Rect S1x64 := Rect.unit (s := S1x64) ![0, 0] S1x64.size inb_S1x64_S1x64_0_0
abbrev r1_2 : Rect S1x64 := Rect.unit (s := S1x64) ![0, 0] S1x64.size inb_S1x64_S1x64_0_0
abbrev r1_3 : Rect S1000x64 := Rect.unit (s := S1000x64) ![0, 0] S1000x64.size inb_S1000x64_S1000x64_0_0

def out1_3 (x0 : Vec F S1000x1 .bf16) (x1 : Vec F S1x64 .bf16) (x2 : Vec F S1x64 .f32) : Vec F S1000x64 .f32 :=
  View.canon [⟨r1_3, k1_pay1 (View.ld x0 r1_0) (View.ld x1 r1_1) (View.ld x2 r1_2)⟩]

-- The body on whole memrefs: it loads the operand blocks, stores the payload over the whole output block and changes nothing else.
theorem sound_kernel1 (c : Dev nD) (E : Set ℕ) (i : grid1.Coords) (arg1 : Memref sig .tc .vmem S1000x1 .bf16) (harg1 : arg1.IsWhole) (arg2 : Memref sig .tc .vmem S1x64 .bf16) (harg2 : arg2.IsWhole) (arg3 : Memref sig .tc .vmem S1x64 .f32) (harg3 : arg3.IsWhole) (arg4 : Memref sig .tc .vmem S1000x64 .f32) (harg4 : arg4.IsWhole)
    (x0 : Vec F S1000x1 .bf16) (x1 : Vec F S1x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__dense_kernel i arg1 harg1 arg2 harg2 arg3 harg3 arg4 harg4) K := by
  simp only [cc1__dense_kernel_eq_skeleton]; unfold cc1__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x64.size (by rfl))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl
theorem q_eq1 (c : Dev nD) (w : Fin cfg1.W) : (dat1 V c).q w = fullShare := rfl
theorem owed_eq1 (c : Dev nD) (t : Fin (cfg1.N + 1)) : (dat1 V c).owed t = 0 := rfl

-- The body leaves each operand's block in place, so every point finds it as the region did.
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

-- The body at any point, whatever else is held (`R`, `R'`): the operands' memrefs hold their blocks, so `sound_kernel1` applies.
theorem sound_body1 (c : Dev nD) (t : Fin cfg1.N) (R R' : sProp 𝕄) :
    iprop(R ∗ R'
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) fun _ => iprop(R ∗ R'
      ∗ owns (c : Thread nD τ) (st1_0 t) fullShare ((dat1 V c).after 0 t)
      ∗ owns (c : Thread nD τ) (st1_1 t) fullShare ((dat1 V c).after 1 t)
      ∗ owns (c : Thread nD τ) (st1_2 t) fullShare ((dat1 V c).after 2 t)
      ∗ owns (c : Thread nD τ) (st1_3 t) fullShare ((dat1 V c).after 3 t)) := by
  simp only [before1_0, before1_1, before1_2]
  dsimp only [dat1]
  iintro ⟨Ha, Hb, ⟨%d0, H0⟩, ⟨%d1, H1⟩, ⟨%d2, H2⟩, ⟨%d3, H3⟩⟩
  iapply (sound_kernel1 c Set.univ (grid1.coords t) (st1_0 t) _ (st1_1 t) _ (st1_2 t) _ (st1_3 t) _ (iblk1 V c 0 t) (iblk1 V c 1 t) (iblk1 V c 2 t) _)
  iframe H0 H1 H2
  isplitl [H3]; · iexists _; iexact H3
  iintro ⟨H0, H1, H2, H3⟩
  iframe Ha Hb H0 H1 H2 H3

theorem body_obligation1 (c : Dev nD) : BodyObligation (dat1 (F := F) V c) (defs₀ (F := F)) Variants.none () Set.univ := fun t => by
  rw [bigSep_W1, bigSep_W1]
  exact sound_body1 V c t _ _

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

end Cert.Kernel.Hand

end
-- ==== Proof.K.R2Runs.lean ====
/- Region 2 of @main (`cc2__spmm_kernel`): what the three control cases of the body share. -/
import proofs.«406692_j3745211482886_1_alg».proof.Proof.Gen.Kernel.Launch
import proofs.«406692_j3745211482886_1_alg».proof.Proof.Gen.Kernel.Skeleton
import proofs.«406692_j3745211482886_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

-- Window `w`'s block at point `t`, read off its array as the region finds it.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

-- The body's two conditions (first edge tile, last edge tile), in closed form over the grid.
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 125 = 0 :=
  (by decide +kernel : ∀ t : Fin grid2.N, cond2_0 (grid2.coords t) ↔ t.val % 125 = 0)

abbrev cond2_1 (i : grid2.Coords) : Prop := k2_cond2 i = 1#1
theorem hcond2_1 : ∀ t : Fin cfg2.N, cond2_1 (grid2.coords t) ↔ t.val % 125 = 124 :=
  (by decide +kernel : ∀ t : Fin grid2.N, cond2_1 (grid2.coords t) ↔ t.val % 125 = 124)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
-- The output window is idle exactly where the second condition fails.
theorem idle2_3_of_not (i : grid2.Coords) (h : ¬cond2_1 i) : cfg2.idle 3 i = true := by
  show (!(k2_cond2 i == 1#1)) = true
  rw [Bool.not_eq_true', beq_eq_false_iff_ne]; exact h
theorem idle2_3_of (i : grid2.Coords) (h : cond2_1 i) : cfg2.idle 3 i = false := by
  show (!(k2_cond2 i == 1#1)) = false
  rw [Bool.not_eq_false', beq_iff_eq]; exact h

-- The memrefs the body is called with at point `t`, and the accumulator.
abbrev ms2_0 (t : Fin cfg2.N) : Memref sig .tc .vmem S1x6400 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6400x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1000x64 .f32 := win2_3.stage (cfg2.slots t 3)
abbrev hs2_3 (t : Fin cfg2.N) : (ms2_3 t).IsWhole := hstage2_3 ((cfg2.slots t 3).cast nbuf2_3)
abbrev scM2_0 : Memref sig .tc .vmem S1000x64 .f32 := Memref.whole cc2_scratch0

abbrev restBut2 (c : Dev nD) : sProp 𝕄 :=
  Pipeline.scopedRestBut (Ix := Unit) (Name := ℕ) (U := Pipeline.UD sig nD τ) (Lvl := ℕ) (Val := Elt F) spec2 c [cc2_scratch0]

-- A whole memref held at the raw contents that read `X` is owned at `X`.
theorem held_unread2 {c : Dev nD} {sp : Space} {sh : Shape} {e : EltTy} {m : Memref sig .tc sp sh e} (h : m.IsWhole) (X : sh.Idx → Elt F e) :
    (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
  iintro H; iexists _; isplitr; · ipureintro; exact h.read_unread _
  iexact H

-- The class invariant with the accumulator split off the other scoped buffers.
theorem PhiA2_eq (c : Dev nD) :
    (Pipeline.ΦA spec2 c : sProp 𝕄)
      = iprop(iprop(iprop((∃ d, owns (c : Thread nD τ) scM2_0 fullShare d)) ∗ restBut2 c) ∗ (∃ r, prngReg c r)) := by
  unfold Pipeline.ΦA; rw [scopedRest2_split]; simp only [scM2_0, owns_whole]; try rfl

end Cert.Kernel.Hand

end
-- ==== Proof.K.R2RunA.lean ====
/- Region 2 of @main (`cc2__spmm_kernel`): the whole-body run of the kernel in case A (first edge tile of a node tile). -/
import proofs.«406692_j3745211482886_1_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun2_A (c : Dev nD) (i : grid2.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : cond2_0 i) (hc1 : ¬cond2_1 i)
    (x0 : Vec F S1x6400 .i32) (x1 : Vec F S6400x64 .bf16) (x2 : Vec F S1x64 .f32) :
    Σ' (L3 : List (View.Piece (Elt F) S1000x64 .f32)), { LS0 : List (View.Piece (Elt F) S1000x64 .f32) //
      ∀ (xi3 : Vec F S1000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__spmm_kernel i arg2 harg2 arg3 harg3 arg4 harg4 arg5 harg5 arg6 harg6) K } := by
  refine ⟨[], ?_, fun xi3 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]; · iapply (held_unread2 harg2 _); iexact H0
    isplitl [H1]; · iapply (held_unread2 harg3 _); iexact H1
    isplitl [H2]; · iapply (held_unread2 harg4 _); iexact H2
    isplitl [H3]; · iapply (held_unread2 harg5 _); iexact H3
    iexists _; iexact HS0

end Cert.Kernel.Hand

end
-- ==== Proof.K.R2RunB.lean ====
/- Region 2 of @main (`cc2__spmm_kernel`): the whole-body run of the kernel in case B (an inner edge tile of a node tile). -/
import proofs.«406692_j3745211482886_1_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun2_B (c : Dev nD) (i : grid2.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : ¬cond2_0 i) (hc1 : ¬cond2_1 i)
    (x0 : Vec F S1x6400 .i32) (x1 : Vec F S6400x64 .bf16) (x2 : Vec F S1x64 .f32) (xs0 : Vec F S1000x64 .f32) :
    Σ' (L3 : List (View.Piece (Elt F) S1000x64 .f32)), { LS0 : List (View.Piece (Elt F) S1000x64 .f32) //
      ∀ (xi3 : Vec F S1000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__spmm_kernel i arg2 harg2 arg3 harg3 arg4 harg4 arg5 harg5 arg6 harg6) K } := by
  refine ⟨[], ?_, fun xi3 E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]; · iapply (held_unread2 harg2 _); iexact H0
    isplitl [H1]; · iapply (held_unread2 harg3 _); iexact H1
    isplitl [H2]; · iapply (held_unread2 harg4 _); iexact H2
    isplitl [H3]; · iapply (held_unread2 harg5 _); iexact H3
    iexists _; iexact HS0

end Cert.Kernel.Hand

end
-- ==== Proof.K.R2RunC.lean ====
/- Region 2 of @main (`cc2__spmm_kernel`): the whole-body run of the kernel in case C (last edge tile of a node tile). -/
import proofs.«406692_j3745211482886_1_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 1000000 in
noncomputable def kernelRun2_C (c : Dev nD) (i : grid2.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : ¬cond2_0 i) (hc1 : cond2_1 i)
    (x0 : Vec F S1x6400 .i32) (x1 : Vec F S6400x64 .bf16) (x2 : Vec F S1x64 .f32) (xs0 : Vec F S1000x64 .f32) :
    Σ' (L3 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__spmm_kernel i arg2 harg2 arg3 harg3 arg4 harg4 arg5 harg5 arg6 harg6) K } := by
  refine ⟨?_, ?_, fun E K => ?run⟩
  case run =>
    simp only [cc2__spmm_kernel_eq_skeleton]; unfold cc2__spmm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]; · iapply (held_unread2 harg2 _); iexact H0
    isplitl [H1]; · iapply (held_unread2 harg3 _); iexact H1
    isplitl [H2]; · iapply (held_unread2 harg4 _); iexact H2
    isplitl [H3]; · iexists _; iexact H3
    iexists _; iexact HS0

end Cert.Kernel.Hand

end
-- ==== Proof.K.R2.lean ====
/- Region 2 of @main: the pipeline's proof data at the region-entry contents `V`, the body obligation, and the invariant's two ends. -/
import proofs.«406692_j3745211482886_1_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- A run that takes the inputs, the output's buffer as `P3 d` and the accumulator as `P6` and hands the inputs back with `Q3 d` and `Q6` carries the rest of the invariant and what is owed across.
theorem body_of_run2 {c : Dev nD} {D0 D1 D2 D3 : Type} {e : Prog (TpuEff nD τ sig (Elt F) Λ₀ .tc) PUnit}
    {Φ S' I0 I1 I2 P6 Q6 R G O L3 : sProp 𝕄} {B3 P3 Q3 : D3 → sProp 𝕄}
    (hrun : ∀ (d : D3) (K : PUnit → sProp 𝕄), iprop(I0 ∗ I1 ∗ I2 ∗ P3 d ∗ P6 ∗ (iprop(I0 ∗ I1 ∗ I2 ∗ Q3 d ∗ Q6) -∗ K ⟨⟩))
      ⊢ wp frame (wpE (defs₀ (F := F)) Variants.none c none) Set.univ e K)
    (hΦ : Φ ⊢ iprop(iprop(P6 ∗ R) ∗ G)) (h6 : Q6 ⊢ S') (h3 : ∀ d, B3 d ⊢ P3 d) (h3' : ∀ d, Q3 d ⊢ L3) :
    iprop(Φ ∗ O ∗ (∃ _d : D0, I0) ∗ (∃ _d : D1, I1) ∗ (∃ _d : D2, I2) ∗ (∃ d, B3 d))
      ⊢ wp frame (wpE (defs₀ (F := F)) Variants.none c none) Set.univ e
          (fun _ => iprop(iprop(iprop(S' ∗ R) ∗ G) ∗ O ∗ I0 ∗ I1 ∗ I2 ∗ L3)) := by
  iintro ⟨HP, Ho, ⟨%d0, H0⟩, ⟨%d1, H1⟩, ⟨%d2, H2⟩, ⟨%d3, H3⟩⟩
  ihave HP' := (hΦ) $$ HP
  icases HP' with ⟨⟨HS, HR⟩, Hg⟩
  iapply (hrun d3 _)
  isplitl [H0]; · iexact H0
  isplitl [H1]; · iexact H1
  isplitl [H2]; · iexact H2
  isplitl [H3]; · iapply (h3 d3); iexact H3
  isplitl [HS]; · iexact HS
  iintro ⟨H0, H1, H2, H3, HS⟩
  isplitl [HS HR Hg]
  · isplitl [HS HR]
    · isplitl [HS]; · iapply h6; iexact HS
      iexact HR
    iexact Hg
  isplitl [Ho]; · iexact Ho
  isplitl [H0]; · iexact H0
  isplitl [H1]; · iexact H1
  isplitl [H2]; · iexact H2
  iapply (h3' d3); iexact H3

-- Stored pieces that tile a buffer leave it owned at their closed form, whatever it held before.
theorem owns_of_pieces2 (c : Dev nD) {m : Memref sig .tc .vmem S1000x64 .f32} {L : List (View.Piece (Elt F) S1000x64 .f32)}
    (hL : View.Piece.tiledL L S1000x64.size = true) :
    iprop(∃ f, m.view.loc (c : Thread nD τ) ↦[m.view.set]{fullShare} m.view.writes (Elt F) f L)
      ⊢ (owns (c : Thread nD τ) m fullShare (View.canon L) : sProp 𝕄) := by
  iintro ⟨%f, H⟩
  unfold owns; iexists _; isplitr
  swap; · iexact H
  ipureintro; exact View.read_writes_eq_canon _ _ _ (View.cover_of_tiledL L S1000x64.size hL)

variable (V : (c : Dev nD) → (b : Ref sig .tc) → Buf (Elt F) ((c : Thread nD τ).loc b)) (c : Dev nD)

section Point
variable (t : Fin cfg2.N)

-- The three cases' runs at point `t`: its memrefs, the accumulator, its input blocks.
def runA2 (h0 : t.val % 125 = 0) (h1 : ¬t.val % 125 = 124) :=
  kernelRun2_A c (grid2.coords t) (ms2_0 t) (hs2_0 t) (ms2_1 t) (hs2_1 t) (ms2_2 t) (hs2_2 t) (ms2_3 t) (hs2_3 t) scM2_0 (Memref.isWhole_whole _)
    ((hcond2_0 t).mpr h0) (fun h => h1 ((hcond2_1 t).mp h)) (iblk2 V c 0 t) (iblk2 V c 1 t) (iblk2 V c 2 t)
def runB2 (h0 : ¬t.val % 125 = 0) (h1 : ¬t.val % 125 = 124) (xs0 : Vec F S1000x64 .f32) :=
  kernelRun2_B c (grid2.coords t) (ms2_0 t) (hs2_0 t) (ms2_1 t) (hs2_1 t) (ms2_2 t) (hs2_2 t) (ms2_3 t) (hs2_3 t) scM2_0 (Memref.isWhole_whole _)
    (fun h => h0 ((hcond2_0 t).mp h)) (fun h => h1 ((hcond2_1 t).mp h)) (iblk2 V c 0 t) (iblk2 V c 1 t) (iblk2 V c 2 t) xs0
def runC2 (h0 : ¬t.val % 125 = 0) (h1 : t.val % 125 = 124) (xs0 : Vec F S1000x64 .f32) :=
  kernelRun2_C c (grid2.coords t) (ms2_0 t) (hs2_0 t) (ms2_1 t) (hs2_1 t) (ms2_2 t) (hs2_2 t) (ms2_3 t) (hs2_3 t) scM2_0 (Memref.isWhole_whole _)
    (fun h => h0 ((hcond2_0 t).mp h)) ((hcond2_1 t).mpr h1) (iblk2 V c 0 t) (iblk2 V c 1 t) (iblk2 V c 2 t) xs0

-- The pair (output block, accumulator) point `t` leaves when the accumulator held `xs0` before it: reset at the first edge tile of a node tile, added to at every edge tile, copied out at the last.
def pt2 (xs0 : Vec F S1000x64 .f32) : Vec F S1000x64 .f32 × Vec F S1000x64 .f32 :=
  if h0 : t.val % 125 = 0 then (View.canon (runA2 V c t h0 (by omega)).1, View.canon (runA2 V c t h0 (by omega)).2.1)
  else if h1 : t.val % 125 = 124 then (View.canon (runC2 V c t h0 h1 xs0).1, View.canon (runC2 V c t h0 h1 xs0).2.1)
  else (View.canon (runB2 V c t h0 h1 xs0).1, View.canon (runB2 V c t h0 h1 xs0).2.1)

theorem pt2_A (h0 : t.val % 125 = 0) (h1 : ¬t.val % 125 = 124) (xs0 : Vec F S1000x64 .f32) :
    pt2 V c t xs0 = (View.canon (runA2 V c t h0 h1).1, View.canon (runA2 V c t h0 h1).2.1) := dif_pos h0
theorem pt2_B (h0 : ¬t.val % 125 = 0) (h1 : ¬t.val % 125 = 124) (xs0 : Vec F S1000x64 .f32) :
    pt2 V c t xs0 = (View.canon (runB2 V c t h0 h1 xs0).1, View.canon (runB2 V c t h0 h1 xs0).2.1) := (dif_neg h0).trans (dif_neg h1)
theorem pt2_C (h0 : ¬t.val % 125 = 0) (h1 : t.val % 125 = 124) (xs0 : Vec F S1000x64 .f32) :
    pt2 V c t xs0 = (View.canon (runC2 V c t h0 h1 xs0).1, View.canon (runC2 V c t h0 h1 xs0).2.1) := (dif_neg h0).trans (dif_pos h1)

end Point

-- What the accumulator holds before position `n`: what the point before left there.
def accAt2 : ℕ → Vec F S1000x64 .f32
  | 0 => View.canon []
  | n + 1 => if h : n < cfg2.N then (pt2 V c ⟨n, h⟩ (accAt2 n)).2 else accAt2 n

theorem accAt2_succ (t : Fin cfg2.N) : accAt2 V c (t.val + 1) = (pt2 V c t (accAt2 V c t.val)).2 := dif_pos t.isLt

-- The region invariant before position `n`: the class's before the first point; afterwards the same with the accumulator at `accAt2`.
def PhiS2 : ℕ → sProp 𝕄
  | 0 => Pipeline.ΦA spec2 c
  | n + 1 => iprop(iprop(owns (c : Thread nD τ) scM2_0 fullShare (accAt2 V c (n + 1)) ∗ restBut2 c) ∗ (∃ r, prngReg c r))

theorem PhiS2_pos (n : ℕ) (hz : n ≠ 0) :
    PhiS2 V c n = iprop(iprop(owns (c : Thread nD τ) scM2_0 fullShare (accAt2 V c n) ∗ restBut2 c) ∗ (∃ r, prngReg c r)) := by
  cases n with
  | zero => exact absurd rfl hz
  | succ n => rfl

-- Before any point the invariant gives the class's, opened: the accumulator's named contents are forgotten.
theorem PhiS2_le (n : ℕ) :
    PhiS2 V c n ⊢ iprop(iprop(iprop((∃ d, owns (c : Thread nD τ) scM2_0 fullShare d)) ∗ restBut2 c) ∗ (∃ r, prngReg c r)) := by
  cases n with
  | zero => exact Entails.of_eq (PhiA2_eq c)
  | succ n =>
    rw [PhiS2_pos V c _ (Nat.succ_ne_zero n)]
    iintro ⟨⟨HS0, HR⟩, Hg⟩
    isplitl [HS0 HR]
    · isplitl [HS0]
      · iexists _; iexact HS0
      iexact HR
    iexact Hg

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (pt2 V c t (accAt2 V c t.val)).1
  Φ t := PhiS2 V c t.val
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]

theorem after2_0 (t : Fin cfg2.N) : (dat2 V c).after 0 t = iblk2 V c 0 t := by dsimp only [dat2]
theorem after2_1 (t : Fin cfg2.N) : (dat2 V c).after 1 t = iblk2 V c 1 t := by dsimp only [dat2]
theorem after2_2 (t : Fin cfg2.N) : (dat2 V c).after 2 t = iblk2 V c 2 t := by dsimp only [dat2]
theorem after2_3 (t : Fin cfg2.N) : (dat2 V c).after 3 t = (pt2 V c t (accAt2 V c t.val)).1 := by dsimp only [dat2]

theorem before2_0 (t : Fin cfg2.N) (d) : (dat2 V c).before 0 t d = iblk2 V c 0 t :=
  before2_0_of V (dat2 V c) (A_eq2 V c 0) (after2_0 V c) t d
theorem before2_1 (t : Fin cfg2.N) (d) : (dat2 V c).before 1 t d = iblk2 V c 1 t :=
  before2_1_of V (dat2 V c) (A_eq2 V c 1) (after2_1 V c) t d
theorem before2_2 (t : Fin cfg2.N) (d) : (dat2 V c).before 2 t d = iblk2 V c 2 t :=
  before2_2_of V (dat2 V c) (A_eq2 V c 2) (after2_2 V c) t d

theorem leavesExact2_0 (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leavesExact2_1 (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leavesExact2_2 (t : Fin cfg2.N) :
    (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]
theorem leavesExact2_3_live (t : Fin cfg2.N) (h1 : t.val % 125 = 124) :
    (dat2 V c).leavesExact 3 t = owns (c : Thread nD τ) (ms2_3 t) fullShare (pt2 V c t (accAt2 V c t.val)).1 := by
  rw [show (dat2 V c).leavesExact 3 t = owns (c : Thread nD τ) (ms2_3 t) fullShare ((dat2 V c).after 3 t) from by
    unfold Dat.leavesExact; rw [idle2_3_of _ ((hcond2_1 t).mpr h1)], after2_3]
theorem leavesExact2_3_idle (t : Fin cfg2.N) (h1 : ¬t.val % 125 = 124) :
    (dat2 V c).leavesExact 3 t = iprop(∃ d, owns (c : Thread nD τ) (ms2_3 t) fullShare ((dat2 V c).before 3 t d)) :=
  Dat.leavesExact_idle _ 3 t (idle2_3_of_not _ fun h => h1 ((hcond2_1 t).mp h)) (Bool.eq_false_iff.mpr fun h => h1 ((flush2_3 t).mp h))

def bodyPre2 (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
-- The body at any point: the closed forms of the two conditions say which case's run applies; the invariant lends it the accumulator and takes it back at this point's contents.
theorem sound_body2 (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, leavesExact2_0, leavesExact2_1, leavesExact2_2]
  rw [show (dat2 V c).owesAt () t.succ = (dat2 V c).owesAt () t.castSucc from rfl,
    show (dat2 V c).Φ t.succ = PhiS2 V c (t.val + 1) from rfl, PhiS2_pos V c (t.val + 1) (Nat.succ_ne_zero _), accAt2_succ V c t,
    show (dat2 V c).Φ t.castSucc = PhiS2 V c t.val from rfl]
  by_cases h0 : t.val % 125 = 0
  · have h1 : ¬t.val % 125 = 124 := by omega
    rw [leavesExact2_3_idle V c t h1, pt2_A V c t h0 h1]
    exact body_of_run2 (fun d K => (runA2 V c t h0 h1).2.2 ((dat2 V c).before 3 t d) Set.univ K) (PhiS2_le V c t.val)
      (owns_of_pieces2 c (by sl_kernel_rfl)) (fun _ => Entails.refl _) (fun d => by iintro H; iexists d; iexact H)
  · have hz : t.val ≠ 0 := fun e => h0 (by rw [e])
    by_cases h1 : t.val % 125 = 124
    · rw [leavesExact2_3_live V c t h1, pt2_C V c t h0 h1]
      exact body_of_run2 (fun _ K => (runC2 V c t h0 h1 (accAt2 V c t.val)).2.2 Set.univ K) (Entails.of_eq (PhiS2_pos V c _ hz))
        (owns_of_pieces2 c (by sl_kernel_rfl)) (fun d => by iintro H; iexists _; iexact H) (fun _ => owns_of_pieces2 c (by sl_kernel_rfl))
    · rw [leavesExact2_3_idle V c t h1, pt2_B V c t h0 h1]
      exact body_of_run2 (fun d K => (runB2 V c t h0 h1 (accAt2 V c t.val)).2.2 ((dat2 V c).before 3 t d) Set.univ K) (Entails.of_eq (PhiS2_pos V c _ hz))
        (owns_of_pieces2 c (by sl_kernel_rfl)) (fun _ => Entails.refl _) (fun d => by iintro H; iexists d; iexact H)

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := Entails.of_eq rfl

theorem hout2 (c : Dev nD) : (dat2 V c).Φ (Fin.last cfg2.N) ⊢ (Pipeline.ΦA spec2 c : sProp 𝕄) := by
  rw [PhiA2_eq]; exact PhiS2_le V c (Fin.last cfg2.N).val

end Cert.Kernel.Hand

end
-- ==== Proof.K.R3.lean ====
/- Region 3 of @main (custom_call 3, `cc3__dense_kernel`: a dense layer with bias and leaky rectifier; output array `main_v29`): the proof data at the contents the region is entered from, the body obligation, and the invariant's two ends. -/
import proofs.«406692_j3745211482886_1_alg».proof.Proof.Gen.Kernel.Launch
import proofs.«406692_j3745211482886_1_alg».proof.Proof.Gen.Kernel.Skeleton
import proofs.«406692_j3745211482886_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S1000x64 := Rect.unit (s := S1000x64) ![0, 0] S1000x64.size inb_S1000x64_S1000x64_0_0
abbrev r3_1 : Rect S64x128 := Rect.unit (s := S64x128) ![0, 0] S64x128.size inb_S64x128_S64x128_0_0
abbrev r3_2 : Rect S1x128 := Rect.unit (s := S1x128) ![0, 0] S1x128.size inb_S1x128_S1x128_0_0
abbrev r3_3 : Rect S1000x128 := Rect.unit (s := S1000x128) ![0, 0] S1000x128.size inb_S1000x128_S1000x128_0_0

def out3_3 (x0 : Vec F S1000x64 .bf16) (x1 : Vec F S64x128 .bf16) (x2 : Vec F S1x128 .f32) : Vec F S1000x128 .f32 :=
  View.canon [⟨r3_3, k3_pay1 (View.ld x0 r3_0) (View.ld x1 r3_1) (View.ld x2 r3_2)⟩]

-- The body on whole memrefs: it loads the operand blocks, stores the payload over the whole output block and changes nothing else.
theorem sound_kernel3 (c : Dev nD) (E : Set ℕ) (i : grid3.Coords) (arg1 : Memref sig .tc .vmem S1000x64 .bf16) (harg1 : arg1.IsWhole) (arg2 : Memref sig .tc .vmem S64x128 .bf16) (harg2 : arg2.IsWhole) (arg3 : Memref sig .tc .vmem S1x128 .f32) (harg3 : arg3.IsWhole) (arg4 : Memref sig .tc .vmem S1000x128 .f32) (harg4 : arg4.IsWhole)
    (x0 : Vec F S1000x64 .bf16) (x1 : Vec F S64x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__dense_kernel i arg1 harg1 arg2 harg2 arg3 harg3 arg4 harg4) K := by
  simp only [cc3__dense_kernel_eq_skeleton]; unfold cc3__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x128.size (by rfl))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl

-- The body leaves each operand's block in place, so every point finds it as the region did.
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d

-- The body at any point, whatever else is held (`R`, `R'`): the operands' memrefs hold their blocks, so `sound_kernel3` applies.
theorem sound_body3 (c : Dev nD) (t : Fin cfg3.N) (R R' : sProp 𝕄) :
    iprop(R ∗ R'
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d)))
    ⊢ wp frame (wpE (defs₀ (F := F)) Variants.none c none) Set.univ (bodyAt3 t) fun _ => iprop(R ∗ R'
      ∗ owns (c : Thread nD τ) (st3_0 t) fullShare ((dat3 V c).after 0 t)
      ∗ owns (c : Thread nD τ) (st3_1 t) fullShare ((dat3 V c).after 1 t)
      ∗ owns (c : Thread nD τ) (st3_2 t) fullShare ((dat3 V c).after 2 t)
      ∗ owns (c : Thread nD τ) (st3_3 t) fullShare ((dat3 V c).after 3 t)) := by
  simp only [before3_0, before3_1, before3_2]
  dsimp only [dat3]
  iintro ⟨Ha, Hb, ⟨%d0, H0⟩, ⟨%d1, H1⟩, ⟨%d2, H2⟩, ⟨%d3, H3⟩⟩
  iapply (sound_kernel3 c Set.univ (grid3.coords t) (st3_0 t) _ (st3_1 t) _ (st3_2 t) _ (st3_3 t) _ (iblk3 V c 0 t) (iblk3 V c 1 t) (iblk3 V c 2 t) _)
  iframe H0 H1 H2
  isplitl [H3]; · iexists _; iexact H3
  iintro ⟨H0, H1, H2, H3⟩
  iframe Ha Hb H0 H1 H2 H3

theorem body_obligation3 (c : Dev nD) : BodyObligation (dat3 (F := F) V c) (defs₀ (F := F)) Variants.none () Set.univ := fun t => by
  rw [bigSep_W3, bigSep_W3]
  exact sound_body3 V c t _ _

theorem hin3 (c : Dev nD) : (Pipeline.ΦA spec3 c : sProp 𝕄) ⊢ (dat3 V c).Φ 0 := .rfl
theorem hout3 (c : Dev nD) : (dat3 V c).Φ (Fin.last cfg3.N) ⊢ (Pipeline.ΦA spec3 c : sProp 𝕄) := .rfl

end Cert.Kernel.Hand

end
-- ==== Proof.K.R4.lean ====
/- Region 4 of @main (custom_call 4, `cc4__dense_kernel`: a plain dense layer (no bias, no activation); output array `main_v35`): the proof data at the contents the region is entered from, the body obligation, and the invariant's two ends. -/
import proofs.«406692_j3745211482886_1_alg».proof.Proof.Gen.Kernel.Launch
import proofs.«406692_j3745211482886_1_alg».proof.Proof.Gen.Kernel.Skeleton
import proofs.«406692_j3745211482886_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1000x128 := Rect.unit (s := S1000x128) ![0, 0] S1000x128.size inb_S1000x128_S1000x128_0_0
abbrev r4_1 : Rect S128x64 := Rect.unit (s := S128x64) ![0, 0] S128x64.size inb_S128x64_S128x64_0_0
abbrev r4_3 : Rect S1000x64 := Rect.unit (s := S1000x64) ![0, 0] S1000x64.size inb_S1000x64_S1000x64_0_0

def out4_3 (x0 : Vec F S1000x128 .bf16) (x1 : Vec F S128x64 .bf16) : Vec F S1000x64 .f32 :=
  View.canon [⟨r4_3, k4_pay1 (View.ld x0 r4_0) (View.ld x1 r4_1)⟩]

-- The body on whole memrefs: it loads the operand blocks, stores the payload over the whole output block and changes nothing else.
theorem sound_kernel4 (c : Dev nD) (E : Set ℕ) (i : grid4.Coords) (arg1 : Memref sig .tc .vmem S1000x128 .bf16) (harg1 : arg1.IsWhole) (arg2 : Memref sig .tc .vmem S128x64 .bf16) (harg2 : arg2.IsWhole) (arg3 : Memref sig .tc .vmem S1x64 .f32) (harg3 : arg3.IsWhole) (arg4 : Memref sig .tc .vmem S1000x64 .f32) (harg4 : arg4.IsWhole)
    (x0 : Vec F S1000x128 .bf16) (x1 : Vec F S128x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1)) -∗ K ⟨⟩))
      ⊢ wp frame (wpE (defs₀ (F := F)) Variants.none c none) E (cc4__dense_kernel i arg1 harg1 arg2 harg2 arg3 harg3 arg4 harg4) K := by
  simp only [cc4__dense_kernel_eq_skeleton]; unfold cc4__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x64.size (by rfl))

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl

-- The body leaves each operand's block in place, so every point finds it as the region did.
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

-- The body at any point, whatever else is held (`R`, `R'`): the operands' memrefs hold their blocks, so `sound_kernel4` applies.
theorem sound_body4 (c : Dev nD) (t : Fin cfg4.N) (R R' : sProp 𝕄) :
    iprop(R ∗ R'
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) fun _ => iprop(R ∗ R'
      ∗ owns (c : Thread nD τ) (st4_0 t) fullShare ((dat4 V c).after 0 t)
      ∗ owns (c : Thread nD τ) (st4_1 t) fullShare ((dat4 V c).after 1 t)
      ∗ owns (c : Thread nD τ) (st4_2 t) fullShare ((dat4 V c).after 2 t)
      ∗ owns (c : Thread nD τ) (st4_3 t) fullShare ((dat4 V c).after 3 t)) := by
  simp only [before4_0, before4_1, before4_2]
  dsimp only [dat4]
  iintro ⟨Ha, Hb, ⟨%d0, H0⟩, ⟨%d1, H1⟩, ⟨%d2, H2⟩, ⟨%d3, H3⟩⟩
  iapply (sound_kernel4 c Set.univ (grid4.coords t) (st4_0 t) _ (st4_1 t) _ (st4_2 t) _ (st4_3 t) _ (iblk4 V c 0 t) (iblk4 V c 1 t) (iblk4 V c 2 t) _)
  iframe H0 H1 H2
  isplitl [H3]; · iexists _; iexact H3
  iintro ⟨H0, H1, H2, H3⟩
  iframe Ha Hb H0 H1 H2 H3

theorem body_obligation4 (c : Dev nD) : BodyObligation (dat4 (F := F) V c) (defs₀ (F := F)) Variants.none () Set.univ := fun t => by
  rw [bigSep_W4, bigSep_W4]
  exact sound_body4 V c t _ _

theorem hin4 (c : Dev nD) : (Pipeline.ΦA spec4 c : sProp 𝕄) ⊢ (dat4 V c).Φ 0 := .rfl
theorem hout4 (c : Dev nD) : (dat4 V c).Φ (Fin.last cfg4.N) ⊢ (Pipeline.ΦA spec4 c : sProp 𝕄) := .rfl

end Cert.Kernel.Hand

end
-- ==== Proof.K.R5Runs.lean ====
/- Region 5 (the sparse aggregation `cc5__spmm_kernel`: a one-hot product accumulated over the edge tiles, bias and leaky rectifier at the last): what the three cases of the body's run share. -/
import proofs.«406692_j3745211482886_1_alg».proof.Proof.Gen.Kernel.Launch
import proofs.«406692_j3745211482886_1_alg».proof.Proof.Gen.Kernel.Skeleton
import proofs.«406692_j3745211482886_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 125 = 0 :=
  (by decide +kernel : ∀ t : Fin grid5.N, cond5_0 (grid5.coords t) ↔ t.val % 125 = 0)

abbrev cond5_1 (i : grid5.Coords) : Prop := k5_cond2 i = 1#1
theorem hcond5_1 : ∀ t : Fin cfg5.N, cond5_1 (grid5.coords t) ↔ t.val % 125 = 124 :=
  (by decide +kernel : ∀ t : Fin grid5.N, cond5_1 (grid5.coords t) ↔ t.val % 125 = 124)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel

abbrev ms5_0 (t : Fin cfg5.N) : Memref sig .tc .vmem S1x6400 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S6400x64 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1000x64 .f32 := win5_3.stage (cfg5.slots t 3)
abbrev hs5_3 (t : Fin cfg5.N) : (ms5_3 t).IsWhole := hstage5_3 ((cfg5.slots t 3).cast nbuf5_3)
abbrev scM5_0 : Memref sig .tc .vmem S1000x64 .f32 := Memref.whole cc5_scratch0

-- a whole memref reads its raw contents bijectively, so owning it at `x` is holding the raw contents that read `x`
theorem owns_unread5 (c : Thread nD τ) {sp : Space} {S : Shape} {e : EltTy} {m : Memref sig c.2.kind sp S e} (hm : m.IsWhole) (q : PosShare TreeShare)
    (x : S.Idx → Elt F e) : (owns c m q x : sProp 𝕄) = (m.view.loc c ↦[m.view.set]{q} hm.unread x) := by
  have h₁ : (owns c m q x : sProp 𝕄) ⊢ (m.view.loc c ↦[m.view.set]{q} hm.unread x) := by
    unfold owns; iintro ⟨%f, %hf, H⟩; obtain rfl := hm.eq_unread hf; iexact H
  have h₂ : (m.view.loc c ↦[m.view.set]{q} hm.unread x : sProp 𝕄) ⊢ owns c m q x := by
    unfold owns; iintro H; iexists _; isplitr
    · ipureintro; exact hm.read_unread x
    · iexact H
  exact BI.equiv_iff.mp ⟨h₁, h₂⟩

-- pieces that tile a memref's shape leave it, whatever it held, at their canonical contents
theorem owns_canon5 (c : Thread nD τ) {sp : Space} {S : Shape} {e : EltTy} (m : Memref sig c.2.kind sp S e) (L : List (View.Piece (Elt F) S e))
    (hL : View.Piece.tiledL L S.size = true) :
    (iprop(∃ f, m.view.loc c ↦[m.view.set]{fullShare} m.view.writes (Elt F) f L) : sProp 𝕄) ⊢ owns c m fullShare (View.canon L) := by
  rw [← View.read_writes_junk_eq_canon m.view L]
  iintro ⟨%f, H⟩
  ihave H' := (Ring.owns_of_writes_tiledL m.view S.size) $$ H
  iapply H'; ipureintro; exact hL

abbrev restBut5 (c : Dev nD) : sProp 𝕄 :=
  Pipeline.scopedRestBut (Ix := Unit) (Name := ℕ) (U := Pipeline.UD sig nD τ) (Lvl := ℕ) (Val := Elt F) spec5 c [cc5_scratch0]

theorem PhiA5_eq (c : Dev nD) :
    (Pipeline.ΦA spec5 c : sProp 𝕄)
      = iprop(iprop((∃ d, owns (c : Thread nD τ) scM5_0 fullShare d) ∗ restBut5 c) ∗ (∃ r, prngReg c r)) := by
  unfold Pipeline.ΦA; rw [scopedRest5_split]; simp only [scM5_0, owns_whole]; try rfl

end Cert.Kernel.Hand

end
-- ==== Proof.K.R5RunA.lean ====
/- Region 5, the body's run at the first edge tile of a node tile: the accumulator is zeroed, then the tile's product is added; the output block is left as found. -/
import proofs.«406692_j3745211482886_1_alg».proof.Proof.K.R5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun5_A (c : Dev nD) (i : grid5.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : cond5_0 i) (hc1 : ¬cond5_1 i)
    (x0 : Vec F S1x6400 .i32) (x1 : Vec F S6400x64 .bf16) (x2 : Vec F S1x64 .f32) :
    Σ' (L3 : List (View.Piece (Elt F) S1000x64 .f32)), { LS0 : List (View.Piece (Elt F) S1000x64 .f32) //
      ∀ (xi3 : Vec F S1000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__spmm_kernel i arg2 harg2 arg3 harg3 arg4 harg4 arg5 harg5 arg6 harg6) K } := by
  refine ⟨[], ?_, fun xi3 E K => ?run⟩
  case run =>
    simp only [cc5__spmm_kernel_eq_skeleton]; unfold cc5__spmm_kernel_skel
    rw [owns_unread5 (c : Thread nD τ) harg2, owns_unread5 (c : Thread nD τ) harg3, owns_unread5 (c : Thread nD τ) harg4, owns_unread5 (c : Thread nD τ) harg5]
    unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

end Cert.Kernel.Hand

end
-- ==== Proof.K.R5RunB.lean ====
/- Region 5, the body's run at an edge tile that is neither first nor last: the tile's product is added to the accumulator; the output block is left as found. -/
import proofs.«406692_j3745211482886_1_alg».proof.Proof.K.R5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun5_B (c : Dev nD) (i : grid5.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : ¬cond5_0 i) (hc1 : ¬cond5_1 i)
    (x0 : Vec F S1x6400 .i32) (x1 : Vec F S6400x64 .bf16) (x2 : Vec F S1x64 .f32) (xs0 : Vec F S1000x64 .f32) :
    Σ' (L3 : List (View.Piece (Elt F) S1000x64 .f32)), { LS0 : List (View.Piece (Elt F) S1000x64 .f32) //
      ∀ (xi3 : Vec F S1000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__spmm_kernel i arg2 harg2 arg3 harg3 arg4 harg4 arg5 harg5 arg6 harg6) K } := by
  refine ⟨[], ?_, fun xi3 E K => ?run⟩
  case run =>
    simp only [cc5__spmm_kernel_eq_skeleton]; unfold cc5__spmm_kernel_skel
    rw [owns_unread5 (c : Thread nD τ) harg2, owns_unread5 (c : Thread nD τ) harg3, owns_unread5 (c : Thread nD τ) harg4, owns_unread5 (c : Thread nD τ) harg5, owns_unread5 (c : Thread nD τ) harg6]
    iintro ⟨H0, H1, H2, H3, HS0, Hk⟩
    sl_exec (disch := first | exact hc0 | exact hc1)
    sl_step
    iapply Hk
    iframe H0 H1 H2 H3
    iexists _; iexact HS0

end Cert.Kernel.Hand

end
-- ==== Proof.K.R5RunC.lean ====
/- Region 5, the body's run at the last edge tile of a node tile: the tile's product is added to the accumulator, then the output block is stored (the accumulator plus the bias row, through the leaky rectifier). -/
import proofs.«406692_j3745211482886_1_alg».proof.Proof.K.R5RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun5_C (c : Dev nD) (i : grid5.Coords) (arg2 : Memref sig .tc .vmem S1x6400 .i32) (harg2 : arg2.IsWhole) (arg3 : Memref sig .tc .vmem S6400x64 .bf16) (harg3 : arg3.IsWhole) (arg4 : Memref sig .tc .vmem S1x64 .f32) (harg4 : arg4.IsWhole) (arg5 : Memref sig .tc .vmem S1000x64 .f32) (harg5 : arg5.IsWhole) (arg6 : Memref sig .tc .vmem S1000x64 .f32) (harg6 : arg6.IsWhole) (hc0 : ¬cond5_0 i) (hc1 : cond5_1 i)
    (x0 : Vec F S1x6400 .i32) (x1 : Vec F S6400x64 .bf16) (x2 : Vec F S1x64 .f32) (xs0 : Vec F S1000x64 .f32) :
    Σ' (L3 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__spmm_kernel i arg2 harg2 arg3 harg3 arg4 harg4 arg5 harg5 arg6 harg6) K } := by
  refine ⟨?_, ?_, fun E K => ?run⟩
  case run =>
    simp only [cc5__spmm_kernel_eq_skeleton]; unfold cc5__spmm_kernel_skel
    rw [owns_unread5 (c : Thread nD τ) harg2, owns_unread5 (c : Thread nD τ) harg3, owns_unread5 (c : Thread nD τ) harg4, owns_unread5 (c : Thread nD τ) harg6]
    unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.Kernel.Hand

end
-- ==== Proof.K.R5.lean ====
/- Region 5: what the output block and the accumulator hold point by point, the pipeline's proof data at the contents `V` the region is entered from, the body obligation, and the invariant's two ends. -/
import proofs.«406692_j3745211482886_1_alg».proof.Proof.K.R5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

section Point
variable (c : Dev nD) (t : Fin cfg5.N)

-- each case's run at point `t`: the point's memrefs, the accumulator, the point's input blocks
abbrev atA5 (h0 : t.val % 125 = 0) (h1 : ¬t.val % 125 = 124) :=
  kernelRun5_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)
abbrev atB5 (h0 : ¬t.val % 125 = 0) (h1 : ¬t.val % 125 = 124) (xs : Vec F S1000x64 .f32) :=
  kernelRun5_B c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) xs
abbrev atC5 (h0 : ¬t.val % 125 = 0) (h1 : t.val % 125 = 124) (xs : Vec F S1000x64 .f32) :=
  kernelRun5_C c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) xs

-- one point's step: from what the accumulator held, the pair (output block, accumulator) the point's case leaves
def step5 (xs : Vec F S1000x64 .f32) : Vec F S1000x64 .f32 × Vec F S1000x64 .f32 :=
  if h0 : t.val % 125 = 0 then (View.canon (atA5 V c t h0 (by omega)).1, View.canon (atA5 V c t h0 (by omega)).2.1)
  else if h1 : t.val % 125 = 124 then (View.canon (atC5 V c t h0 h1 xs).1, View.canon (atC5 V c t h0 h1 xs).2.1)
  else (View.canon (atB5 V c t h0 h1 xs).1, View.canon (atB5 V c t h0 h1 xs).2.1)

end Point

def outsAt5 (c : Dev nD) : (n : ℕ) → n < cfg5.N → Vec F S1000x64 .f32 × Vec F S1000x64 .f32
  | 0, hn => step5 V c ⟨0, hn⟩ (View.canon ([] : List (View.Piece (Elt F) S1000x64 .f32)))
  | n + 1, hn => step5 V c ⟨n + 1, hn⟩ (outsAt5 c n (Nat.lt_of_succ_lt hn)).2

-- what the point before `t` left in the accumulator
abbrev prev5 (c : Dev nD) (t : Fin cfg5.N) : Vec F S1000x64 .f32 := (outsAt5 V c (t.val - 1) (Nat.lt_of_le_of_lt (Nat.sub_le _ _) t.isLt)).2

theorem outsAt5_eq (c : Dev nD) (t : Fin cfg5.N) : outsAt5 V c t.val t.isLt = step5 V c t (prev5 V c t) := by
  obtain ⟨n, hn⟩ := t
  cases n with
  | zero =>
    have h : (⟨0, hn⟩ : Fin cfg5.N).val % 125 = 0 := Nat.zero_mod _
    show step5 V c ⟨0, hn⟩ _ = step5 V c ⟨0, hn⟩ _
    unfold step5
    rw [dif_pos h, dif_pos h]
  | succ n => rfl

theorem outsAt5_A (c : Dev nD) (t : Fin cfg5.N) (h0 : t.val % 125 = 0) (h1 : ¬t.val % 125 = 124) :
    outsAt5 V c t.val t.isLt = (View.canon (atA5 V c t h0 h1).1, View.canon (atA5 V c t h0 h1).2.1) := (outsAt5_eq V c t).trans (dif_pos h0)
theorem outsAt5_B (c : Dev nD) (t : Fin cfg5.N) (h0 : ¬t.val % 125 = 0) (h1 : ¬t.val % 125 = 124) :
    outsAt5 V c t.val t.isLt = (View.canon (atB5 V c t h0 h1 (prev5 V c t)).1, View.canon (atB5 V c t h0 h1 (prev5 V c t)).2.1) := (outsAt5_eq V c t).trans ((dif_neg h0).trans (dif_neg h1))
theorem outsAt5_C (c : Dev nD) (t : Fin cfg5.N) (h0 : ¬t.val % 125 = 0) (h1 : t.val % 125 = 124) :
    outsAt5 V c t.val t.isLt = (View.canon (atC5 V c t h0 h1 (prev5 V c t)).1, View.canon (atC5 V c t h0 h1 (prev5 V c t)).2.1) := (outsAt5_eq V c t).trans ((dif_neg h0).trans (dif_pos h1))

-- the invariant before position `n`: the class's before the first point, afterwards the accumulator at what the point before left
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ restBut5 c) ∗ (∃ r, prngReg c r))

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ restBut5 c) ∗ (∃ r, prngReg c r)) := by
  cases n with
  | zero => exact absurd rfl hz
  | succ n => rfl

-- at every position the invariant holds the accumulator at some contents
theorem PhiS5_any (c : Dev nD) (n : ℕ) (h : n ≤ cfg5.N) :
    PhiS5 V c n h ⊢ iprop(iprop((∃ d, owns (c : Thread nD τ) scM5_0 fullShare d) ∗ restBut5 c) ∗ (∃ r, prngReg c r)) := by
  cases n with
  | zero => exact Entails.of_eq (PhiA5_eq c)
  | succ n =>
    rw [PhiS5_pos V c _ h (Nat.succ_ne_zero n)]
    iintro ⟨⟨HS0, HR⟩, Hg⟩
    iframe HR Hg
    iexists _; iexact HS0

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by
  dsimp only [dat5]
theorem owed_eq5 (c : Dev nD) (t : Fin (cfg5.N + 1)) : (dat5 V c).owed t = 0 := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

-- the closed forms say which case the point is in; that case's run applies; the invariant lends the accumulator and takes it back at the point's contents
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = iprop(iprop(owns (c : Thread nD τ) scM5_0 fullShare ((outsAt5 V c t.val t.isLt).2) ∗ restBut5 c) ∗ (∃ r, prngReg c r)) from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [PhiS5_castSucc V c t]
  by_cases h1 : t.val % 125 = 124
  · have h0 : ¬t.val % 125 = 0 := by omega
    rw [show (dat5 V c).leavesExact 3 t = owns (c : Thread nD τ) (ms5_3 t) fullShare ((dat5 V c).after 3 t) from by
      unfold Dat.leavesExact; rw [liveAt5_3 t ((hcond5_1 t).mpr h1)], after5_3]
    rw [outsAt5_C V c t h0 h1, PhiS5_pos V c _ _ (by omega)]
    dsimp only
    iintro ⟨⟨⟨HS0, HR⟩, Hg⟩, Ho, ⟨%d0, H0⟩, ⟨%d1, H1⟩, ⟨%d2, H2⟩, ⟨%d3, H3⟩⟩
    iapply ((atC5 V c t h0 h1 (prev5 V c t)).2.2 Set.univ _)
    iframe H0 H1 H2 HS0
    isplitl [H3]; · iexists _; iexact H3
    iintro ⟨H0, H1, H2, H3, HS0⟩
    iframe HR Hg Ho H0 H1 H2
    isplitl [HS0]
    · iapply (owns_canon5 (c : Thread nD τ) scM5_0 _ (by sl_kernel_rfl)) $$ HS0
    · iapply (owns_canon5 (c : Thread nD τ) (ms5_3 t) _ (by sl_kernel_rfl)) $$ H3
  · rw [Dat.leavesExact_idle (dat5 V c) 3 t (idleAt5_3 t (fun h => h1 ((hcond5_1 t).mp h))) (noFlush5_3 t (fun h => h1 ((hcond5_1 t).mp h)))]
    by_cases h0 : t.val % 125 = 0
    · rw [outsAt5_A V c t h0 h1]
      dsimp only
      refine (sep_mono_left (PhiS5_any V c _ _)).trans ?_
      iintro ⟨⟨⟨HS0, HR⟩, Hg⟩, Ho, ⟨%d0, H0⟩, ⟨%d1, H1⟩, ⟨%d2, H2⟩, ⟨%d3, H3⟩⟩
      iapply ((atA5 V c t h0 h1).2.2 ((dat5 V c).before 3 t d3) Set.univ _)
      iframe H0 H1 H2 H3 HS0
      iintro ⟨H0, H1, H2, H3, HS0⟩
      iframe HR Hg Ho H0 H1 H2
      isplitl [HS0]
      · iapply (owns_canon5 (c : Thread nD τ) scM5_0 _ (by sl_kernel_rfl)) $$ HS0
      · iexists _; iexact H3
    · rw [outsAt5_B V c t h0 h1, PhiS5_pos V c _ _ (by omega)]
      dsimp only
      iintro ⟨⟨⟨HS0, HR⟩, Hg⟩, Ho, ⟨%d0, H0⟩, ⟨%d1, H1⟩, ⟨%d2, H2⟩, ⟨%d3, H3⟩⟩
      iapply ((atB5 V c t h0 h1 (prev5 V c t)).2.2 ((dat5 V c).before 3 t d3) Set.univ _)
      iframe H0 H1 H2 H3 HS0
      iintro ⟨H0, H1, H2, H3, HS0⟩
      iframe HR Hg Ho H0 H1 H2
      isplitl [HS0]
      · iapply (owns_canon5 (c : Thread nD τ) scM5_0 _ (by sl_kernel_rfl)) $$ HS0
      · iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = Pipeline.ΦA spec5 c from rfl]
  try exact Idealize.SL.BI.Entails.refl _

theorem hout5 (c : Dev nD) : (dat5 V c).Φ (Fin.last cfg5.N) ⊢ (Pipeline.ΦA spec5 c : sProp 𝕄) := by
  rw [show (dat5 V c).Φ (Fin.last cfg5.N) = PhiS5 V c (Fin.last cfg5.N).val (Nat.le_of_lt_succ (Fin.last cfg5.N).isLt) from rfl, PhiA5_eq]
  exact PhiS5_any V c _ _

end Cert.Kernel.Hand

end
-- ==== Proof.K.R6.lean ====
/- Region 6 of @main (custom_call 6, `cc6__dense_kernel`: a plain dense layer (no bias, no activation); output array `main_v50`): the proof data at the contents the region is entered from, the body obligation, and the invariant's two ends. -/
import proofs.«406692_j3745211482886_1_alg».proof.Proof.Gen.Kernel.Launch
import proofs.«406692_j3745211482886_1_alg».proof.Proof.Gen.Kernel.Skeleton
import proofs.«406692_j3745211482886_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1000x64 := Rect.unit (s := S1000x64) ![0, 0] S1000x64.size inb_S1000x64_S1000x64_0_0
abbrev r6_1 : Rect S64x1 := Rect.unit (s := S64x1) ![0, 0] S64x1.size inb_S64x1_S64x1_0_0
abbrev r6_3 : Rect S1000x1 := Rect.unit (s := S1000x1) ![0, 0] S1000x1.size inb_S1000x1_S1000x1_0_0

def out6_3 (x0 : Vec F S1000x64 .bf16) (x1 : Vec F S64x1 .bf16) : Vec F S1000x1 .f32 :=
  View.canon [⟨r6_3, k6_pay1 (View.ld x0 r6_0) (View.ld x1 r6_1)⟩]

-- The body on whole memrefs: it loads the operand blocks, stores the payload over the whole output block and changes nothing else.
theorem sound_kernel6 (c : Dev nD) (E : Set ℕ) (i : grid6.Coords) (arg1 : Memref sig .tc .vmem S1000x64 .bf16) (harg1 : arg1.IsWhole) (arg2 : Memref sig .tc .vmem S64x1 .bf16) (harg2 : arg2.IsWhole) (arg3 : Memref sig .tc .vmem S1x1 .f32) (harg3 : arg3.IsWhole) (arg4 : Memref sig .tc .vmem S1000x1 .f32) (harg4 : arg4.IsWhole)
    (x0 : Vec F S1000x64 .bf16) (x1 : Vec F S64x1 .bf16) (x2 : Vec F S1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1)) -∗ K ⟨⟩))
      ⊢ wp frame (wpE (defs₀ (F := F)) Variants.none c none) E (cc6__dense_kernel i arg1 harg1 arg2 harg2 arg3 harg3 arg4 harg4) K := by
  simp only [cc6__dense_kernel_eq_skeleton]; unfold cc6__dense_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x1.size (by rfl))

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl
theorem q_eq6 (c : Dev nD) (w : Fin cfg6.W) : (dat6 V c).q w = fullShare := rfl
theorem owed_eq6 (c : Dev nD) (t : Fin (cfg6.N + 1)) : (dat6 V c).owed t = 0 := rfl

-- The body leaves each operand's block in place, so every point finds it as the region did.
theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

-- The body at any point, whatever else is held (`R`, `R'`): the operands' memrefs hold their blocks, so `sound_kernel6` applies.
theorem sound_body6 (c : Dev nD) (t : Fin cfg6.N) (R R' : sProp 𝕄) :
    iprop(R ∗ R'
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d)))
    ⊢ wp frame (wpE (defs₀ (F := F)) Variants.none c none) Set.univ (bodyAt6 t) fun _ => iprop(R ∗ R'
      ∗ owns (c : Thread nD τ) (st6_0 t) fullShare ((dat6 V c).after 0 t)
      ∗ owns (c : Thread nD τ) (st6_1 t) fullShare ((dat6 V c).after 1 t)
      ∗ owns (c : Thread nD τ) (st6_2 t) fullShare ((dat6 V c).after 2 t)
      ∗ owns (c : Thread nD τ) (st6_3 t) fullShare ((dat6 V c).after 3 t)) := by
  simp only [before6_0, before6_1, before6_2]
  dsimp only [dat6]
  iintro ⟨Ha, Hb, ⟨%d0, H0⟩, ⟨%d1, H1⟩, ⟨%d2, H2⟩, ⟨%d3, H3⟩⟩
  iapply (sound_kernel6 c Set.univ (grid6.coords t) (st6_0 t) _ (st6_1 t) _ (st6_2 t) _ (st6_3 t) _ (iblk6 V c 0 t) (iblk6 V c 1 t) (iblk6 V c 2 t) _)
  iframe H0 H1 H2
  isplitl [H3]; · iexists _; iexact H3
  iintro ⟨H0, H1, H2, H3⟩
  iframe Ha Hb H0 H1 H2 H3

theorem body_obligation6 (c : Dev nD) : BodyObligation (dat6 (F := F) V c) (defs₀ (F := F)) Variants.none () Set.univ := fun t => by
  rw [bigSep_W6, bigSep_W6]
  exact sound_body6 V c t _ _

theorem hin6 (c : Dev nD) : (Pipeline.ΦA spec6 c : sProp 𝕄) ⊢ (dat6 V c).Φ 0 := .rfl
theorem hout6 (c : Dev nD) : (dat6 V c).Φ (Fin.last cfg6.N) ⊢ (Pipeline.ΦA spec6 c : sProp 𝕄) := .rfl

end Cert.Kernel.Hand

end
-- ==== Proof.K.R7Runs.lean ====
/- Region 7 (the sparse aggregation `cc7__spmm_kernel`: a one-hot product accumulated over the edge tiles, bias and leaky rectifier at the last): what the three cases of the body's run share. -/
import proofs.«406692_j3745211482886_1_alg».proof.Proof.Gen.Kernel.Launch
import proofs.«406692_j3745211482886_1_alg».proof.Proof.Gen.Kernel.Skeleton
import proofs.«406692_j3745211482886_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 125 = 0 :=
  (by decide +kernel : ∀ t : Fin grid7.N, cond7_0 (grid7.coords t) ↔ t.val % 125 = 0)

abbrev cond7_1 (i : grid7.Coords) : Prop := k7_cond2 i = 1#1
theorem hcond7_1 : ∀ t : Fin cfg7.N, cond7_1 (grid7.coords t) ↔ t.val % 125 = 124 :=
  (by decide +kernel : ∀ t : Fin grid7.N, cond7_1 (grid7.coords t) ↔ t.val % 125 = 124)

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem idleAt7_3 : ∀ t : Fin cfg7.N, ¬cond7_1 (grid7.coords t) → cfg7.idle 3 (grid7.coords t) = true := by decide +kernel
theorem noFlush7_3 : ∀ t : Fin cfg7.N, ¬cond7_1 (grid7.coords t) → (cfg7.win 3).flush t = false := by decide +kernel
theorem liveAt7_3 : ∀ t : Fin cfg7.N, cond7_1 (grid7.coords t) → cfg7.idle 3 (grid7.coords t) = false := by decide +kernel

abbrev ms7_0 (t : Fin cfg7.N) : Memref sig .tc .vmem S1x6400 .i32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S6400x1 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1000x1 .f32 := win7_3.stage (cfg7.slots t 3)
abbrev hs7_3 (t : Fin cfg7.N) : (ms7_3 t).IsWhole := hstage7_3 ((cfg7.slots t 3).cast nbuf7_3)
abbrev scM7_0 : Memref sig .tc .vmem S1000x1 .f32 := Memref.whole cc7_scratch0

-- a whole memref reads its raw contents bijectively, so owning it at `x` is holding the raw contents that read `x`
theorem owns_unread7 (c : Thread nD τ) {sp : Space} {S : Shape} {e : EltTy} {m : Memref sig c.2.kind sp S e} (hm : m.IsWhole) (q : PosShare TreeShare)
    (x : S.Idx → Elt F e) : (owns c m q x : sProp 𝕄) = (m.view.loc c ↦[m.view.set]{q} hm.unread x) := by
  have h₁ : (owns c m q x : sProp 𝕄) ⊢ (m.view.loc c ↦[m.view.set]{q} hm.unread x) := by
    unfold owns; iintro ⟨%f, %hf, H⟩; obtain rfl := hm.eq_unread hf; iexact H
  have h₂ : (m.view.loc c ↦[m.view.set]{q} hm.unread x : sProp 𝕄) ⊢ owns c m q x := by
    unfold owns; iintro H; iexists _; isplitr
    · ipureintro; exact hm.read_unread x
    · iexact H
  exact BI.equiv_iff.mp ⟨h₁, h₂⟩

-- pieces that tile a memref's shape leave it, whatever it held, at their canonical contents
theorem owns_canon7 (c : Thread nD τ) {sp : Space} {S : Shape} {e : EltTy} (m : Memref sig c.2.kind sp S e) (L : List (View.Piece (Elt F) S e))
    (hL : View.Piece.tiledL L S.size = true) :
    (iprop(∃ f, m.view.loc c ↦[m.view.set]{fullShare} m.view.writes (Elt F) f L) : sProp 𝕄) ⊢ owns c m fullShare (View.canon L) := by
  rw [← View.read_writes_junk_eq_canon m.view L]
  iintro ⟨%f, H⟩
  ihave H' := (Ring.owns_of_writes_tiledL m.view S.size) $$ H
  iapply H'; ipureintro; exact hL

abbrev restBut7 (c : Dev nD) : sProp 𝕄 :=
  Pipeline.scopedRestBut (Ix := Unit) (Name := ℕ) (U := Pipeline.UD sig nD τ) (Lvl := ℕ) (Val := Elt F) spec7 c [cc7_scratch0]

theorem PhiA7_eq (c : Dev nD) :
    (Pipeline.ΦA spec7 c : sProp 𝕄)
      = iprop(iprop((∃ d, owns (c : Thread nD τ) scM7_0 fullShare d) ∗ restBut7 c) ∗ (∃ r, prngReg c r)) := by
  unfold Pipeline.ΦA; rw [scopedRest7_split]; simp only [scM7_0, owns_whole]; try rfl

end Cert.Kernel.Hand

end
-- ==== Proof.K.R7RunA.lean ====
/- Region 7, the body's run at the first edge tile of a node tile: the accumulator is zeroed, then the tile's product is added; the output block is left as found. -/
import proofs.«406692_j3745211482886_1_alg».proof.Proof.K.R7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun7_A (c : Dev nD) (i : grid7.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : cond7_0 i) (hc1 : ¬cond7_1 i)
    (x0 : Vec F S1x6400 .i32) (x1 : Vec F S6400x1 .bf16) (x2 : Vec F S1x1 .f32) :
    Σ' (L3 : List (View.Piece (Elt F) S1000x1 .f32)), { LS0 : List (View.Piece (Elt F) S1000x1 .f32) //
      ∀ (xi3 : Vec F S1000x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__spmm_kernel i arg2 harg2 arg3 harg3 arg4 harg4 arg5 harg5 arg6 harg6) K } := by
  refine ⟨[], ?_, fun xi3 E K => ?run⟩
  case run =>
    simp only [cc7__spmm_kernel_eq_skeleton]; unfold cc7__spmm_kernel_skel
    rw [owns_unread7 (c : Thread nD τ) harg2, owns_unread7 (c : Thread nD τ) harg3, owns_unread7 (c : Thread nD τ) harg4, owns_unread7 (c : Thread nD τ) harg5]
    unfold owns
    iintro ⟨H0, H1, H2, H3, ⟨%ds0, %fs0, -, HS0⟩, Hk⟩
    sl_exec (disch := first | exact hc0 | exact hc1)
    sl_step
    iapply Hk
    iframe H0 H1 H2 H3
    iexists _; iexact HS0

end Cert.Kernel.Hand

end
-- ==== Proof.K.R7RunB.lean ====
/- Region 7, the body's run at an edge tile that is neither first nor last: the tile's product is added to the accumulator; the output block is left as found. -/
import proofs.«406692_j3745211482886_1_alg».proof.Proof.K.R7RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun7_B (c : Dev nD) (i : grid7.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : ¬cond7_0 i) (hc1 : ¬cond7_1 i)
    (x0 : Vec F S1x6400 .i32) (x1 : Vec F S6400x1 .bf16) (x2 : Vec F S1x1 .f32) (xs0 : Vec F S1000x1 .f32) :
    Σ' (L3 : List (View.Piece (Elt F) S1000x1 .f32)), { LS0 : List (View.Piece (Elt F) S1000x1 .f32) //
      ∀ (xi3 : Vec F S1000x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc7__spmm_kernel i arg2 harg2 arg3 harg3 arg4 harg4 arg5 harg5 arg6 harg6) K } := by
  refine ⟨[], ?_, fun xi3 E K => ?run⟩
  case run =>
    simp only [cc7__spmm_kernel_eq_skeleton]; unfold cc7__spmm_kernel_skel
    rw [owns_unread7 (c : Thread nD τ) harg2, owns_unread7 (c : Thread nD τ) harg3, owns_unread7 (c : Thread nD τ) harg4, owns_unread7 (c : Thread nD τ) harg5, owns_unread7 (c : Thread nD τ) harg6]
    iintro ⟨H0, H1, H2, H3, HS0, Hk⟩
    sl_exec (disch := first | exact hc0 | exact hc1)
    sl_step
    iapply Hk
    iframe H0 H1 H2 H3
    iexists _; iexact HS0

end Cert.Kernel.Hand

end
-- ==== Proof.K.R7RunC.lean ====
/- Region 7, the body's run at the last edge tile of a node tile: the tile's product is added to the accumulator, then the output block is stored (the accumulator plus the bias row, through the leaky rectifier). -/
import proofs.«406692_j3745211482886_1_alg».proof.Proof.K.R7RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

noncomputable def kernelRun7_C (c : Dev nD) (i : grid7.Coords) (arg2 : Memref sig .tc .vmem S1x6400 .i32) (harg2 : arg2.IsWhole) (arg3 : Memref sig .tc .vmem S6400x1 .bf16) (harg3 : arg3.IsWhole) (arg4 : Memref sig .tc .vmem S1x1 .f32) (harg4 : arg4.IsWhole) (arg5 : Memref sig .tc .vmem S1000x1 .f32) (harg5 : arg5.IsWhole) (arg6 : Memref sig .tc .vmem S1000x1 .f32) (harg6 : arg6.IsWhole) (hc0 : ¬cond7_0 i) (hc1 : cond7_1 i)
    (x0 : Vec F S1x6400 .i32) (x1 : Vec F S6400x1 .bf16) (x2 : Vec F S1x1 .f32) (xs0 : Vec F S1000x1 .f32) :
    Σ' (L3 : List (View.Piece (Elt F) S1000x1 .f32)), { LS0 : List (View.Piece (Elt F) S1000x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc7__spmm_kernel i arg2 harg2 arg3 harg3 arg4 harg4 arg5 harg5 arg6 harg6) K } := by
  refine ⟨?_, ?_, fun E K => ?run⟩
  case run =>
    simp only [cc7__spmm_kernel_eq_skeleton]; unfold cc7__spmm_kernel_skel
    rw [owns_unread7 (c : Thread nD τ) harg2, owns_unread7 (c : Thread nD τ) harg3, owns_unread7 (c : Thread nD τ) harg4, owns_unread7 (c : Thread nD τ) harg6]
    unfold owns
    iintro ⟨H0, H1, H2, ⟨%d3, %f3, -, H3⟩, HS0, Hk⟩
    sl_exec (disch := first | exact hc0 | exact hc1)
    sl_step
    iapply Hk
    iframe H0 H1 H2
    isplitl [H3]; · iexists _; iexact H3
    iexists _; iexact HS0

end Cert.Kernel.Hand

end
-- ==== Proof.K.R7.lean ====
/- Region 7: what the output block and the accumulator hold point by point, the pipeline's proof data at the contents `V` the region is entered from, the body obligation, and the invariant's two ends. -/
import proofs.«406692_j3745211482886_1_alg».proof.Proof.K.R7RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

section Point
variable (c : Dev nD) (t : Fin cfg7.N)

-- each case's run at point `t`: the point's memrefs, the accumulator, the point's input blocks
abbrev atA7 (h0 : t.val % 125 = 0) (h1 : ¬t.val % 125 = 124) :=
  kernelRun7_A c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)
abbrev atB7 (h0 : ¬t.val % 125 = 0) (h1 : ¬t.val % 125 = 124) (xs : Vec F S1000x1 .f32) :=
  kernelRun7_B c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) xs
abbrev atC7 (h0 : ¬t.val % 125 = 0) (h1 : t.val % 125 = 124) (xs : Vec F S1000x1 .f32) :=
  kernelRun7_C c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) xs

-- one point's step: from what the accumulator held, the pair (output block, accumulator) the point's case leaves
def step7 (xs : Vec F S1000x1 .f32) : Vec F S1000x1 .f32 × Vec F S1000x1 .f32 :=
  if h0 : t.val % 125 = 0 then (View.canon (atA7 V c t h0 (by omega)).1, View.canon (atA7 V c t h0 (by omega)).2.1)
  else if h1 : t.val % 125 = 124 then (View.canon (atC7 V c t h0 h1 xs).1, View.canon (atC7 V c t h0 h1 xs).2.1)
  else (View.canon (atB7 V c t h0 h1 xs).1, View.canon (atB7 V c t h0 h1 xs).2.1)

end Point

def outsAt7 (c : Dev nD) : (n : ℕ) → n < cfg7.N → Vec F S1000x1 .f32 × Vec F S1000x1 .f32
  | 0, hn => step7 V c ⟨0, hn⟩ (View.canon ([] : List (View.Piece (Elt F) S1000x1 .f32)))
  | n + 1, hn => step7 V c ⟨n + 1, hn⟩ (outsAt7 c n (Nat.lt_of_succ_lt hn)).2

-- what the point before `t` left in the accumulator
abbrev prev7 (c : Dev nD) (t : Fin cfg7.N) : Vec F S1000x1 .f32 := (outsAt7 V c (t.val - 1) (Nat.lt_of_le_of_lt (Nat.sub_le _ _) t.isLt)).2

theorem outsAt7_eq (c : Dev nD) (t : Fin cfg7.N) : outsAt7 V c t.val t.isLt = step7 V c t (prev7 V c t) := by
  obtain ⟨n, hn⟩ := t
  cases n with
  | zero =>
    have h : (⟨0, hn⟩ : Fin cfg7.N).val % 125 = 0 := Nat.zero_mod _
    show step7 V c ⟨0, hn⟩ _ = step7 V c ⟨0, hn⟩ _
    unfold step7
    rw [dif_pos h, dif_pos h]
  | succ n => rfl

theorem outsAt7_A (c : Dev nD) (t : Fin cfg7.N) (h0 : t.val % 125 = 0) (h1 : ¬t.val % 125 = 124) :
    outsAt7 V c t.val t.isLt = (View.canon (atA7 V c t h0 h1).1, View.canon (atA7 V c t h0 h1).2.1) := (outsAt7_eq V c t).trans (dif_pos h0)
theorem outsAt7_B (c : Dev nD) (t : Fin cfg7.N) (h0 : ¬t.val % 125 = 0) (h1 : ¬t.val % 125 = 124) :
    outsAt7 V c t.val t.isLt = (View.canon (atB7 V c t h0 h1 (prev7 V c t)).1, View.canon (atB7 V c t h0 h1 (prev7 V c t)).2.1) := (outsAt7_eq V c t).trans ((dif_neg h0).trans (dif_neg h1))
theorem outsAt7_C (c : Dev nD) (t : Fin cfg7.N) (h0 : ¬t.val % 125 = 0) (h1 : t.val % 125 = 124) :
    outsAt7 V c t.val t.isLt = (View.canon (atC7 V c t h0 h1 (prev7 V c t)).1, View.canon (atC7 V c t h0 h1 (prev7 V c t)).2.1) := (outsAt7_eq V c t).trans ((dif_neg h0).trans (dif_pos h1))

-- the invariant before position `n`: the class's before the first point, afterwards the accumulator at what the point before left
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ restBut7 c) ∗ (∃ r, prngReg c r))

theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ restBut7 c) ∗ (∃ r, prngReg c r)) := by
  cases n with
  | zero => exact absurd rfl hz
  | succ n => rfl

-- at every position the invariant holds the accumulator at some contents
theorem PhiS7_any (c : Dev nD) (n : ℕ) (h : n ≤ cfg7.N) :
    PhiS7 V c n h ⊢ iprop(iprop((∃ d, owns (c : Thread nD τ) scM7_0 fullShare d) ∗ restBut7 c) ∗ (∃ r, prngReg c r)) := by
  cases n with
  | zero => exact Entails.of_eq (PhiA7_eq c)
  | succ n =>
    rw [PhiS7_pos V c _ h (Nat.succ_ne_zero n)]
    iintro ⟨⟨HS0, HR⟩, Hg⟩
    iframe HR Hg
    iexists _; iexact HS0

def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by
  dsimp only [dat7]
theorem owed_eq7 (c : Dev nD) (t : Fin (cfg7.N + 1)) : (dat7 V c).owed t = 0 := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

-- the closed forms say which case the point is in; that case's run applies; the invariant lends the accumulator and takes it back at the point's contents
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = iprop(iprop(owns (c : Thread nD τ) scM7_0 fullShare ((outsAt7 V c t.val t.isLt).2) ∗ restBut7 c) ∗ (∃ r, prngReg c r)) from rfl]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [PhiS7_castSucc V c t]
  by_cases h1 : t.val % 125 = 124
  · have h0 : ¬t.val % 125 = 0 := by omega
    rw [show (dat7 V c).leavesExact 3 t = owns (c : Thread nD τ) (ms7_3 t) fullShare ((dat7 V c).after 3 t) from by
      unfold Dat.leavesExact; rw [liveAt7_3 t ((hcond7_1 t).mpr h1)], after7_3]
    rw [outsAt7_C V c t h0 h1, PhiS7_pos V c _ _ (by omega)]
    dsimp only
    iintro ⟨⟨⟨HS0, HR⟩, Hg⟩, Ho, ⟨%d0, H0⟩, ⟨%d1, H1⟩, ⟨%d2, H2⟩, ⟨%d3, H3⟩⟩
    iapply ((atC7 V c t h0 h1 (prev7 V c t)).2.2 Set.univ _)
    iframe H0 H1 H2 HS0
    isplitl [H3]; · iexists _; iexact H3
    iintro ⟨H0, H1, H2, H3, HS0⟩
    iframe HR Hg Ho H0 H1 H2
    isplitl [HS0]
    · iapply (owns_canon7 (c : Thread nD τ) scM7_0 _ (by sl_kernel_rfl)) $$ HS0
    · iapply (owns_canon7 (c : Thread nD τ) (ms7_3 t) _ (by sl_kernel_rfl)) $$ H3
  · rw [Dat.leavesExact_idle (dat7 V c) 3 t (idleAt7_3 t (fun h => h1 ((hcond7_1 t).mp h))) (noFlush7_3 t (fun h => h1 ((hcond7_1 t).mp h)))]
    by_cases h0 : t.val % 125 = 0
    · rw [outsAt7_A V c t h0 h1]
      dsimp only
      refine (sep_mono_left (PhiS7_any V c _ _)).trans ?_
      iintro ⟨⟨⟨HS0, HR⟩, Hg⟩, Ho, ⟨%d0, H0⟩, ⟨%d1, H1⟩, ⟨%d2, H2⟩, ⟨%d3, H3⟩⟩
      iapply ((atA7 V c t h0 h1).2.2 ((dat7 V c).before 3 t d3) Set.univ _)
      iframe H0 H1 H2 H3 HS0
      iintro ⟨H0, H1, H2, H3, HS0⟩
      iframe HR Hg Ho H0 H1 H2
      isplitl [HS0]
      · iapply (owns_canon7 (c : Thread nD τ) scM7_0 _ (by sl_kernel_rfl)) $$ HS0
      · iexists _; iexact H3
    · rw [outsAt7_B V c t h0 h1, PhiS7_pos V c _ _ (by omega)]
      dsimp only
      iintro ⟨⟨⟨HS0, HR⟩, Hg⟩, Ho, ⟨%d0, H0⟩, ⟨%d1, H1⟩, ⟨%d2, H2⟩, ⟨%d3, H3⟩⟩
      iapply ((atB7 V c t h0 h1 (prev7 V c t)).2.2 ((dat7 V c).before 3 t d3) Set.univ _)
      iframe H0 H1 H2 H3 HS0
      iintro ⟨H0, H1, H2, H3, HS0⟩
      iframe HR Hg Ho H0 H1 H2
      isplitl [HS0]
      · iapply (owns_canon7 (c : Thread nD τ) scM7_0 _ (by sl_kernel_rfl)) $$ HS0
      · iexists _; iexact H3

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.ΦA spec7 c : sProp 𝕄) ⊢ (dat7 V c).Φ 0 := by
  rw [show (dat7 V c).Φ 0 = Pipeline.ΦA spec7 c from rfl]
  try exact Idealize.SL.BI.Entails.refl _

theorem hout7 (c : Dev nD) : (dat7 V c).Φ (Fin.last cfg7.N) ⊢ (Pipeline.ΦA spec7 c : sProp 𝕄) := by
  rw [show (dat7 V c).Φ (Fin.last cfg7.N) = PhiS7 V c (Fin.last cfg7.N).val (Nat.le_of_lt_succ (Fin.last cfg7.N).isLt) from rfl, PhiA7_eq]
  exact PhiS7_any V c _ _

end Cert.Kernel.Hand

end
-- ==== Proof.K.Run.lean ====
/- The run of @main: every weakly fair execution terminates, the result array ends at the last valuation of the chain of host stretches and regions, each argument as launched. -/
import proofs.«406692_j3745211482886_1_alg».proof.Proof.K.RunCond
import proofs.«406692_j3745211482886_1_alg».proof.Proof.K.R0
import proofs.«406692_j3745211482886_1_alg».proof.Proof.K.R1
import proofs.«406692_j3745211482886_1_alg».proof.Proof.K.R2
import proofs.«406692_j3745211482886_1_alg».proof.Proof.K.R3
import proofs.«406692_j3745211482886_1_alg».proof.Proof.K.R4
import proofs.«406692_j3745211482886_1_alg».proof.Proof.K.R5
import proofs.«406692_j3745211482886_1_alg».proof.Proof.K.R6
import proofs.«406692_j3745211482886_1_alg».proof.Proof.K.R7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

section Leave

variable {cfg : Cfg sig Λ₀} (W : Dev nD → Valuation τ sig (Elt F)) (d : (c : Dev nD) → Dat τ (Elt F) Unit ℕ (Pipeline.UD sig nD τ) ℕ cfg c) (o : Fin cfg.W) (c : Dev nD)

/-- What a region whose window `o` alone is written back leaves: `o`'s array at its write-backs folded over the entry contents, every other buffer as entered. -/
def leave : Valuation τ sig (Elt F) := Function.update (W c) (Pipeline.arrRef cfg.spec o) ((d c).arrAt o cfg.N)

theorem leave_self : leave W d o c (Pipeline.arrRef cfg.spec o) = (d c).arrAt o cfg.N := Function.update_self ..

theorem leave_of_ne (b : Ref sig .tc) (h : b ≠ Pipeline.arrRef cfg.spec o) : leave W d o c b = W c b :=
  Function.update_of_ne (StableHlo.devRef_ne_of_ne h) ..

/-- Every window's array ends where `leave` has it: an input window's is never written back and distinct windows have distinct arrays. -/
theorem leave_arr (hinj : Function.Injective (Pipeline.arrRef cfg.spec)) (hio : ∀ w, w ≠ o → (cfg.win w).isOut = false)
    (hA : ∀ w, (d c).A w = rd W c (Pipeline.arrRef cfg.spec w)) (w : Fin cfg.W) :
    (d c).arrAt w cfg.N = rd (leave W d o) c (Pipeline.arrRef cfg.spec w) := by
  by_cases h : w = o
  · subst h; exact (leave_self W d w c).symm
  · exact (((d c).arrAt_in w (hio w h) _).trans (hA w)).trans (leave_of_ne W d o c _ fun e => h (hinj e)).symm

end Leave

def W1 (c : Dev nD) : Valuation τ sig (Elt F) := StableHlo.after hostOps0 (V0 m c)
def W2 : Dev nD → Valuation τ sig (Elt F) := leave (W1 m) (dat0 (rd (W1 m))) (3 : Fin 4)
def W3 (c : Dev nD) : Valuation τ sig (Elt F) := StableHlo.after hostOps1 (W2 m c)
def W4 : Dev nD → Valuation τ sig (Elt F) := leave (W3 m) (dat1 (rd (W3 m))) (3 : Fin 4)
def W5 (c : Dev nD) : Valuation τ sig (Elt F) := StableHlo.after hostOps2 (W4 m c)
def W6 : Dev nD → Valuation τ sig (Elt F) := leave (W5 m) (dat2 (rd (W5 m))) (3 : Fin 4)
def W7 (c : Dev nD) : Valuation τ sig (Elt F) := StableHlo.after hostOps3 (W6 m c)
def W8 : Dev nD → Valuation τ sig (Elt F) := leave (W7 m) (dat3 (rd (W7 m))) (3 : Fin 4)
def W9 (c : Dev nD) : Valuation τ sig (Elt F) := StableHlo.after hostOps4 (W8 m c)
def W10 : Dev nD → Valuation τ sig (Elt F) := leave (W9 m) (dat4 (rd (W9 m))) (3 : Fin 4)
def W11 (c : Dev nD) : Valuation τ sig (Elt F) := StableHlo.after hostOps5 (W10 m c)
def W12 : Dev nD → Valuation τ sig (Elt F) := leave (W11 m) (dat5 (rd (W11 m))) (3 : Fin 4)
def W13 (c : Dev nD) : Valuation τ sig (Elt F) := StableHlo.after hostOps6 (W12 m c)
def W14 : Dev nD → Valuation τ sig (Elt F) := leave (W13 m) (dat6 (rd (W13 m))) (3 : Fin 4)
def W15 (c : Dev nD) : Valuation τ sig (Elt F) := StableHlo.after hostOps7 (W14 m c)
def W16 : Dev nD → Valuation τ sig (Elt F) := leave (W15 m) (dat7 (rd (W15 m))) (3 : Fin 4)
def W17 (c : Dev nD) : Valuation τ sig (Elt F) := StableHlo.after hostOps8 (W16 m c)

def outs : Outs (F := F) := fun J r c =>
  match J with
  | 2 => W2 m c r | 4 => W4 m c r | 6 => W6 m c r | 8 => W8 m c r
  | 10 => W10 m c r | 12 => W12 m c r | 14 => W14 m c r | 16 => W16 m c r
  | _ => V0 m c r

/-- Updating an equal valuation at `r` by what the updated one holds there gives the updated one. -/
theorem update_at_self {V W : Valuation τ sig (Elt F)} (h : V = W) (r : DevRef τ sig) (x : r.ty.Contents (Elt F)) :
    Function.update V r (Function.update W r x r) = Function.update W r x := by
  rw [h, Function.update_self]

/-- What a region leaves in its output array, its proof data read at an equal entry valuation. -/
theorem leave_out {cfg : Cfg sig Λ₀} (D : ((c : Dev nD) → (b : Ref sig .tc) → Buf (Elt F) ((c : Thread nD τ).loc b)) → (c : Dev nD) → Dat τ (Elt F) Unit ℕ (Pipeline.UD sig nD τ) ℕ cfg c)
    (o : Fin cfg.W) {V W : Dev nD → Valuation τ sig (Elt F)} (h : ∀ c, V c = W c) (c : Dev nD) :
    leave W (D (rd W)) o c (Pipeline.arrRef cfg.spec o) = (D (fun c b => V c b) c).arrAt o cfg.N := by
  obtain rfl : V = W := funext h
  exact leave_self ..

theorem V1_eq (c : Dev nD) : V1 m c = W1 m c := rfl
theorem V2_eq (c : Dev nD) : V2 m (outs m) c = W2 m c := update_at_self (V1_eq m c) main_v11 _
theorem V3_eq (c : Dev nD) : V3 m (outs m) c = W3 m c := congrArg (StableHlo.after hostOps1) (V2_eq m c)
theorem V4_eq (c : Dev nD) : V4 m (outs m) c = W4 m c := update_at_self (V3_eq m c) main_v14 _
theorem V5_eq (c : Dev nD) : V5 m (outs m) c = W5 m c := congrArg (StableHlo.after hostOps2) (V4_eq m c)
theorem V6_eq (c : Dev nD) : V6 m (outs m) c = W6 m c := update_at_self (V5_eq m c) main_v26 _
theorem V7_eq (c : Dev nD) : V7 m (outs m) c = W7 m c := congrArg (StableHlo.after hostOps3) (V6_eq m c)
theorem V8_eq (c : Dev nD) : V8 m (outs m) c = W8 m c := update_at_self (V7_eq m c) main_v29 _
theorem V9_eq (c : Dev nD) : V9 m (outs m) c = W9 m c := congrArg (StableHlo.after hostOps4) (V8_eq m c)
theorem V10_eq (c : Dev nD) : V10 m (outs m) c = W10 m c := update_at_self (V9_eq m c) main_v35 _
theorem V11_eq (c : Dev nD) : V11 m (outs m) c = W11 m c := congrArg (StableHlo.after hostOps5) (V10_eq m c)
theorem V12_eq (c : Dev nD) : V12 m (outs m) c = W12 m c := update_at_self (V11_eq m c) main_v44 _
theorem V13_eq (c : Dev nD) : V13 m (outs m) c = W13 m c := congrArg (StableHlo.after hostOps6) (V12_eq m c)
theorem V14_eq (c : Dev nD) : V14 m (outs m) c = W14 m c := update_at_self (V13_eq m c) main_v50 _
theorem V15_eq (c : Dev nD) : V15 m (outs m) c = W15 m c := congrArg (StableHlo.after hostOps7) (V14_eq m c)
theorem V16_eq (c : Dev nD) : V16 m (outs m) c = W16 m c := update_at_self (V15_eq m c) main_v59 _
theorem V17_eq (c : Dev nD) : V17 m (outs m) c = W17 m c := congrArg (StableHlo.after hostOps8) (V16_eq m c)

theorem outs_eq2 : ∀ c : Dev nD, outs m 2 main_v11 c = (dat0 (fun c b => V1 m c b) c).arrAt 3 cfg0.N :=
  leave_out dat0 (3 : Fin 4) (V1_eq m)
theorem outs_eq4 : ∀ c : Dev nD, outs m 4 main_v14 c = (dat1 (fun c b => V3 m (outs m) c b) c).arrAt 3 cfg1.N :=
  leave_out dat1 (3 : Fin 4) (V3_eq m)
theorem outs_eq6 : ∀ c : Dev nD, outs m 6 main_v26 c = (dat2 (fun c b => V5 m (outs m) c b) c).arrAt 3 cfg2.N :=
  leave_out dat2 (3 : Fin 4) (V5_eq m)
theorem outs_eq8 : ∀ c : Dev nD, outs m 8 main_v29 c = (dat3 (fun c b => V7 m (outs m) c b) c).arrAt 3 cfg3.N :=
  leave_out dat3 (3 : Fin 4) (V7_eq m)
theorem outs_eq10 : ∀ c : Dev nD, outs m 10 main_v35 c = (dat4 (fun c b => V9 m (outs m) c b) c).arrAt 3 cfg4.N :=
  leave_out dat4 (3 : Fin 4) (V9_eq m)
theorem outs_eq12 : ∀ c : Dev nD, outs m 12 main_v44 c = (dat5 (fun c b => V11 m (outs m) c b) c).arrAt 3 cfg5.N :=
  leave_out dat5 (3 : Fin 4) (V11_eq m)
theorem outs_eq14 : ∀ c : Dev nD, outs m 14 main_v50 c = (dat6 (fun c b => V13 m (outs m) c b) c).arrAt 3 cfg6.N :=
  leave_out dat6 (3 : Fin 4) (V13_eq m)
theorem outs_eq16 : ∀ c : Dev nD, outs m 16 main_v59 c = (dat7 (fun c b => V15 m (outs m) c b) c).arrAt 3 cfg7.N :=
  leave_out dat7 (3 : Fin 4) (V15_eq m)

def pdats : (p : Fin 8) → (c : Dev nD) → Dat τ (Elt F) Unit ℕ (Pipeline.UD sig nD τ) ℕ (cfgs p) c
  | ⟨0, _⟩ => fun c => dat0 (rd (W1 m)) c
  | ⟨1, _⟩ => fun c => dat1 (rd (W3 m)) c
  | ⟨2, _⟩ => fun c => dat2 (rd (W5 m)) c
  | ⟨3, _⟩ => fun c => dat3 (rd (W7 m)) c
  | ⟨4, _⟩ => fun c => dat4 (rd (W9 m)) c
  | ⟨5, _⟩ => fun c => dat5 (rd (W11 m)) c
  | ⟨6, _⟩ => fun c => dat6 (rd (W13 m)) c
  | ⟨7, _⟩ => fun c => dat7 (rd (W15 m)) c

abbrev Lnone : GSem nD τ sig → Finset Unit := fun _ => ∅
abbrev lv0 : GSem nD τ sig → Unit → ℕ := fun _ _ => 0
abbrev Rst (c : Dev nD) : sProp 𝕄 := iprop((∃ r, prngReg c r) ∗ ∃ W, owes (c : Thread nD τ) (0 : CellTallies nD τ sig Unit) W)

set_option backward.isDefEq.respectTransparency.types false in
/-- Region `p`, whose window `o` alone is written back, as a segment of the run: entered with every buffer at `Wi`, left with every buffer at `leave Wi (pd p) o`. -/
def regOf (pd : (p : Fin 8) → (c : Dev nD) → Dat τ (Elt F) Unit ℕ (Pipeline.UD sig nD τ) ℕ (cfgs p) c) (p : Fin 8) (launch : Pipeline.LaunchFacts (nD := nD) (τ := τ) cfgs p)
    (Wi : Dev nD → Valuation τ sig (Elt F)) (o : Fin (cfgs p).W) (hio : ∀ w, w ≠ o → ((cfgs p).win w).isOut = false)
    (hb : ∀ c, BodyObligation (pd p c) defs₀ Variants.none () Set.univ)
    (howed : ∀ c t, (pd p c).owed t = 0) (hrec : ∀ c, (pd p c).recorded 0 = Set.univ) (hq : ∀ c w, (pd p c).q w = fullShare)
    (hA : ∀ c w, (pd p c).A w = rd Wi c (Pipeline.arrRef (cfgs p).spec w))
    (hΦ0 : ∀ c, (Pipeline.ΦA (cfgs p).spec c : sProp 𝕄) ⊢ (pd p c).Φ 0)
    (hΦN : ∀ c, (pd p c).Φ (Fin.last (cfgs p).N) ⊢ (Pipeline.ΦA (cfgs p).spec c : sProp 𝕄)) :
    Pipeline.RegionSeg (pcfgs (F := F)) adm pd () defs₀ Variants.none Lnone lv0 p where
  win := launch.win.to₀
  block_pos := launch.block_pos
  stage_whole := launch.stage_whole
  K := PEmpty
  osem k := k.elim
  ho := Pipeline.OwnSemFacts.none _
  hbody c := (hb c).loose
  hwaits := Pipeline.hwaits_of_owed_zero _ _ _ _ Lnone lv0 p howed
  pre c := iprop(StableHlo.held (c : Thread nD τ) (Pipeline.ucRefs τ sig) (Wi c) ∗ Rst c)
  post c := iprop(StableHlo.held (c : Thread nD τ) (Pipeline.ucRefs τ sig) (leave Wi (pd p) o c) ∗ Rst c)
  X c := iprop(∃ r, prngReg c r)
  Y c := iprop(∃ r, prngReg c r)
  Z c := Pipeline.unscopedRest (Ix := Unit) (Name := ℕ) (U := Pipeline.UD sig nD τ) (Lvl := ℕ) (cfgs p).spec c (rd Wi c)
  hentry c := by
    unfold Pipeline.Dat.owesAt Pipeline.owesWithin
    rw [Pipeline.ownSems0_none, howed c 0]
    have hsplit := Pipeline.arrays_of_unscopedBufs (p := p) (pcfgs (F := F)) adm pd launch.win launch.arr_whole c
      ((pd p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((hrec c).symm ▸ Set.mem_univ _)
      iexact HO
    isplitl [Hp]; · iexact Hp
    iexact Hrest
  hin c := by
    refine BIBase.Entails.trans ?_ (hΦ0 c)
    unfold Pipeline.ΦA
    iintro ⟨Hp, -, Hr⟩
    isplitl [Hr]; · iexact Hr
    iexact Hp
  hout c := by
    refine (hΦN c).trans ?_
    rw [Pipeline.ownSems0_none]; unfold Pipeline.ΦA
    iintro ⟨Hr, Hp⟩
    isplitl [Hp]; · iexact Hp
    isplitr; · iempintro
    iexact Hr
  hexit c := by
    unfold Pipeline.Dat.owesAt Pipeline.owesWithin
    rw [howed c (Fin.last _)]
    have hjoin := Pipeline.unscopedBufs_of_arrays (p := p) (pcfgs (F := F)) adm (Ix := Unit) (Name := ℕ) (U := Pipeline.UD sig nD τ) (Lvl := ℕ)
      launch.win launch.arr_whole c pd ((pd p c).share_full (hq c))
      (rd Wi c) (rd (leave Wi (pd p) o) c) ((pd p c).arrAt · (cfgs p).N) (leave_arr Wi (pd p) o c launch.win.arr_inj hio (hA c))
      fun b hn => leave_of_ne Wi (pd p) o c b fun e => hn (Finset.mem_image.mpr ⟨o, Finset.mem_univ _, e.symm⟩)
    rw [Pipeline.unscopedBufs_held] at hjoin
    iintro ⟨Ha, ⟨%W, -, HO⟩, HY, Hrest⟩
    imodintro
    isplitl [Ha Hrest]
    · iapply hjoin; isplitl [Ha] <;> iassumption
    isplitl [HY]; · iexact HY
    iexists W; iexact HO

def reg0 := regOf (pdats m) 0 launch0 (W1 m) (3 : Fin 4) (by decide) (body_obligation0 _) (owed_eq0 _) (fun _ => rfl) (q_eq0 _) (A_eq0 _) (hin0 _) (hout0 _)
def reg1 := regOf (pdats m) 1 launch1 (W3 m) (3 : Fin 4) (by decide) (body_obligation1 _) (owed_eq1 _) (fun _ => rfl) (q_eq1 _) (A_eq1 _) (hin1 _) (hout1 _)
def reg2 := regOf (pdats m) 2 launch2 (W5 m) (3 : Fin 4) (by decide) (body_obligation2 _) (owed_eq2 _) (fun _ => rfl) (q_eq2 _) (A_eq2 _) (hin2 _) (hout2 _)
def reg3 := regOf (pdats m) 3 launch3 (W7 m) (3 : Fin 4) (by decide) (body_obligation3 _) (owed_eq3 _) (fun _ => rfl) (q_eq3 _) (A_eq3 _) (hin3 _) (hout3 _)
def reg4 := regOf (pdats m) 4 launch4 (W9 m) (3 : Fin 4) (by decide) (body_obligation4 _) (owed_eq4 _) (fun _ => rfl) (q_eq4 _) (A_eq4 _) (hin4 _) (hout4 _)
def reg5 := regOf (pdats m) 5 launch5 (W11 m) (3 : Fin 4) (by decide) (body_obligation5 _) (owed_eq5 _) (fun _ => rfl) (q_eq5 _) (A_eq5 _) (hin5 _) (hout5 _)
def reg6 := regOf (pdats m) 6 launch6 (W13 m) (3 : Fin 4) (by decide) (body_obligation6 _) (owed_eq6 _) (fun _ => rfl) (q_eq6 _) (A_eq6 _) (hin6 _) (hout6 _)
def reg7 := regOf (pdats m) 7 launch7 (W15 m) (3 : Fin 4) (by decide) (body_obligation7 _) (owed_eq7 _) (fun _ => rfl) (q_eq7 _) (A_eq7 _) (hin7 _) (hout7 _)

set_option backward.isDefEq.respectTransparency.types false in
theorem run (ρ : Dev nD → PrngReg) : θ_run defs (onTc (τ := τ) (main (F := F))) ⟨m, fun _ => 0, ρ⟩ (fun r => ∀ c : Dev nD,
      r.2.mem ((c.tc : Thread nD τ).loc main_v61) = V17 m (outs m) c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_cond m embL () Variants.none Lnone lv0 (fun _ _ => rfl) ρ (outs m) (pdats m)
    0 (fun _ => iprop(emp)) (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => Rst c)
    (by
      refine Pipeline.initEach Lnone lv0 fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V1_eq m c]; exact .rfl) (fun c => by rw [V2_eq m c]; exact .rfl)
    (reg1 m) (fun c => by rw [V3_eq m c]; exact .rfl) (fun c => by rw [V4_eq m c]; exact .rfl)
    (reg2 m) (fun c => by rw [V5_eq m c]; exact .rfl) (fun c => by rw [V6_eq m c]; exact .rfl)
    (reg3 m) (fun c => by rw [V7_eq m c]; exact .rfl) (fun c => by rw [V8_eq m c]; exact .rfl)
    (reg4 m) (fun c => by rw [V9_eq m c]; exact .rfl) (fun c => by rw [V10_eq m c]; exact .rfl)
    (reg5 m) (fun c => by rw [V11_eq m c]; exact .rfl) (fun c => by rw [V12_eq m c]; exact .rfl)
    (reg6 m) (fun c => by rw [V13_eq m c]; exact .rfl) (fun c => by rw [V14_eq m c]; exact .rfl)
    (reg7 m) (fun c => by rw [V15_eq m c]; exact .rfl) (fun c => by rw [V16_eq m c]; exact .rfl)

end Cert.Kernel.Hand

end
-- ==== Proof.RefIndex.lean ====
/- The host's row gather and scatter-add, product, bias and rectifier read at an index: a host layer of either kind is the network's layer. -/
import Idealize.ShloMosaic.Lib.StackMember
import proofs.«406692_j3745211482886_1_alg».proof.Proof.LibIndex
import proofs.«406692_j3745211482886_1_alg».proof.Proof.Spec

namespace Cert.Gnn

open Idealize.ShloMosaic Idealize.ShloMosaic.ValueIdx Cert.Gcn

section Scatter

variable {N E D : Nat} (wf : ScatterDims.WF ⟨2, ![N, D]⟩ ⟨2, ![E, 1]⟩ ⟨2, ![E, D]⟩ [1] [0] [0] 1)
  (idx : IVec ⟨2, ![E, 1]⟩ 32) (j : (⟨2, ![E, D]⟩ : Shape).Idx)

theorem rowScatter_start0 : (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowScatter_window0 : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

theorem rowScatter_start1 : (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

theorem rowScatter_window1 : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

theorem rowScatter_resultIdx_iff (i : (⟨2, ![N, D]⟩ : Shape).Idx) :
    (rowScatterDims N E D wf).resultIdx? j idx = some i
      ↔ (idx (ix2 (j 0) 0)).toInt = ((i 0).val : Int) ∧ (j 1).val = (i 1).val := by
  constructor
  · exact scatterRows_resultIdx wf idx j i
  · rintro ⟨h0, h1⟩
    have hi0 : (i 0).val < N := (i 0).isLt
    have hi1 : (i 1).val < D := (i 1).isLt
    have hall : ∀ a, 0 ≤ (rowScatterDims N E D wf).start j idx a + ((rowScatterDims N E D wf).window j a : Nat)
        ∧ (rowScatterDims N E D wf).start j idx a + ((rowScatterDims N E D wf).window j a : Nat)
          < (⟨2, ![N, D]⟩ : Shape).size a := by
      intro a
      match a with
      | ⟨0, _⟩ =>
        show 0 ≤ (rowScatterDims N E D wf).start j idx 0 + ((rowScatterDims N E D wf).window j 0 : Nat)
          ∧ (rowScatterDims N E D wf).start j idx 0 + ((rowScatterDims N E D wf).window j 0 : Nat) < (N : Int)
        rw [rowScatter_start0, rowScatter_window0, h0]
        omega
      | ⟨1, _⟩ =>
        show 0 ≤ (rowScatterDims N E D wf).start j idx 1 + ((rowScatterDims N E D wf).window j 1 : Nat)
          ∧ (rowScatterDims N E D wf).start j idx 1 + ((rowScatterDims N E D wf).window j 1 : Nat) < (D : Int)
        rw [rowScatter_start1, rowScatter_window1, h1]
        omega
    unfold ScatterDims.resultIdx?
    rw [dif_pos hall]
    refine congrArg some (funext fun a => Fin.ext ?_)
    match a with
    | ⟨0, _⟩ =>
      show ((rowScatterDims N E D wf).start j idx 0 + ((rowScatterDims N E D wf).window j 0 : Nat)).toNat = (i 0).val
      rw [rowScatter_start0, rowScatter_window0, h0]
      omega
    | ⟨1, _⟩ =>
      show ((rowScatterDims N E D wf).start j idx 1 + ((rowScatterDims N E D wf).window j 1 : Nat)).toNat = (i 1).val
      rw [rowScatter_start1, rowScatter_window1, h1]
      omega

end Scatter

theorem rowScatter_sum {N E D : Nat} (wf : ScatterDims.WF ⟨2, ![N, D]⟩ ⟨2, ![E, 1]⟩ ⟨2, ![E, D]⟩ [1] [0] [0] 1)
    (idx : IVec ⟨2, ![E, 1]⟩ 32) (upd : (⟨2, ![E, D]⟩ : Shape).Idx → EReal) (n : Fin N) (c : Fin D) :
    (∑ j ∈ Finset.univ.filter (fun j => (rowScatterDims N E D wf).resultIdx? j idx = some (ix2 n c)), upd j)
      = ∑ e ∈ Finset.univ.filter (fun e : Fin E => (idx (ix2 e 0)).toInt = (n.val : Int)), upd (ix2 e c) := by
  rw [Finset.sum_filter, sum_idx2, Finset.sum_filter]
  refine Finset.sum_congr rfl fun e _ => ?_
  by_cases he : (idx (ix2 e 0)).toInt = (n.val : Int)
  · rw [if_pos he, Finset.sum_eq_single c]
    · rw [if_pos ((rowScatter_resultIdx_iff wf idx (ix2 e c) (ix2 n c)).2 ⟨he, rfl⟩)]
    · intro c' _ hc'
      rw [if_neg]
      intro h
      exact hc' (Fin.ext ((rowScatter_resultIdx_iff wf idx (ix2 e c') (ix2 n c)).1 h).2)
    · intro h; exact absurd (Finset.mem_univ c) h
  · rw [if_neg he]
    refine Finset.sum_eq_zero fun c' _ => ?_
    rw [if_neg]
    intro h
    exact he ((rowScatter_resultIdx_iff wf idx (ix2 e c') (ix2 n c)).1 h).1

theorem scatterAdd_zero_eq_segsum {D : Nat}
    (wf : ScatterDims.WF ⟨2, ![50000, D]⟩ ⟨2, ![800000, 1]⟩ ⟨2, ![800000, D]⟩ [1] [0] [0] 1)
    (z : (⟨2, ![50000, D]⟩ : Shape).Idx → EReal) (hz : ∀ i, z i = 0)
    (idx : IVec ⟨2, ![800000, 1]⟩ 32) (dst : Fin 800000 → BitVec 32) (hidx : ∀ e, idx (ix2 e 0) = dst e)
    (upd : (⟨2, ![800000, D]⟩ : Shape).Idx → EReal) (n : Fin 50000) (c : Fin D) :
    Ideal.hostScatterAdd (rowScatterDims 50000 800000 D wf) z idx upd (ix2 n c) = segsum (arr2 upd) dst n c := by
  unfold Ideal.hostScatterAdd segsum
  rw [hz, zero_add, rowScatter_sum]
  refine Finset.sum_congr ?_ fun e _ => rfl
  ext e
  simp only [Finset.mem_filter, Finset.mem_univ, true_and, hidx]

theorem gather_eq_rowsOf {D : Nat}
    (wf : GatherDims.WF ⟨2, ![50000, D]⟩ ⟨2, ![800000, 1]⟩ ⟨2, ![800000, D]⟩ [1] [0] [] [0] [] 1 ![1, D])
    (x : (⟨2, ![50000, D]⟩ : Shape).Idx → EReal) (idx : IVec ⟨2, ![800000, 1]⟩ 32) (src : Fin 800000 → BitVec 32)
    (hidx : ∀ e, idx (ix2 e 0) = if (src e).toInt < 0 then src e + 50000#32 else src e)
    (e : Fin 800000) (c : Fin D) :
    Host.gather (rowGatherDims 50000 800000 D wf) x idx (ix2 e c) = rowsOf (arr2 x) src e c := by
  rw [gatherRows_apply (by decide : 0 < 50000) wf x idx (ix2 e c)]
  show x (ix2 (crow 50000 _ (idx (ix2 e 0))) c) = x (ix2 (srcRow (src e)) c)
  rw [hidx]
  rfl

theorem select_slt_zero (v : BitVec 32) :
    Scalar.select (IntOp.cmpi .slt v 0#32) (IntOp.addi v 50000#32) v = if v.toInt < 0 then v + 50000#32 else v := by
  show (if BitVec.ofBool (v.slt 0#32) = 1 then v + 50000#32 else v) = _
  by_cases h : v.toInt < 0
  · have hs : v.slt 0#32 = true := by
      simp only [BitVec.slt, BitVec.toInt_zero, decide_eq_true_eq]; exact h
    rw [hs, if_pos h]; rfl
  · have hs : v.slt 0#32 = false := by
      simp only [BitVec.slt, BitVec.toInt_zero, decide_eq_false_iff_not]; exact h
    rw [hs, if_neg h]; rfl

theorem lrelu_eq (x : EReal) :
    Scalar.select (FloatOps.cmpf (F := Ideal) (φ := .f32) .oge x (FloatOps.ofBits .f32 0x00000000#32)) x
      (FloatOps.mulf (F := Ideal) (φ := .f32) (FloatOps.ofBits .f32 0x3C23D70A#32) x) = lrelu x := by
  show Scalar.select (Ideal.cmp .oge x (Ideal.ofBits .f32 0x00000000#32)) x (Ideal.ofBits .f32 0x3C23D70A#32 * x) = _
  rw [Ideal.ofBits_zero_f32]
  rfl

theorem scatter_gather_eq {D : Nat}
    (wfS : ScatterDims.WF ⟨2, ![50000, D]⟩ ⟨2, ![800000, 1]⟩ ⟨2, ![800000, D]⟩ [1] [0] [0] 1)
    (wfG : GatherDims.WF ⟨2, ![50000, D]⟩ ⟨2, ![800000, 1]⟩ ⟨2, ![800000, D]⟩ [1] [0] [] [0] [] 1 ![1, D])
    (z : (⟨2, ![50000, D]⟩ : Shape).Idx → EReal) (hz : ∀ i, z i = 0)
    (idxD : IVec ⟨2, ![800000, 1]⟩ 32) (dst : Fin 800000 → BitVec 32) (hD : ∀ e, idxD (ix2 e 0) = dst e)
    (idxS : IVec ⟨2, ![800000, 1]⟩ 32) (src : Fin 800000 → BitVec 32)
    (hS : ∀ e, idxS (ix2 e 0) = if (src e).toInt < 0 then src e + 50000#32 else src e)
    (y : (⟨2, ![50000, D]⟩ : Shape).Idx → EReal) (n : Fin 50000) (c : Fin D) :
    Host.scatterAdd (F := Ideal) (φ := .f32) (rowScatterDims 50000 800000 D wfS) z idxD
      (Host.gather (rowGatherDims 50000 800000 D wfG) y idxS) (ix2 n c) = segsum (rowsOf (arr2 y) src) dst n c := by
  show Ideal.hostScatterAdd (rowScatterDims 50000 800000 D wfS) z idxD
    (Host.gather (rowGatherDims 50000 800000 D wfG) y idxS) (ix2 n c) = _
  rw [scatterAdd_zero_eq_segsum wfS z hz idxD dst hD,
    show arr2 (Host.gather (rowGatherDims 50000 800000 D wfG) y idxS) = rowsOf (arr2 y) src from
      funext fun e => funext fun c' => gather_eq_rowsOf wfG y idxS src hS e c']

noncomputable section Host

variable {F : FTy → Type} [FloatOps F] (wc : (⟨1, ![800000]⟩ : Shape).BroadcastsInDim ⟨2, ![800000, 1]⟩ ![0])
  (ws : (⟨0, ![]⟩ : Shape).BroadcastsInDim ⟨1, ![800000]⟩ ![]) (src dst : IVec ⟨1, ![800000]⟩ 32)

-- The size of the one broadcast axis is not one, so the column's entry at `e` is the vector's.
theorem col_eq {α : Type} (v : (⟨1, ![800000]⟩ : Shape).Idx → α) (e : Fin 800000) :
    broadcastInDim ⟨2, ![800000, 1]⟩ ![0] wc v (ix2 e 0) = arr1 v e :=
  broadcastInDim_apply _ wc v _ (ix1 e) fun a => by
    match a with
    | ⟨0, _⟩ => show e.val = if (800000 : Nat) = 1 then 0 else e.val; rw [if_neg (by decide)]

section Agg

variable {D : Nat} (wS : ScatterDims.WF ⟨2, ![50000, D]⟩ ⟨2, ![800000, 1]⟩ ⟨2, ![800000, D]⟩ [1] [0] [0] 1)
  (wG : GatherDims.WF ⟨2, ![50000, D]⟩ ⟨2, ![800000, 1]⟩ ⟨2, ![800000, D]⟩ [1] [0] [] [0] [] 1 ![1, D])
  (wz : (⟨0, ![]⟩ : Shape).BroadcastsInDim ⟨2, ![50000, D]⟩ ![])

-- The host's aggregation: the rows of `y` the source words name, scatter-added into zeros at the destination words.
abbrev hostAgg (y : FVec F ⟨2, ![50000, D]⟩ .f32) : FVec F ⟨2, ![50000, D]⟩ .f32 :=
  Host.scatterAdd (F := F) (φ := .f32) (rowScatterDims 50000 800000 D wS)
    (broadcastInDim ⟨2, ![50000, D]⟩ ![] wz (constant (F := F) ⟨0, ![]⟩ .f32 0x00000000#32))
    (broadcastInDim ⟨2, ![800000, 1]⟩ ![0] wc dst)
    (Host.gather (rowGatherDims 50000 800000 D wG) y (broadcastInDim ⟨2, ![800000, 1]⟩ ![0] wc
      (select (cmpi .slt src (broadcastInDim ⟨1, ![800000]⟩ ![] ws (constantI ⟨0, ![]⟩ 32 0#32)))
        (addi src (broadcastInDim ⟨1, ![800000]⟩ ![] ws (constantI ⟨0, ![]⟩ 32 50000#32))) src)))

theorem hostAgg_eq (y : FVec Ideal ⟨2, ![50000, D]⟩ .f32) :
    arr2 (hostAgg wc ws src dst wS wG wz y) = segsum (rowsOf (arr2 y) (arr1 src)) (arr1 dst) := by
  funext n c
  refine scatter_gather_eq wS wG _ (fun _ => ?_) _ (arr1 dst) (col_eq wc dst) _ (arr1 src) (fun e => ?_) y n c
  · exact Ideal.ofBits_zero_f32
  · exact (col_eq wc _ e).trans (select_slt_zero (arr1 src e))

end Agg

-- The product's dimension numbers are the plain ones: an entry is the sum over the one contracted coordinate.
theorem mm_eq {A K J : Nat} (x : FVec Ideal ⟨2, ![A, K]⟩ .f32) (w : FVec Ideal ⟨2, ![K, J]⟩ .f32) :
    arr2 (Host.dotGeneral (F := Ideal) (DotDims.plain A K J) none x w) = mm (arr2 x) (arr2 w) :=
  funext fun a => funext fun j => StackMember.dotGeneral_plain_apply none x w a j

section Post

variable {J : Nat} (w1 : (⟨1, ![J]⟩ : Shape).BroadcastsInDim ⟨2, ![1, J]⟩ ![1])
  (w2 : (⟨2, ![1, J]⟩ : Shape).BroadcastsInDim ⟨2, ![50000, J]⟩ ![0, 1])
  (wa : (⟨0, ![]⟩ : Shape).BroadcastsInDim ⟨2, ![50000, J]⟩ ![])

-- The bias vector made a row and the row copied to every node: at `(n, j)` its entry `j`.
theorem bias_eq {α : Type} (b : (⟨1, ![J]⟩ : Shape).Idx → α) (n : Fin 50000) (j : Fin J) :
    broadcastInDim ⟨2, ![50000, J]⟩ ![0, 1] w2 (broadcastInDim ⟨2, ![1, J]⟩ ![1] w1 b) (ix2 n j) = arr1 b j :=
  (broadcastInDim_oneRow_apply w2 _ n j).trans (broadcastInDim_apply _ w1 b _ (ix1 j) fun a => by
    match a with
    | ⟨0, _⟩ =>
      show j.val = if J = 1 then 0 else j.val
      have := j.isLt
      by_cases h : J = 1
      · rw [if_pos h]; omega
      · rw [if_neg h])

-- The host's bias and rectifier on `q`.
abbrev hostPost (q : FVec F ⟨2, ![50000, J]⟩ .f32) (b : FVec F ⟨1, ![J]⟩ .f32) : FVec F ⟨2, ![50000, J]⟩ .f32 :=
  let p := addf q (broadcastInDim ⟨2, ![50000, J]⟩ ![0, 1] w2 (broadcastInDim ⟨2, ![1, J]⟩ ![1] w1 b))
  select (cmpf .oge p (broadcastInDim ⟨2, ![50000, J]⟩ ![] wa (constant (F := F) ⟨0, ![]⟩ .f32 0x00000000#32))) p
    (mulf (broadcastInDim ⟨2, ![50000, J]⟩ ![] wa (constant (F := F) ⟨0, ![]⟩ .f32 0x3C23D70A#32)) p)

theorem hostPost_eq (q : FVec Ideal ⟨2, ![50000, J]⟩ .f32) (b : FVec Ideal ⟨1, ![J]⟩ .f32) :
    arr2 (hostPost w1 w2 wa q b) = fun n j => lrelu (arr2 q n j + arr1 b j) :=
  funext fun n => funext fun j =>
    (lrelu_eq _).trans (congrArg (fun t : EReal => lrelu (arr2 q n j + t)) (bias_eq w1 w2 b n j))

end Post

variable {K J : Nat}
  (wS : ScatterDims.WF ⟨2, ![50000, K]⟩ ⟨2, ![800000, 1]⟩ ⟨2, ![800000, K]⟩ [1] [0] [0] 1)
  (wG : GatherDims.WF ⟨2, ![50000, K]⟩ ⟨2, ![800000, 1]⟩ ⟨2, ![800000, K]⟩ [1] [0] [] [0] [] 1 ![1, K])
  (wz : (⟨0, ![]⟩ : Shape).BroadcastsInDim ⟨2, ![50000, K]⟩ ![])

-- A host layer that aggregates first, then multiplies: widths `K → J`.
abbrev hostLayerAgg (w1 : (⟨1, ![J]⟩ : Shape).BroadcastsInDim ⟨2, ![1, J]⟩ ![1])
    (w2 : (⟨2, ![1, J]⟩ : Shape).BroadcastsInDim ⟨2, ![50000, J]⟩ ![0, 1])
    (wa : (⟨0, ![]⟩ : Shape).BroadcastsInDim ⟨2, ![50000, J]⟩ ![])
    (y : FVec F ⟨2, ![50000, K]⟩ .f32) (W : FVec F ⟨2, ![K, J]⟩ .f32) (b : FVec F ⟨1, ![J]⟩ .f32) : FVec F ⟨2, ![50000, J]⟩ .f32 :=
  hostPost w1 w2 wa (Host.dotGeneral (F := F) (DotDims.plain 50000 K J) none (hostAgg wc ws src dst wS wG wz y) W) b

theorem hostLayerAgg_eq {w1 w2 wa} (y : FVec Ideal ⟨2, ![50000, K]⟩ .f32) (W : FVec Ideal ⟨2, ![K, J]⟩ .f32) (b : FVec Ideal ⟨1, ![J]⟩ .f32) :
    arr2 (hostLayerAgg wc ws src dst wS wG wz w1 w2 wa y W b) = layerAgg (arr2 y) (arr1 src) (arr1 dst) (arr2 W) (arr1 b) := by
  unfold hostLayerAgg
  rw [hostPost_eq, mm_eq, hostAgg_eq]; rfl

-- A host layer that multiplies first, then aggregates: widths `J → K`.
abbrev hostLayerMul (w1 : (⟨1, ![K]⟩ : Shape).BroadcastsInDim ⟨2, ![1, K]⟩ ![1])
    (w2 : (⟨2, ![1, K]⟩ : Shape).BroadcastsInDim ⟨2, ![50000, K]⟩ ![0, 1])
    (y : FVec F ⟨2, ![50000, J]⟩ .f32) (W : FVec F ⟨2, ![J, K]⟩ .f32) (b : FVec F ⟨1, ![K]⟩ .f32) : FVec F ⟨2, ![50000, K]⟩ .f32 :=
  hostPost w1 w2 wz (hostAgg wc ws src dst wS wG wz (Host.dotGeneral (F := F) (DotDims.plain 50000 J K) none y W)) b

theorem hostLayerMul_eq {w1 w2} (y : FVec Ideal ⟨2, ![50000, J]⟩ .f32) (W : FVec Ideal ⟨2, ![J, K]⟩ .f32) (b : FVec Ideal ⟨1, ![K]⟩ .f32) :
    arr2 (hostLayerMul wc ws src dst wS wG wz w1 w2 y W b) = layerMul (arr2 y) (arr1 src) (arr1 dst) (arr2 W) (arr1 b) := by
  unfold hostLayerMul
  rw [hostPost_eq, hostAgg_eq, mm_eq]; rfl

end Host

end Cert.Gnn
-- ==== Proof.RefRead.lean ====
/- The reference's value of its arguments: four host layers, two of each kind, then the slice at node 1 and the reshape to the result. -/
import proofs.«406692_j3745211482886_1_alg».proof.Proof.Gen.ReferenceIdeal
import proofs.«406692_j3745211482886_1_alg».proof.Proof.RefIndex

noncomputable section

namespace Cert.ReferenceIdeal.Read

open Cert.ReferenceIdeal Cert.ReferenceIdeal.Gen Cert.Gnn Idealize.ShloMosaic Idealize.ShloMosaic.TcCoe Idealize.SL.Sem Idealize.ShloMosaic.StableHlo

variable {F : FTy → Type} [FloatOps F]
variable (x0 : (⟨S50000x1, .f32⟩ : BufTy).Contents (Elt F)) (x1 x2 : (⟨S800000, .i32⟩ : BufTy).Contents (Elt F)) (x3 : (⟨S1x64, .f32⟩ : BufTy).Contents (Elt F)) (x4 : (⟨S64, .f32⟩ : BufTy).Contents (Elt F)) (x5 : (⟨S64x128, .f32⟩ : BufTy).Contents (Elt F)) (x6 : (⟨S128, .f32⟩ : BufTy).Contents (Elt F)) (x7 : (⟨S128x64, .f32⟩ : BufTy).Contents (Elt F)) (x8 : (⟨S64, .f32⟩ : BufTy).Contents (Elt F)) (x9 : (⟨S64x1, .f32⟩ : BufTy).Contents (Elt F)) (x10 : (⟨S1, .f32⟩ : BufTy).Contents (Elt F))

def val_main_v18 : (⟨S50000x64, .f32⟩ : BufTy).Contents (Elt F) :=
  hostLayerAgg (F := F) bcast_S800000_S800000x1_0 bcast_S_S800000 x1 x2 scatter_S50000x1_S800000x1_S800000x1_1_0_0_1_wf
    gather_S50000x1_S800000x1_S800000x1_1_0_n_n_0_1_11_wf bcast_S_S50000x1 bcast_S64_S1x64_1 bcast_S1x64_S50000x64_0_1 bcast_S_S50000x64 x0 x3 x4
def val_main_v37 : (⟨S50000x128, .f32⟩ : BufTy).Contents (Elt F) :=
  hostLayerAgg (F := F) bcast_S800000_S800000x1_0 bcast_S_S800000 x1 x2 scatter_S50000x64_S800000x1_S800000x64_1_0_0_1_wf
    gather_S50000x64_S800000x1_S800000x64_1_0_n_n_0_1_164_wf bcast_S_S50000x64 bcast_S128_S1x128_1 bcast_S1x128_S50000x128_0_1 bcast_S_S50000x128
    (val_main_v18 (F := F) x0 x1 x2 x3 x4) x5 x6
def val_main_v56 : (⟨S50000x64, .f32⟩ : BufTy).Contents (Elt F) :=
  hostLayerMul (F := F) bcast_S800000_S800000x1_0 bcast_S_S800000 x1 x2 scatter_S50000x64_S800000x1_S800000x64_1_0_0_1_wf
    gather_S50000x64_S800000x1_S800000x64_1_0_n_n_0_1_164_wf bcast_S_S50000x64 bcast_S64_S1x64_1 bcast_S1x64_S50000x64_0_1
    (val_main_v37 (F := F) x0 x1 x2 x3 x4 x5 x6) x7 x8
def val_main_v75 : (⟨S50000x1, .f32⟩ : BufTy).Contents (Elt F) :=
  hostLayerMul (F := F) bcast_S800000_S800000x1_0 bcast_S_S800000 x1 x2 scatter_S50000x1_S800000x1_S800000x1_1_0_0_1_wf
    gather_S50000x1_S800000x1_S800000x1_1_0_n_n_0_1_11_wf bcast_S_S50000x1 bcast_S1_S1x1_1 bcast_S1x1_S50000x1_0_1
    (val_main_v56 (F := F) x0 x1 x2 x3 x4 x5 x6 x7 x8) x9 x10
def val_main_v76 : (⟨S1x1, .f32⟩ : BufTy).Contents (Elt F) :=
  extractStridedSlice S1x1 ![1, 0] (val_main_v75 (F := F) x0 x1 x2 x3 x4 x5 x6 x7 x8 x9 x10) slices_S50000x1_S1x1_1_0
def val_main_v77 : (⟨S1, .f32⟩ : BufTy).Contents (Elt F) :=
  shapeCast _ (val_main_v76 (F := F) x0 x1 x2 x3 x4 x5 x6 x7 x8 x9 x10) shapeCasts_S1x1_S1

end Cert.ReferenceIdeal.Read

end
-- ==== Proof.RefRun.lean ====
/- The reference's @main as the list of its 98 host operations, and its run: every weakly fair execution ends with the result at the last stage's value of the arguments, the arguments unchanged. -/
import proofs.«406692_j3745211482886_1_alg».proof.Proof.RefRead
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg1 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg1 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    nullary main_cst (constant S_ .f32 0x00000000#32),
    unary main_cst main_v7 (broadcastInDim S50000x1 ![] bcast_S_S50000x1 : (⟨S_, .f32⟩ : BufTy).Contents (Elt F) → (⟨S50000x1, .f32⟩ : BufTy).Contents (Elt F)),
    unary main_arg2 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    binary main_v9 main_arg3 main_v10 ((fun l r => Host.dotGeneral dot_S50000x1_S1x64_S50000x64_1_0_0_1_n_n none l r) : (⟨S50000x1, .f32⟩ : BufTy).Contents (Elt F) → (⟨S1x64, .f32⟩ : BufTy).Contents (Elt F) → (⟨S50000x64, .f32⟩ : BufTy).Contents (Elt F)),
    unary main_arg4 main_v11 (broadcastInDim S1x64 ![1] bcast_S64_S1x64_1 : (⟨S64, .f32⟩ : BufTy).Contents (Elt F) → (⟨S1x64, .f32⟩ : BufTy).Contents (Elt F)),
    unary main_v11 main_v12 (broadcastInDim S50000x64 ![0, 1] bcast_S1x64_S50000x64_0_1 : (⟨S1x64, .f32⟩ : BufTy).Contents (Elt F) → (⟨S50000x64, .f32⟩ : BufTy).Contents (Elt F)),
    binary main_v10 main_v12 main_v13 (addf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x00000000#32),
    unary main_cst_1 main_v14 (broadcastInDim S50000x64 ![] bcast_S_S50000x64 : (⟨S_, .f32⟩ : BufTy).Contents (Elt F) → (⟨S50000x64, .f32⟩ : BufTy).Contents (Elt F)),
    binary main_v13 main_v14 main_v15 (cmpf .oge : (⟨S50000x64, .f32⟩ : BufTy).Contents (Elt F) → (⟨S50000x64, .f32⟩ : BufTy).Contents (Elt F) → (⟨S50000x64, .i1⟩ : BufTy).Contents (Elt F)),
    nullary main_cst_2 (constant S_ .f32 0x3C23D70A#32),
    unary main_cst_2 main_v16 (broadcastInDim S50000x64 ![] bcast_S_S50000x64 : (⟨S_, .f32⟩ : BufTy).Contents (Elt F) → (⟨S50000x64, .f32⟩ : BufTy).Contents (Elt F)),
    binary main_v16 main_v13 main_v17 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v15) (TRef.of (T := ⟨S50000x64, .f32⟩) main_v13) (TRef.of (T := ⟨S50000x64, .f32⟩) main_v17) (TRef.of (T := ⟨S50000x64, .f32⟩) main_v18) select,
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_arg1 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_arg1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_arg1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v18 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_5 (constant S_ .f32 0x00000000#32),
    unary main_cst_5 main_v26 (broadcastInDim S50000x64 ![] bcast_S_S50000x64 : (⟨S_, .f32⟩ : BufTy).Contents (Elt F) → (⟨S50000x64, .f32⟩ : BufTy).Contents (Elt F)),
    unary main_arg2 main_v27 (broadcastInDim S800000x1 ![0] bcast_S800000_S800000x1_0 : (⟨S800000, .i32⟩ : BufTy).Contents (Elt F) → (⟨S800000x1, .i32⟩ : BufTy).Contents (Elt F)),
    ternary main_v26 main_v27 main_v25 main_v28 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v28 main_arg5 main_v29 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg6 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    unary main_cst_6 main_v33 (broadcastInDim S50000x128 ![] bcast_S_S50000x128 : (⟨S_, .f32⟩ : BufTy).Contents (Elt F) → (⟨S50000x128, .f32⟩ : BufTy).Contents (Elt F)),
    binary main_v32 main_v33 main_v34 (cmpf .oge : (⟨S50000x128, .f32⟩ : BufTy).Contents (Elt F) → (⟨S50000x128, .f32⟩ : BufTy).Contents (Elt F) → (⟨S50000x128, .i1⟩ : BufTy).Contents (Elt F)),
    nullary main_cst_7 (constant S_ .f32 0x3C23D70A#32),
    unary main_cst_7 main_v35 (broadcastInDim S50000x128 ![] bcast_S_S50000x128 : (⟨S_, .f32⟩ : BufTy).Contents (Elt F) → (⟨S50000x128, .f32⟩ : BufTy).Contents (Elt F)),
    binary main_v35 main_v32 main_v36 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v34) (TRef.of (T := ⟨S50000x128, .f32⟩) main_v32) (TRef.of (T := ⟨S50000x128, .f32⟩) main_v36) (TRef.of (T := ⟨S50000x128, .f32⟩) main_v37) select,
    binary main_v37 main_arg7 main_v38 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_8 (constantI S_ 32 0#32),
    unary main_c_8 main_v39 (broadcastInDim S800000 ![] bcast_S_S800000 : (⟨S_, .i32⟩ : BufTy).Contents (Elt F) → (⟨S800000, .i32⟩ : BufTy).Contents (Elt F)),
    binary main_arg1 main_v39 main_v40 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v41 (broadcastInDim S800000 ![] bcast_S_S800000 : (⟨S_, .i32⟩ : BufTy).Contents (Elt F) → (⟨S800000, .i32⟩ : BufTy).Contents (Elt F)),
    binary main_arg1 main_v41 main_v42 (addi : (⟨S800000, .i32⟩ : BufTy).Contents (Elt F) → (⟨S800000, .i32⟩ : BufTy).Contents (Elt F) → (⟨S800000, .i32⟩ : BufTy).Contents (Elt F)),
    ternary main_v40 main_v42 main_arg1 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v43 main_v44 (broadcastInDim S800000x1 ![0] bcast_S800000_S800000x1_0 : (⟨S800000, .i32⟩ : BufTy).Contents (Elt F) → (⟨S800000x1, .i32⟩ : BufTy).Contents (Elt F)),
    binary main_v38 main_v44 main_v45 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_10 (constant S_ .f32 0x00000000#32),
    unary main_cst_10 main_v46 (broadcastInDim S50000x64 ![] bcast_S_S50000x64 : (⟨S_, .f32⟩ : BufTy).Contents (Elt F) → (⟨S50000x64, .f32⟩ : BufTy).Contents (Elt F)),
    unary main_arg2 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg8 main_v49 (broadcastInDim S1x64 ![1] bcast_S64_S1x64_1 : (⟨S64, .f32⟩ : BufTy).Contents (Elt F) → (⟨S1x64, .f32⟩ : BufTy).Contents (Elt F)),
    unary main_v49 main_v50 (broadcastInDim S50000x64 ![0, 1] bcast_S1x64_S50000x64_0_1 : (⟨S1x64, .f32⟩ : BufTy).Contents (Elt F) → (⟨S50000x64, .f32⟩ : BufTy).Contents (Elt F)),
    binary main_v48 main_v50 main_v51 (addf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x00000000#32),
    unary main_cst_11 main_v52 (broadcastInDim S50000x64 ![] bcast_S_S50000x64 : (⟨S_, .f32⟩ : BufTy).Contents (Elt F) → (⟨S50000x64, .f32⟩ : BufTy).Contents (Elt F)),
    binary main_v51 main_v52 main_v53 (cmpf .oge : (⟨S50000x64, .f32⟩ : BufTy).Contents (Elt F) → (⟨S50000x64, .f32⟩ : BufTy).Contents (Elt F) → (⟨S50000x64, .i1⟩ : BufTy).Contents (Elt F)),
    nullary main_cst_12 (constant S_ .f32 0x3C23D70A#32),
    unary main_cst_12 main_v54 (broadcastInDim S50000x64 ![] bcast_S_S50000x64 : (⟨S_, .f32⟩ : BufTy).Contents (Elt F) → (⟨S50000x64, .f32⟩ : BufTy).Contents (Elt F)),
    binary main_v54 main_v51 main_v55 (mulf : (⟨S50000x64, .f32⟩ : BufTy).Contents (Elt F) → (⟨S50000x64, .f32⟩ : BufTy).Contents (Elt F) → (⟨S50000x64, .f32⟩ : BufTy).Contents (Elt F)),
    TRef.ternary (TRef.of (T := ⟨S50000x64, .i1⟩) main_v53) (TRef.of (T := ⟨S50000x64, .f32⟩) main_v51) (TRef.of (T := ⟨S50000x64, .f32⟩) main_v55) (TRef.of (T := ⟨S50000x64, .f32⟩) main_v56) select,
    binary main_v56 main_arg9 main_v57 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    nullary main_c_13 (constantI S_ 32 0#32),
    unary main_c_13 main_v58 (broadcastInDim S800000 ![] bcast_S_S800000 : (⟨S_, .i32⟩ : BufTy).Contents (Elt F) → (⟨S800000, .i32⟩ : BufTy).Contents (Elt F)),
    binary main_arg1 main_v58 main_v59 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v60 (broadcastInDim S800000 ![] bcast_S_S800000 : (⟨S_, .i32⟩ : BufTy).Contents (Elt F) → (⟨S800000, .i32⟩ : BufTy).Contents (Elt F)),
    binary main_arg1 main_v60 main_v61 (addi : (⟨S800000, .i32⟩ : BufTy).Contents (Elt F) → (⟨S800000, .i32⟩ : BufTy).Contents (Elt F) → (⟨S800000, .i32⟩ : BufTy).Contents (Elt F)),
    ternary main_v59 main_v61 main_arg1 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v62 main_v63 (broadcastInDim S800000x1 ![0] bcast_S800000_S800000x1_0 : (⟨S800000, .i32⟩ : BufTy).Contents (Elt F) → (⟨S800000x1, .i32⟩ : BufTy).Contents (Elt F)),
    binary main_v57 main_v63 main_v64 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    nullary main_cst_15 (constant S_ .f32 0x00000000#32),
    unary main_cst_15 main_v65 (broadcastInDim S50000x1 ![] bcast_S_S50000x1 : (⟨S_, .f32⟩ : BufTy).Contents (Elt F) → (⟨S50000x1, .f32⟩ : BufTy).Contents (Elt F)),
    unary main_arg2 main_v66 (broadcastInDim S800000x1 ![0] bcast_S800000_S800000x1_0 : (⟨S800000, .i32⟩ : BufTy).Contents (Elt F) → (⟨S800000x1, .i32⟩ : BufTy).Contents (Elt F)),
    ternary main_v65 main_v66 main_v64 main_v67 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    unary main_arg10 main_v68 (broadcastInDim S1x1 ![1] bcast_S1_S1x1_1 : (⟨S1, .f32⟩ : BufTy).Contents (Elt F) → (⟨S1x1, .f32⟩ : BufTy).Contents (Elt F)),
    unary main_v68 main_v69 (broadcastInDim S50000x1 ![0, 1] bcast_S1x1_S50000x1_0_1 : (⟨S1x1, .f32⟩ : BufTy).Contents (Elt F) → (⟨S50000x1, .f32⟩ : BufTy).Contents (Elt F)),
    binary main_v67 main_v69 main_v70 (addf : (⟨S50000x1, .f32⟩ : BufTy).Contents (Elt F) → (⟨S50000x1, .f32⟩ : BufTy).Contents (Elt F) → (⟨S50000x1, .f32⟩ : BufTy).Contents (Elt F)),
    nullary main_cst_16 (constant S_ .f32 0x00000000#32),
    unary main_cst_16 main_v71 (broadcastInDim S50000x1 ![] bcast_S_S50000x1 : (⟨S_, .f32⟩ : BufTy).Contents (Elt F) → (⟨S50000x1, .f32⟩ : BufTy).Contents (Elt F)),
    binary main_v70 main_v71 main_v72 (cmpf .oge : (⟨S50000x1, .f32⟩ : BufTy).Contents (Elt F) → (⟨S50000x1, .f32⟩ : BufTy).Contents (Elt F) → (⟨S50000x1, .i1⟩ : BufTy).Contents (Elt F)),
    nullary main_cst_17 (constant S_ .f32 0x3C23D70A#32),
    unary main_cst_17 main_v73 (broadcastInDim S50000x1 ![] bcast_S_S50000x1 : (⟨S_, .f32⟩ : BufTy).Contents (Elt F) → (⟨S50000x1, .f32⟩ : BufTy).Contents (Elt F)),
    binary main_v73 main_v70 main_v74 (mulf : (⟨S50000x1, .f32⟩ : BufTy).Contents (Elt F) → (⟨S50000x1, .f32⟩ : BufTy).Contents (Elt F) → (⟨S50000x1, .f32⟩ : BufTy).Contents (Elt F)),
    TRef.ternary (TRef.of (T := ⟨S50000x1, .i1⟩) main_v72) (TRef.of (T := ⟨S50000x1, .f32⟩) main_v70) (TRef.of (T := ⟨S50000x1, .f32⟩) main_v74) (TRef.of (T := ⟨S50000x1, .f32⟩) main_v75) select,
    unary main_v75 main_v76 ((extractStridedSlice S1x1 ![1, 0] · slices_S50000x1_S1x1_1_0) : (⟨S50000x1, .f32⟩ : BufTy).Contents (Elt F) → (⟨S1x1, .f32⟩ : BufTy).Contents (Elt F)),
    reshape main_v76 main_v77 rfl shapeCasts_S1x1_S1 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub ..⟩

def res_main_v77 (m : (ℓ : Loc nD τ sig) → Buf (Elt F) ℓ) (c : Dev nD) : Buf (Elt F) ((c.tc : Thread nD τ).loc main_v77) :=
  Cert.ReferenceIdeal.Read.val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

abbrev res_out0 (m : (ℓ : Loc nD τ sig) → Buf (Elt F) ℓ) (c : Dev nD) : Buf (Elt F) ((c.tc : Thread nD τ).loc main_v77) := res_main_v77 m c

set_option maxRecDepth 8192 in
set_option maxHeartbeats 39200000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = res_main_v77 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v77).trans (by after_results_simp <;> rfl <;> (unfold res_main_v77; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.Value

namespace Cert.ReferenceIdeal.Read

open Cert.ReferenceIdeal Idealize.ShloMosaic Idealize.ShloMosaic.TcCoe Idealize.SL.Sem

variable {F : FTy → Type} [FloatOps F]

theorem val_main_v77_eq (m : (ℓ : Loc nD τ sig) → Buf (Elt F) ℓ) (c : Dev nD) :
    Cert.ReferenceIdeal.Value.res_main_v77 m c = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

end Cert.ReferenceIdeal.Read

end
-- ==== Proof.RefValue.lean ====
/- The reference's run, read at the result's one index, is the network's value of the eleven argument arrays. -/
import proofs.«406692_j3745211482886_1_alg».proof.Proof.RefRun
import proofs.«406692_j3745211482886_1_alg».proof.Proof.RefIndex
import Idealize.ShloMosaic.Lib.ValueLayout

noncomputable section

namespace Cert.ReferenceIdeal.RefValue

open Cert.ReferenceIdeal Cert.ReferenceIdeal.Gen Cert.ReferenceIdeal.Read Cert.Gnn
open Idealize.ShloMosaic Idealize.ShloMosaic.ValueIdx Idealize.ShloMosaic.TcCoe Idealize.SL.Sem Idealize.ShloMosaic.StableHlo

variable (x0 : (⟨S50000x1, .f32⟩ : BufTy).Contents (Elt Ideal)) (x1 x2 : (⟨S800000, .i32⟩ : BufTy).Contents (Elt Ideal)) (x3 : (⟨S1x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x1, .f32⟩ : BufTy).Contents (Elt Ideal)) (x10 : (⟨S1, .f32⟩ : BufTy).Contents (Elt Ideal))

-- Each of the reference's four layers is a host layer of its kind, hence the network's.
theorem arr_v18 : arr2 (val_main_v18 (F := Ideal) x0 x1 x2 x3 x4) = layerAgg (arr2 x0) (arr1 x1) (arr1 x2) (arr2 x3) (arr1 x4) :=
  hostLayerAgg_eq _ _ x1 x2 _ _ _ x0 x3 x4

theorem arr_v37 : arr2 (val_main_v37 (F := Ideal) x0 x1 x2 x3 x4 x5 x6)
    = layerAgg (arr2 (val_main_v18 (F := Ideal) x0 x1 x2 x3 x4)) (arr1 x1) (arr1 x2) (arr2 x5) (arr1 x6) :=
  hostLayerAgg_eq _ _ x1 x2 _ _ _ _ x5 x6

theorem arr_v56 : arr2 (val_main_v56 (F := Ideal) x0 x1 x2 x3 x4 x5 x6 x7 x8)
    = layerMul (arr2 (val_main_v37 (F := Ideal) x0 x1 x2 x3 x4 x5 x6)) (arr1 x1) (arr1 x2) (arr2 x7) (arr1 x8) :=
  hostLayerMul_eq _ _ x1 x2 _ _ _ _ x7 x8

theorem arr_v75 : arr2 (val_main_v75 (F := Ideal) x0 x1 x2 x3 x4 x5 x6 x7 x8 x9 x10)
    = layerMul (arr2 (val_main_v56 (F := Ideal) x0 x1 x2 x3 x4 x5 x6 x7 x8)) (arr1 x1) (arr1 x2) (arr2 x9) (arr1 x10) :=
  hostLayerMul_eq _ _ x1 x2 _ _ _ _ x9 x10

-- The result is the slice at node `1`, column `0` of the last layer.
theorem res_out0_apply (m : (ℓ : Loc nD τ sig) → Buf (Elt Ideal) ℓ) (c : Dev nD) :
    Cert.ReferenceIdeal.Value.res_out0 (F := Ideal) m c (ix1 0)
      = out (arr2 (a := 50000) (b := 1) (m ((c.tc : Thread nD τ).loc main_arg0))) (arr1 (a := 800000) (m ((c.tc : Thread nD τ).loc main_arg1))) (arr1 (a := 800000) (m ((c.tc : Thread nD τ).loc main_arg2)))
          (arr2 (a := 1) (b := 64) (m ((c.tc : Thread nD τ).loc main_arg3))) (arr1 (a := 64) (m ((c.tc : Thread nD τ).loc main_arg4)))
          (arr2 (a := 64) (b := 128) (m ((c.tc : Thread nD τ).loc main_arg5))) (arr1 (a := 128) (m ((c.tc : Thread nD τ).loc main_arg6)))
          (arr2 (a := 128) (b := 64) (m ((c.tc : Thread nD τ).loc main_arg7))) (arr1 (a := 64) (m ((c.tc : Thread nD τ).loc main_arg8)))
          (arr2 (a := 64) (b := 1) (m ((c.tc : Thread nD τ).loc main_arg9))) (arr1 (a := 1) (m ((c.tc : Thread nD τ).loc main_arg10))) := by
  show Cert.ReferenceIdeal.Value.res_main_v77 (F := Ideal) m c (ix1 0) = _
  rw [val_main_v77_eq]
  refine (shapeCast_1a_a_apply _ shapeCasts_S1x1_S1 0).trans ((extractStridedSlice_apply _ _ slices_S50000x1_S1x1_1_0 _
    (ix2 (⟨1, by decide⟩ : Fin 50000) (⟨0, by decide⟩ : Fin 1)) fun a => by match a with | ⟨0, _⟩ => rfl | ⟨1, _⟩ => rfl).trans ?_)
  show arr2 (val_main_v75 (F := Ideal) _ _ _ _ _ _ _ _ _ _ _) _ _ = _
  rw [arr_v75, arr_v56, arr_v37, arr_v18]
  rfl

end Cert.ReferenceIdeal.RefValue

end
-- ==== Proof.lean ====
/- The certificate of a four-layer graph convolution on 50000 nodes and 800000 edges against its host reference. -/
import proofs.«406692_j3745211482886_1_alg».proof.Defs
import proofs.«406692_j3745211482886_1_alg».proof.Proof.Gen.Kernel
import proofs.«406692_j3745211482886_1_alg».proof.Proof.Gen.Kernel.Skeleton
import proofs.«406692_j3745211482886_1_alg».proof.Proof.Gen.Kernel.Launch
import proofs.«406692_j3745211482886_1_alg».proof.Proof.Gen.Kernel.Regions
import proofs.«406692_j3745211482886_1_alg».proof.Proof.Gen.Kernel.Points
import proofs.«406692_j3745211482886_1_alg».proof.Proof.Gen.KernelIdeal
import proofs.«406692_j3745211482886_1_alg».proof.Proof.Gen.KernelIdeal.Skeleton
import proofs.«406692_j3745211482886_1_alg».proof.Proof.Gen.KernelIdeal.Launch
import proofs.«406692_j3745211482886_1_alg».proof.Proof.Gen.KernelIdeal.Regions
import proofs.«406692_j3745211482886_1_alg».proof.Proof.Gen.KernelIdeal.Points
import proofs.«406692_j3745211482886_1_alg».proof.Proof.Gen.ReferenceIdeal
import proofs.«406692_j3745211482886_1_alg».proof.Proof.Gen.Pre_finite_inputs
import proofs.«406692_j3745211482886_1_alg».proof.Proof.KI.Run
import proofs.«406692_j3745211482886_1_alg».proof.Proof.KI.Chain
import proofs.«406692_j3745211482886_1_alg».proof.Proof.K.Run
import proofs.«406692_j3745211482886_1_alg».proof.Proof.RefRun
import proofs.«406692_j3745211482886_1_alg».proof.Proof.RefValue
import Idealize.ShloMosaic.Adequacy
import Idealize.ShloMosaic.Init

noncomputable section

namespace Cert.Proof

open Idealize.ShloMosaic Idealize.SL.Sem

theorem frame_K : Cert.frame_Kernel := fun m ρ _ =>
  (θ_run Cert.Kernel.defs _ _).mono (fun _ h c => (h c).2) (Cert.Kernel.Hand.run (F := Bits) m ρ)

theorem frame_KI : Cert.frame_KernelIdeal := fun m ρ _ =>
  (θ_run Cert.KernelIdeal.defs _ _).mono (fun _ h c => (h c).2) (Cert.KernelIdeal.Hand.run (F := Ideal) m ρ)

theorem frame_RI : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => fun _ => Cert.KernelIdeal.Hand.Chain.net m c, ?_, ?_⟩
  · exact (θ_run Cert.KernelIdeal.defs _ _).mono
      (fun _ h c => ⟨(h c).1.trans (Cert.KernelIdeal.Hand.Chain.chain m (Cert.KernelIdeal.Hand.outs m)
          (Cert.KernelIdeal.Hand.outs_eq2 m) (Cert.KernelIdeal.Hand.outs_eq4 m) (Cert.KernelIdeal.Hand.outs_eq6 m)
          (Cert.KernelIdeal.Hand.outs_eq8 m) (Cert.KernelIdeal.Hand.outs_eq10 m) (Cert.KernelIdeal.Hand.outs_eq12 m)
          (Cert.KernelIdeal.Hand.outs_eq14 m) (Cert.KernelIdeal.Hand.outs_eq16 m) c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    funext i
    rw [Cert.Gcn.idx_one i]
    refine (Cert.ReferenceIdeal.RefValue.res_out0_apply m' c).trans ?_
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_K, frame_KI, frame_RI, trivial, algebraic⟩

end Cert.Proof

end
